-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256 : Shape := ⟨1, ![256]⟩
abbrev S256x10 : Shape := ⟨2, ![256, 10]⟩
abbrev S50000x256 : Shape := ⟨2, ![50000, 256]⟩
abbrev S512x512 : Shape := ⟨2, ![512, 512]⟩
abbrev S512 : Shape := ⟨1, ![512]⟩
abbrev S256x512 : Shape := ⟨2, ![256, 512]⟩
abbrev S50000 : Shape := ⟨1, ![50000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S50000 : S_.BroadcastsInDim S50000 (![] : Fin 0 → Fin S50000.rank)
  reducesTo_S50000_S_d0 : S50000.ReducesTo [0] S_
  bcast_S_S256x10 : S_.BroadcastsInDim S256x10 (![] : Fin 0 → Fin S256x10.rank)
  reducesTo_S256x10_S_d0_1 : S256x10.ReducesTo [0, 1] S_

variable [Facts]

def fn_part3 {F : FTy → Type} [FloatOps F] (main_arg1 : IVec S256x10 32) (main_arg13 : FVec F S256 .f32) (main_v48 : IVec S_ 1) (main_v49 : FVec F S50000 .f32) (main_v50 : FVec F S50000 .f32) : IVec S_ 1 :=
  let main_v51 : IVec S50000 1 := cmpf .olt main_v49 main_v50
  let main_c_19 : IVec S_ 1 := constantI S_ 1 1#1
  let main_v52 : IVec S_ 1 := (fun x v => Host.reduce IntOp.andi x v reducesTo_S50000_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_c_22 : IVec S_ 32 := constantI S_ 32 0#32
  let main_v59 : IVec S256x10 32 := broadcastInDim S256x10 ![] bcast_S_S256x10 main_c_22
  let main_v60 : IVec S256x10 1 := cmpi .sge main_arg1 main_v59
  let main_c_23 : IVec S_ 1 := constantI S_ 1 1#1
  let main_v61 : IVec S_ 1 := (fun x v => Host.reduce IntOp.andi x v reducesTo_S256x10_S_d0_1 h_S_) main_v60 main_c_23
  let main_v62 : IVec S_ 1 := andi main_v58 main_v61
  let main_c_24 : IVec S_ 32 := constantI S_ 32 50000#32
  let main_v63 : IVec S256x10 32 := broadcastInDim S256x10 ![] bcast_S_S256x10 main_c_24
  let main_v64 : IVec S256x10 1 := cmpi .slt main_arg1 main_v63
  let main_c_25 : IVec S_ 1 := constantI S_ 1 1#1
  let main_v65 : IVec S_ 1 := (fun x v => Host.reduce IntOp.andi x v reducesTo_S256x10_S_d0_1 h_S_) main_v64 main_c_25
  let main_v66 : IVec S_ 1 := andi main_v62 main_v65
  main_v66

def fn_part2 {F : FTy → Type} [FloatOps F] (main_arg1 : IVec S256x10 32) (main_arg9 : FVec F S256x512 .f32) (main_arg10 : FVec F S256 .f32) (main_arg11 : FVec F S50000x256 .f32) (main_arg12 : FVec F S50000 .f32) (main_arg13 : FVec F S256 .f32) (main_v33 : IVec S_ 1) : IVec S_ 1 :=
  let main_v34 : FVec F S256x512 .f32 := Host.absf main_arg9
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S50000x256 .f32 := Host.absf main_arg11
  let main_cst_16 : FVec F S_ .f32 := constant S_ .f32 0x7F800000#32
  let main_v45 : FVec F S50000x256 .f32 := broadcastInDim S50000x256 ![] bcast_S_S50000x256 main_cst_16
  let main_v46 : IVec S50000x256 1 := cmpf .olt main_v44 main_v45
  let main_c_17 : IVec S_ 1 := constantI S_ 1 1#1
  let main_v47 : IVec S_ 1 := (fun x v => Host.reduce IntOp.andi x v reducesTo_S50000x256_S_d0_1 h_S_) main_v46 main_c_17
  let main_v48 : IVec S_ 1 := andi main_v43 main_v47
  let main_v49 : FVec F S50000 .f32 := Host.absf main_arg12
  let main_cst_18 : FVec F S_ .f32 := constant S_ .f32 0x7F800000#32
  let main_v50 : FVec F S50000 .f32 := broadcastInDim S50000 ![] bcast_S_S50000 main_cst_18
  fn_part3 (F := F) main_arg1 main_arg13 main_v48 main_v49 main_v50

def fn_part1 {F : FTy → Type} [FloatOps F] (main_arg1 : IVec S256x10 32) (main_arg6 : FVec F S512 .f32) (main_arg7 : FVec F S256x512 .f32) (main_arg8 : FVec F S256 .f32) (main_arg9 : FVec F S256x512 .f32) (main_arg10 : FVec F S256 .f32) (main_arg11 : FVec F S50000x256 .f32) (main_arg12 : FVec F S50000 .f32) (main_arg13 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x512 .f32 := Host.absf main_arg7
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : IVec S256 32) (main_arg1 : IVec S256x10 32) (main_arg2 : FVec F S50000x256 .f32) (main_arg3 : FVec F S50000x256 .f32) (main_arg4 : FVec F S50000x256 .f32) (main_arg5 : FVec F S512x512 .f32) (main_arg6 : FVec F S512 .f32) (main_arg7 : FVec F S256x512 .f32) (main_arg8 : FVec F S256 .f32) (main_arg9 : FVec F S256x512 .f32) (main_arg10 : FVec F S256 .f32) (main_arg11 : FVec F S50000x256 .f32) (main_arg12 : FVec F S50000 .f32) (main_arg13 : FVec F S256 .f32) : IVec S_ 1 :=
  let main_v0 : FVec F S50000x256 .f32 := Host.absf main_arg2
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg3
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S50000x256 .f32 := Host.absf main_arg4
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg6 main_arg7 main_arg8 main_arg9 main_arg10 main_arg11 main_arg12 main_arg13 main_v13 main_v16
-- ==== Kernel.lean ====
abbrev S256 : Shape := ⟨1, ![256]⟩
abbrev S256x10 : Shape := ⟨2, ![256, 10]⟩
abbrev S50000x256 : Shape := ⟨2, ![50000, 256]⟩
abbrev S512x512 : Shape := ⟨2, ![512, 512]⟩
abbrev S512 : Shape := ⟨1, ![512]⟩
abbrev S256x512 : Shape := ⟨2, ![256, 512]⟩
abbrev S50000 : Shape := ⟨1, ![50000]⟩
abbrev S_ : Shape := ⟨0, ![]⟩
abbrev S256x1 : Shape := ⟨2, ![256, 1]⟩
abbrev S256x256 : Shape := ⟨2, ![256, 256]⟩
abbrev S256x10x1 : Shape := ⟨3, ![256, 10, 1]⟩
abbrev S256x10x256 : Shape := ⟨3, ![256, 10, 256]⟩
abbrev S128x256 : Shape := ⟨2, ![128, 256]⟩
abbrev S128x10x256 : Shape := ⟨3, ![128, 10, 256]⟩
abbrev S128x1 : Shape := ⟨2, ![128, 1]⟩
abbrev S512x256 : Shape := ⟨2, ![512, 256]⟩
abbrev S128x512 : Shape := ⟨2, ![128, 512]⟩
abbrev S128x1x256 : Shape := ⟨3, ![128, 1, 256]⟩
abbrev S1x512 : Shape := ⟨2, ![1, 512]⟩
abbrev S1x256 : Shape := ⟨2, ![1, 256]⟩
abbrev S128 : Shape := ⟨1, ![128]⟩
abbrev S1x50000 : Shape := ⟨2, ![1, 50000]⟩
abbrev S2x256x1 : Shape := ⟨3, ![2, 256, 1]⟩
abbrev S5120x256 : Shape := ⟨2, ![5120, 256]⟩
abbrev S1x5120 : Shape := ⟨2, ![1, 5120]⟩
abbrev S1x256x1 : Shape := ⟨3, ![1, 256, 1]⟩
abbrev S256x5120 : Shape := ⟨2, ![256, 5120]⟩
abbrev S256x1x256 : Shape := ⟨3, ![256, 1, 256]⟩

abbrev nBuf : Space → Nat
  | .hbm => 121
  | .vmem => 30
  | .smem => 0
  | _ => 0

abbrev bufTy : (tb : Table) → Fin (tcTables nBuf tb) → BufTy
  | .hbm, ⟨0, _⟩ => ⟨S256, .i32⟩
  | .hbm, ⟨1, _⟩ => ⟨S256x10, .i32⟩
  | .hbm, ⟨2, _⟩ => ⟨S50000x256, .f32⟩
  | .hbm, ⟨3, _⟩ => ⟨S50000x256, .f32⟩
  | .hbm, ⟨4, _⟩ => ⟨S50000x256, .f32⟩
  | .hbm, ⟨5, _⟩ => ⟨S512x512, .f32⟩
  | .hbm, ⟨6, _⟩ => ⟨S512, .f32⟩
  | .hbm, ⟨7, _⟩ => ⟨S256x512, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S50000x256, .f32⟩
  | .hbm, ⟨12, _⟩ => ⟨S50000, .f32⟩
  | .hbm, ⟨13, _⟩ => ⟨S256, .f32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x256, .f32⟩
  | .hbm, ⟨23, _⟩ => ⟨S_, .i32⟩
  | .hbm, ⟨24, _⟩ => ⟨S256x10, .i32⟩
  | .hbm, ⟨25, _⟩ => ⟨S256x10, .i1⟩
  | .hbm, ⟨26, _⟩ => ⟨S_, .i32⟩
  | .hbm, ⟨27, _⟩ => ⟨S256x10, .i32⟩
  | .hbm, ⟨28, _⟩ => ⟨S256x10, .i32⟩
  | .hbm, ⟨29, _⟩ => ⟨S256x10, .i32⟩
  | .hbm, ⟨30, _⟩ => ⟨S256x10x1, .i32⟩
  | .hbm, ⟨31, _⟩ => ⟨S256x10x256, .f32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S256x1, .i32⟩
  | .hbm, ⟨40, _⟩ => ⟨S256x256, .f32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S256x1, .i32⟩
  | .hbm, ⟨49, _⟩ => ⟨S256x256, .f32⟩
  | .hbm, ⟨50, _⟩ => ⟨S_, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S256x256, .f32⟩
  | .hbm, ⟨55, _⟩ => ⟨S256x256, .i1⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S256x1, .f32⟩
  | .hbm, ⟨66, _⟩ => ⟨S256, .f32⟩
  | .hbm, ⟨67, _⟩ => ⟨S1x50000, .f32⟩
  | .hbm, ⟨68, _⟩ => ⟨S2x256x1, .f32⟩
  | .hbm, ⟨69, _⟩ => ⟨S2x256x1, .f32⟩
  | .hbm, ⟨70, _⟩ => ⟨S1x256x1, .f32⟩
  | .hbm, ⟨71, _⟩ => ⟨S256, .f32⟩
  | .hbm, ⟨72, _⟩ => ⟨S1x256x1, .f32⟩
  | .hbm, ⟨73, _⟩ => ⟨S256, .f32⟩
  | .hbm, ⟨74, _⟩ => ⟨S1x256x1, .f32⟩
  | .hbm, ⟨75, _⟩ => ⟨S256, .f32⟩
  | .hbm, ⟨76, _⟩ => ⟨S1x256x1, .f32⟩
  | .hbm, ⟨77, _⟩ => ⟨S256, .f32⟩
  | .hbm, ⟨78, _⟩ => ⟨S256, .f32⟩
  | .hbm, ⟨79, _⟩ => ⟨S256, .f32⟩
  | .hbm, ⟨80, _⟩ => ⟨S256, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S256, .f32⟩
  | .hbm, ⟨85, _⟩ => ⟨S256, .f32⟩
  | .hbm, ⟨86, _⟩ => ⟨S256, .f32⟩
  | .hbm, ⟨87, _⟩ => ⟨S256, .f32⟩
  | .hbm, ⟨88, _⟩ => ⟨S_, .i32⟩
  | .hbm, ⟨89, _⟩ => ⟨S256x10, .i32⟩
  | .hbm, ⟨90, _⟩ => ⟨S256x10, .i1⟩
  | .hbm, ⟨91, _⟩ => ⟨S_, .i32⟩
  | .hbm, ⟨92, _⟩ => ⟨S256x10, .i32⟩
  | .hbm, ⟨93, _⟩ => ⟨S256x10, .i32⟩
  | .hbm, ⟨94, _⟩ => ⟨S256x10, .i32⟩
  | .hbm, ⟨95, _⟩ => ⟨S256x10x1, .i32⟩
  | .hbm, ⟨96, _⟩ => ⟨S256x10x256, .f32⟩
  | .hbm, ⟨97, _⟩ => ⟨S_, .i32⟩
  | .hbm, ⟨98, _⟩ => ⟨S256x10, .i32⟩
  | .hbm, ⟨99, _⟩ => ⟨S256x10, .i1⟩
  | .hbm, ⟨100, _⟩ => ⟨S_, .i32⟩
  | .hbm, ⟨101, _⟩ => ⟨S256x10, .i32⟩
  | .hbm, ⟨102, _⟩ => ⟨S256x10, .i32⟩
  | .hbm, ⟨103, _⟩ => ⟨S256x10, .i32⟩
  | .hbm, ⟨104, _⟩ => ⟨S256x10x1, .i32⟩
  | .hbm, ⟨105, _⟩ => ⟨S256x10, .f32⟩
  | .hbm, ⟨106, _⟩ => ⟨S256x1x256, .f32⟩
  | .hbm, ⟨107, _⟩ => ⟨S256x10x256, .f32⟩
  | .hbm, ⟨108, _⟩ => ⟨S256x10x256, .f32⟩
  | .hbm, ⟨109, _⟩ => ⟨S_, .f32⟩
  | .hbm, ⟨110, _⟩ => ⟨S256x10, .f32⟩
  | .hbm, ⟨111, _⟩ => ⟨S256x10, .f32⟩
  | .hbm, ⟨112, _⟩ => ⟨S_, .f32⟩
  | .hbm, ⟨113, _⟩ => ⟨S256, .f32⟩
  | .hbm, ⟨114, _⟩ => ⟨S_, .f32⟩
  | .hbm, ⟨115, _⟩ => ⟨S256, .f32⟩
  | .hbm, ⟨116, _⟩ => ⟨S256, .f32⟩
  | .hbm, ⟨117, _⟩ => ⟨S256, .f32⟩
  | .hbm, ⟨118, _⟩ => ⟨S256, .f32⟩
  | .hbm, ⟨119, _⟩ => ⟨S_, .f32⟩
  | .hbm, ⟨120, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S128x10x256, .f32⟩
  | .local _ .vmem, ⟨3, _⟩ => ⟨S128x10x256, .f32⟩
  | .local _ .vmem, ⟨4, _⟩ => ⟨S512x512, .f32⟩
  | .local _ .vmem, ⟨5, _⟩ => ⟨S512, .f32⟩
  | .local _ .vmem, ⟨6, _⟩ => ⟨S256x512, .f32⟩
  | .local _ .vmem, ⟨7, _⟩ => ⟨S256, .f32⟩
  | .local _ .vmem, ⟨8, _⟩ => ⟨S256x512, .f32⟩
  | .local _ .vmem, ⟨9, _⟩ => ⟨S256, .f32⟩
  | .local _ .vmem, ⟨10, _⟩ => ⟨S256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x1, .f32⟩
  | .local _ .vmem, ⟨18, _⟩ => ⟨S128x1, .f32⟩
  | .local _ .vmem, ⟨19, _⟩ => ⟨S256x256, .f32⟩
  | .local _ .vmem, ⟨20, _⟩ => ⟨S5120x256, .f32⟩
  | .local _ .vmem, ⟨21, _⟩ => ⟨S5120x256, .f32⟩
  | .local _ .vmem, ⟨22, _⟩ => ⟨S1x5120, .f32⟩
  | .local _ .vmem, ⟨23, _⟩ => ⟨S1x5120, .f32⟩
  | .local _ .vmem, ⟨24, _⟩ => ⟨S1x256x1, .f32⟩
  | .local _ .vmem, ⟨25, _⟩ => ⟨S1x256x1, .f32⟩
  | .local _ .vmem, ⟨26, _⟩ => ⟨S1x256x1, .f32⟩
  | .local _ .vmem, ⟨27, _⟩ => ⟨S1x256x1, .f32⟩
  | .local _ .vmem, ⟨28, _⟩ => ⟨S256x1, .f32⟩
  | .local _ .vmem, ⟨29, _⟩ => ⟨S256x1, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_v28 : Ref sig .tc := ⟨.hbm, 63, rfl⟩
abbrev main_v29_0 : Ref sig .tc := ⟨.hbm, 64, rfl⟩
abbrev main_v29_1 : Ref sig .tc := ⟨.hbm, 65, rfl⟩
abbrev main_v30 : Ref sig .tc := ⟨.hbm, 66, rfl⟩
abbrev main_v31 : Ref sig .tc := ⟨.hbm, 67, rfl⟩
abbrev main_v32_0 : Ref sig .tc := ⟨.hbm, 68, rfl⟩
abbrev main_v32_1 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_7 : Ref sig .tc := ⟨.hbm, 88, rfl⟩
abbrev main_v51 : Ref sig .tc := ⟨.hbm, 89, rfl⟩
abbrev main_v52 : Ref sig .tc := ⟨.hbm, 90, rfl⟩
abbrev main_c_8 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_9 : Ref sig .tc := ⟨.hbm, 97, rfl⟩
abbrev main_v58 : Ref sig .tc := ⟨.hbm, 98, rfl⟩
abbrev main_v59 : Ref sig .tc := ⟨.hbm, 99, rfl⟩
abbrev main_c_10 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst : Ref sig .tc := ⟨.hbm, 109, rfl⟩
abbrev main_v68 : Ref sig .tc := ⟨.hbm, 110, rfl⟩
abbrev main_v69 : Ref sig .tc := ⟨.hbm, 111, rfl⟩
abbrev main_cst_11 : Ref sig .tc := ⟨.hbm, 112, rfl⟩
abbrev main_v70 : Ref sig .tc := ⟨.hbm, 113, rfl⟩
abbrev main_cst_12 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x10x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![2, 5], ![false, false]⟩

def k1_cond2 (i : grid1.Coords) : BitVec 1 :=
  let arg1 : BitVec 32 := BitVec.ofNat 32 (i 1).val
  let c4_i32 : BitVec 32 := 4#32
  let v45 : BitVec 1 := Scalar.cmpi .eq arg1 c4_i32
  let v46 : BitVec 32 := Scalar.extui v45
  let c0_i32_19 : BitVec 32 := 0#32
  let v47 : BitVec 1 := Scalar.cmpi .ne v46 c0_i32_19
  v47

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c9_i32 : BitVec 32 := 9#32
  let v2 : BitVec 32 := Scalar.minsi v1 c9_i32
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c9_i32 : BitVec 32 := 9#32
  let v2 : BitVec 32 := Scalar.minsi v1 c9_i32
  let c0_i32 : BitVec 32 := 0#32
  let c0_i32_0 : BitVec 32 := 0#32
  ![c0_i32.toNat, v2.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S5120x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x5120 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x10 : S_.BroadcastsInDim S256x10 (![] : Fin 0 → Fin S256x10.rank)
  bcast_S256x10_S256x10x1_0_1 : S256x10.BroadcastsInDim S256x10x1 (![0, 1] : Fin 2 → Fin S256x10x1.rank)
  bcast_S_S256x256 : S_.BroadcastsInDim S256x256 (![] : Fin 0 → Fin S256x256.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  bitsLt_bf16_f32 : FTy.bits .bf16 < FTy.bits .f32
  inb_S512x512_S512x256_0_0 : ∀ a, (![0, 0] : Fin 2 → Nat) a + S512x256.size a ≤ S512x512.size a
  h_S512x256 : 0 < S512x256.numel
  inb_S512x512_S512x256_0_256 : ∀ a, (![0, 256] : Fin 2 → Nat) a + S512x256.size a ≤ S512x512.size a
  transposes_S512x256_p1_0_S256x512 : S512x256.Transposes [1, 0] S256x512
  inb_S512_S512_0 : ∀ a, (![0] : Fin 1 → Nat) a + S512.size a ≤ S512.size a
  h_S512 : 0 < S512.numel
  inb_S128x10x256_S128x10x256_0_0_0 : ∀ a, (![0, 0, 0] : Fin 3 → Nat) a + S128x10x256.size a ≤ S128x10x256.size a
  h_S128x10x256 : 0 < S128x10x256.numel
  shapeCasts_S128x10x256_S128x10x256 : S128x10x256.ShapeCasts S128x10x256
  slices_S128x10x256_o0_0_0_S128x1x256 : S128x10x256.Slices ![0, 0, 0] S128x1x256
  shapeCasts_S128x1x256_S128x256 : S128x1x256.ShapeCasts S128x256
  shapeCasts_S512_S1x512 : S512.ShapeCasts S1x512
  broadcasts_S1x512_S128x512 : S1x512.Broadcasts S128x512
  slices_S128x10x256_o0_1_0_S128x1x256 : S128x10x256.Slices ![0, 1, 0] S128x1x256
  slices_S128x10x256_o0_2_0_S128x1x256 : S128x10x256.Slices ![0, 2, 0] S128x1x256
  slices_S128x10x256_o0_3_0_S128x1x256 : S128x10x256.Slices ![0, 3, 0] S128x1x256
  slices_S128x10x256_o0_4_0_S128x1x256 : S128x10x256.Slices ![0, 4, 0] S128x1x256
  slices_S128x10x256_o0_5_0_S128x1x256 : S128x10x256.Slices ![0, 5, 0] S128x1x256
  slices_S128x10x256_o0_6_0_S128x1x256 : S128x10x256.Slices ![0, 6, 0] S128x1x256
  slices_S128x10x256_o0_7_0_S128x1x256 : S128x10x256.Slices ![0, 7, 0] S128x1x256
  slices_S128x10x256_o0_8_0_S128x1x256 : S128x10x256.Slices ![0, 8, 0] S128x1x256
  slices_S128x10x256_o0_9_0_S128x1x256 : S128x10x256.Slices ![0, 9, 0] S128x1x256
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  reduces_S128x256_S128 : S128x256.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S256x1_S256 : S256x1.ShapeCasts S256
  shapeCasts_S50000_S1x50000 : S50000.ShapeCasts S1x50000
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S5120x256_S5120x256_0_0 : ∀ a, (![0, 0] : Fin 2 → Nat) a + S5120x256.size a ≤ S5120x256.size a
  h_S5120x256 : 0 < S5120x256.numel
  transposes_S5120x256_p1_0_S256x5120 : S5120x256.Transposes [1, 0] S256x5120
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S1x5120_S256x5120 : S1x5120.Broadcasts S256x5120
  iota_S256x5120_d1_w32 : S256x5120.Iotas .tc 32 [1]
  reduces_S256x5120_S256 : S256x5120.Reduces [1] S256
  shapeCasts_S256_S256x1 : S256.ShapeCasts S256x1
  broadcasts_S256x1_S256x5120 : S256x1.Broadcasts S256x5120
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  slices_S2x256x1_S1x256x1_0_0_0 : S2x256x1.Slices ![0, 0, 0] S1x256x1
  shapeCasts_S1x256x1_S256 : S1x256x1.ShapeCasts S256
  slices_S2x256x1_S1x256x1_1_0_0 : S2x256x1.Slices ![1, 0, 0] S1x256x1
  bcast_S256x256_S256x1x256_0_2 : S256x256.BroadcastsInDim S256x1x256 (![0, 2] : Fin 2 → Fin S256x1x256.rank)
  bcast_S256x1x256_S256x10x256_0_1_2 : S256x1x256.BroadcastsInDim S256x10x256 (![0, 1, 2] : Fin 3 → Fin S256x10x256.rank)
  reducesTo_S256x10x256_S256x10_d2 : S256x10x256.ReducesTo [2] S256x10
  h_S_ : 0 < S_.numel
  reducesTo_S256x10_S256_d1 : S256x10.ReducesTo [1] S256
  reducesTo_S256_S_d0 : S256.ReducesTo [0] S_
  gather_S50000x256_S256x1_S256x256_1_0_n_n_0_1_1256_wf : GatherDims.WF S50000x256 S256x1 S256x256 [1] [0] [] [0] [] 1 ![1, 256]
  gather_S50000x256_S256x10x1_S256x10x256_2_0_n_n_0_2_1256_wf : GatherDims.WF S50000x256 S256x10x1 S256x10x256 [2] [0] [] [0] [] 2 ![1, 256]
  dot_S128x256_S256x512_S128x512_1_0_0_1_n_n_wf : DotDims.WF S128x256 S256x512 S128x512 [1] [0] [0] [1] [] []
  dot_S128x512_S512x256_S128x256_1_0_0_1_n_n_wf : DotDims.WF S128x512 S512x256 S128x256 [1] [0] [0] [1] [] []
  dot_S256x256_S256x5120_S256x5120_1_0_0_1_n_n_wf : DotDims.WF S256x256 S256x5120 S256x5120 [1] [0] [0] [1] [] []
  gather_S50000_S256x10x1_S256x10_n_0_n_n_0_2_1_wf : GatherDims.WF S50000 S256x10x1 S256x10 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S256x256.size a
  hwx0_0 : ∀ i : grid0.Coords, EltTy.bits .f32 = 32 ∨ (Rect.block (s := S256x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x10x256.size a ≤ S256x10x256.size a
  hwx0_1 : ∀ i : grid0.Coords, EltTy.bits .f32 = 32 ∨ (Rect.block (s := S256x10x256) S128x10x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x256.size a ≤ S256x256.size a
  hwx0_9 : ∀ i : grid0.Coords, EltTy.bits .f32 = 32 ∨ (Rect.block (s := S256x256) S128x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S256x256.size a
  hwx0_10 : ∀ i : grid0.Coords, EltTy.bits .f32 = 32 ∨ (Rect.block (s := S256x256) S128x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x256.size a ≤ S256x256.size a
  hwx0_11 : ∀ i : grid0.Coords, EltTy.bits .f32 = 32 ∨ (Rect.block (s := S256x256) S128x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S256x1.size a
  hwx0_12 : ∀ i : grid0.Coords, EltTy.bits .f32 = 32 ∨ (Rect.block (s := S256x1) S128x1.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S256x256.size a
  hwx1_0 : ∀ i : grid1.Coords, EltTy.bits .f32 = 32 ∨ (Rect.block (s := S256x256) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S5120x256.size a < S50000x256.size a
  hwx1_1 : ∀ i : grid1.Coords, EltTy.bits .f32 = 32 ∨ (Rect.unit (s := S50000x256) (fun a => cc1_transform_1 i a * S5120x256.size a) (fun a => (Pipeline.Clip.of (cc1_transform_1 i a) (S5120x256.size a) (S50000x256.size a)).extent (S5120x256.size a)) fun a => Pipeline.Clip.inb (Pipeline.Clip.ok_of (hstart1_1 i a))).WholeWords (EltTy.packing .f32)
  hwxs1_1 : ∀ i : grid1.Coords, EltTy.bits .f32 = 32 ∨ (Rect.unit (s := S5120x256) (fun _ => 0) (fun a => (Pipeline.Clip.of (cc1_transform_1 i a) (S5120x256.size a) (S50000x256.size a)).extent (S5120x256.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x5120.size a < S1x50000.size a
  hwx1_2 : ∀ i : grid1.Coords, EltTy.bits .f32 = 32 ∨ (Rect.unit (s := S1x50000) (fun a => cc1_transform_2 i a * S1x5120.size a) (fun a => (Pipeline.Clip.of (cc1_transform_2 i a) (S1x5120.size a) (S1x50000.size a)).extent (S1x5120.size a)) fun a => Pipeline.Clip.inb (Pipeline.Clip.ok_of (hstart1_2 i a))).WholeWords (EltTy.packing .f32)
  hwxs1_2 : ∀ i : grid1.Coords, EltTy.bits .f32 = 32 ∨ (Rect.unit (s := S1x5120) (fun _ => 0) (fun a => (Pipeline.Clip.of (cc1_transform_2 i a) (S1x5120.size a) (S1x50000.size a)).extent (S1x5120.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1.size a ≤ S2x256x1.size a
  hwx1_3 : ∀ i : grid1.Coords, EltTy.bits .f32 = 32 ∨ (Rect.block (s := S2x256x1) S1x256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1.size a ≤ S2x256x1.size a
  hwx1_4 : ∀ i : grid1.Coords, EltTy.bits .f32 = 32 ∨ (Rect.block (s := S2x256x1) S1x256x1.size (cc1_transform_4 i) (hinb1_4 i)).WholeWords (EltTy.packing .f32)

variable [Facts₀]

def gather_S50000x256_S256x1_S256x256_1_0_n_n_0_1_1256 : GatherDims S50000x256 S256x1 S256x256 where
  offsetDims := [1]
  collapsedSliceDims := [0]
  operandBatchingDims := []
  startIndicesBatchingDims := []
  startIndexMap := [0]
  indexVectorDim := 1
  sliceSizes := ![1, 256]
  wf := gather_S50000x256_S256x1_S256x256_1_0_n_n_0_1_1256_wf
def gather_S50000x256_S256x10x1_S256x10x256_2_0_n_n_0_2_1256 : GatherDims S50000x256 S256x10x1 S256x10x256 where
  offsetDims := [2]
  collapsedSliceDims := [0]
  operandBatchingDims := []
  startIndicesBatchingDims := []
  startIndexMap := [0]
  indexVectorDim := 2
  sliceSizes := ![1, 256]
  wf := gather_S50000x256_S256x10x1_S256x10x256_2_0_n_n_0_2_1256_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S256x256_S256x5120_S256x5120_1_0_0_1_n_n : DotDims S256x256 S256x5120 S256x5120 where
  lhsContracting := [1]
  rhsContracting := [0]
  lhsNonContracting := [0]
  rhsNonContracting := [1]
  lhsBatch := []
  rhsBatch := []
  wf := dot_S256x256_S256x5120_S256x5120_1_0_0_1_n_n_wf
def gather_S50000_S256x10x1_S256x10_n_0_n_n_0_2_1 : GatherDims S50000 S256x10x1 S256x10 where
  offsetDims := []
  collapsedSliceDims := [0]
  operandBatchingDims := []
  startIndicesBatchingDims := []
  startIndexMap := [0]
  indexVectorDim := 2
  sliceSizes := ![1]
  wf := gather_S50000_S256x10x1_S256x10_n_0_n_n_0_2_1_wf

abbrev win0_0 : Pipeline.Window sig grid0 :=
  Pipeline.Window.ofSpec (Memref.whole main_v6) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x10x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S128x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v28) S128x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v29_0) S128x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v29_1) S128x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v29_0) S256x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg11) S5120x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v31) S1x5120.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v32_0) S1x256x1.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32_1) S1x256x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

class Facts : Prop extends Facts₀ where

variable [Facts]
-- ==== ReferenceIdeal.lean ====
abbrev S256 : Shape := ⟨1, ![256]⟩
abbrev S256x10 : Shape := ⟨2, ![256, 10]⟩
abbrev S50000x256 : Shape := ⟨2, ![50000, 256]⟩
abbrev S512x512 : Shape := ⟨2, ![512, 512]⟩
abbrev S512 : Shape := ⟨1, ![512]⟩
abbrev S256x512 : Shape := ⟨2, ![256, 512]⟩
abbrev S50000 : Shape := ⟨1, ![50000]⟩
abbrev S_ : Shape := ⟨0, ![]⟩
abbrev S256x1 : Shape := ⟨2, ![256, 1]⟩
abbrev S256x256 : Shape := ⟨2, ![256, 256]⟩
abbrev S256x10x1 : Shape := ⟨3, ![256, 10, 1]⟩
abbrev S256x10x256 : Shape := ⟨3, ![256, 10, 256]⟩
abbrev S256x1x256 : Shape := ⟨3, ![256, 1, 256]⟩
abbrev S256x10x512 : Shape := ⟨3, ![256, 10, 512]⟩
abbrev S1x1x512 : Shape := ⟨3, ![1, 1, 512]⟩
abbrev S512x256 : Shape := ⟨2, ![512, 256]⟩
abbrev S1x256 : Shape := ⟨2, ![1, 256]⟩
abbrev S256x50000 : Shape := ⟨2, ![256, 50000]⟩
abbrev S1x50000 : Shape := ⟨2, ![1, 50000]⟩
abbrev S1 : Shape := ⟨1, ![1]⟩
abbrev S1x1x1 : Shape := ⟨3, ![1, 1, 1]⟩

abbrev nBuf : Space → Nat
  | .hbm => 176
  | .vmem => 0
  | .smem => 0
  | _ => 0

abbrev hbmTy0_0 (i : Nat) : BufTy := match i % 128 with
  | 0 => ⟨S256, .i32⟩
  | 1 => ⟨S256x10, .i32⟩
  | 2 => ⟨S50000x256, .f32⟩
  | 3 => ⟨S50000x256, .f32⟩
  | 4 => ⟨S50000x256, .f32⟩
  | 5 => ⟨S512x512, .f32⟩
  | 6 => ⟨S512, .f32⟩
  | 7 => ⟨S256x512, .f32⟩
  | 8 => ⟨S256, .f32⟩
  | 9 => ⟨S256x512, .f32⟩
  | 10 => ⟨S256, .f32⟩
  | 11 => ⟨S50000x256, .f32⟩
  | 12 => ⟨S50000, .f32⟩
  | 13 => ⟨S256, .f32⟩
  | 14 => ⟨S_, .i32⟩
  | 15 => ⟨S256, .i32⟩
  | 16 => ⟨S256, .i1⟩
  | 17 => ⟨S_, .i32⟩
  | 18 => ⟨S256, .i32⟩
  | 19 => ⟨S256, .i32⟩
  | 20 => ⟨S256, .i32⟩
  | 21 => ⟨S256x1, .i32⟩
  | 22 => ⟨S256x256, .f32⟩
  | 23 => ⟨S_, .i32⟩
  | 24 => ⟨S256x10, .i32⟩
  | 25 => ⟨S256x10, .i1⟩
  | 26 => ⟨S_, .i32⟩
  | 27 => ⟨S256x10, .i32⟩
  | 28 => ⟨S256x10, .i32⟩
  | 29 => ⟨S256x10, .i32⟩
  | 30 => ⟨S256x10x1, .i32⟩
  | 31 => ⟨S256x10x256, .f32⟩
  | 32 => ⟨S256x1x256, .f32⟩
  | 33 => ⟨S256x10x256, .f32⟩
  | 34 => ⟨S256x10x512, .f32⟩
  | 35 => ⟨S256x10x512, .f32⟩
  | 36 => ⟨S1x1x512, .f32⟩
  | 37 => ⟨S256x10x512, .f32⟩
  | 38 => ⟨S256x10x512, .f32⟩
  | 39 => ⟨S_, .f32⟩
  | 40 => ⟨S256x10x512, .f32⟩
  | 41 => ⟨S256x10x512, .f32⟩
  | 42 => ⟨S_, .f32⟩
  | 43 => ⟨S256x512, .f32⟩
  | 44 => ⟨S512x256, .f32⟩
  | 45 => ⟨S256x256, .f32⟩
  | 46 => ⟨S1x256, .f32⟩
  | 47 => ⟨S256x256, .f32⟩
  | 48 => ⟨S256x256, .f32⟩
  | 49 => ⟨S512x256, .f32⟩
  | 50 => ⟨S256x256, .f32⟩
  | 51 => ⟨S1x256, .f32⟩
  | 52 => ⟨S256x256, .f32⟩
  | 53 => ⟨S256x256, .f32⟩
  | 54 => ⟨S_, .f32⟩
  | 55 => ⟨S256x256, .f32⟩
  | 56 => ⟨S256x256, .f32⟩
  | 57 => ⟨S256x256, .f32⟩
  | 58 => ⟨S256x256, .f32⟩
  | 59 => ⟨S256x256, .i1⟩
  | 60 => ⟨S256x256, .f32⟩
  | 61 => ⟨S256x256, .f32⟩
  | 62 => ⟨S256x256, .f32⟩
  | 63 => ⟨S256x256, .f32⟩
  | 64 => ⟨S256x256, .f32⟩
  | 65 => ⟨S256x256, .f32⟩
  | 66 => ⟨S256x256, .f32⟩
  | 67 => ⟨S256x256, .f32⟩
  | 68 => ⟨S_, .f32⟩
  | 69 => ⟨S256x256, .f32⟩
  | 70 => ⟨S256x256, .f32⟩
  | 71 => ⟨S256x256, .f32⟩
  | 72 => ⟨S1x256, .f32⟩
  | 73 => ⟨S256x256, .f32⟩
  | 74 => ⟨S256x256, .f32⟩
  | 75 => ⟨S256x256, .f32⟩
  | 76 => ⟨S256x50000, .f32⟩
  | 77 => ⟨S256x50000, .f32⟩
  | 78 => ⟨S1x50000, .f32⟩
  | 79 => ⟨S256x50000, .f32⟩
  | 80 => ⟨S256x50000, .f32⟩
  | 81 => ⟨S_, .f32⟩
  | 82 => ⟨S256, .f32⟩
  | 83 => ⟨S_, .f32⟩
  | 84 => ⟨S256, .f32⟩
  | 85 => ⟨S256, .f32⟩
  | 86 => ⟨S256x1, .f32⟩
  | 87 => ⟨S256x50000, .f32⟩
  | 88 => ⟨S256x50000, .f32⟩
  | 89 => ⟨S256x50000, .f32⟩
  | 90 => ⟨S_, .f32⟩
  | 91 => ⟨S256, .f32⟩
  | 92 => ⟨S256x1, .f32⟩
  | 93 => ⟨S256x1, .f32⟩
  | 94 => ⟨S256x50000, .f32⟩
  | 95 => ⟨S256x50000, .f32⟩
  | 96 => ⟨S_, .i32⟩
  | 97 => ⟨S256, .i32⟩
  | 98 => ⟨S256, .i1⟩
  | 99 => ⟨S_, .i32⟩
  | 100 => ⟨S256, .i32⟩
  | 101 => ⟨S256, .i32⟩
  | 102 => ⟨S256, .i32⟩
  | 103 => ⟨S256x1, .i32⟩
  | 104 => ⟨S256x256, .f32⟩
  | 105 => ⟨S_, .i32⟩
  | 106 => ⟨S256, .i32⟩
  | 107 => ⟨S256, .i1⟩
  | 108 => ⟨S_, .i32⟩
  | 109 => ⟨S256, .i32⟩
  | 110 => ⟨S256, .i32⟩
  | 111 => ⟨S256, .i32⟩
  | 112 => ⟨S256x1, .i32⟩
  | 113 => ⟨S256x256, .f32⟩
  | 114 => ⟨S_, .f32⟩
  | 115 => ⟨S256x256, .f32⟩
  | 116 => ⟨S256x256, .f32⟩
  | 117 => ⟨S256x256, .f32⟩
  | 118 => ⟨S256x256, .f32⟩
  | 119 => ⟨S256x256, .i1⟩
  | 120 => ⟨S256x256, .f32⟩
  | 121 => ⟨S256x256, .f32⟩
  | 122 => ⟨S256x256, .f32⟩
  | 123 => ⟨S256x256, .f32⟩
  | 124 => ⟨S256x256, .f32⟩
  | 125 => ⟨S256x256, .f32⟩
  | 126 => ⟨S256x256, .f32⟩
  | 127 => ⟨S256x256, .f32⟩
  | _ => ⟨S256, .i32⟩

abbrev hbmTy0_1 (i : Nat) : BufTy := match i % 128 with
  | 0 => ⟨S256x256, .f32⟩
  | 1 => ⟨S_, .f32⟩
  | 2 => ⟨S256, .f32⟩
  | 3 => ⟨S256x256, .f32⟩
  | 4 => ⟨S256x256, .f32⟩
  | 5 => ⟨S256x256, .f32⟩
  | 6 => ⟨S_, .f32⟩
  | 7 => ⟨S256, .f32⟩
  | 8 => ⟨S256, .f32⟩
  | 9 => ⟨S_, .f32⟩
  | 10 => ⟨S256, .f32⟩
  | 11 => ⟨S256, .f32⟩
  | 12 => ⟨S256x256, .f32⟩
  | 13 => ⟨S256x256, .f32⟩
  | 14 => ⟨S256x256, .f32⟩
  | 15 => ⟨S_, .f32⟩
  | 16 => ⟨S256, .f32⟩
  | 17 => ⟨S256, .f32⟩
  | 18 => ⟨S_, .f32⟩
  | 19 => ⟨S256, .f32⟩
  | 20 => ⟨S256, .f32⟩
  | 21 => ⟨S_, .i32⟩
  | 22 => ⟨S256x10, .i32⟩
  | 23 => ⟨S256x10, .i1⟩
  | 24 => ⟨S_, .i32⟩
  | 25 => ⟨S256x10, .i32⟩
  | 26 => ⟨S256x10, .i32⟩
  | 27 => ⟨S256x10, .i32⟩
  | 28 => ⟨S256x10x1, .i32⟩
  | 29 => ⟨S1, .i32⟩
  | 30 => ⟨S_, .i32⟩
  | 31 => ⟨S256x10x1, .i32⟩
  | 32 => ⟨S256x10x1, .i1⟩
  | 33 => ⟨S1x1x1, .i32⟩
  | 34 => ⟨S256x10x1, .i32⟩
  | 35 => ⟨S256x10x1, .i1⟩
  | 36 => ⟨S256x10x1, .i1⟩
  | 37 => ⟨S_, .i1⟩
  | 38 => ⟨S256x10, .i1⟩
  | 39 => ⟨S256x10, .f32⟩
  | 40 => ⟨S_, .f32⟩
  | 41 => ⟨S256x10, .f32⟩
  | 42 => ⟨S256x10, .f32⟩
  | 43 => ⟨S_, .f32⟩
  | 44 => ⟨S256, .f32⟩
  | 45 => ⟨S256, .f32⟩
  | 46 => ⟨S_, .f32⟩
  | 47 => ⟨S_, .f32⟩
  | _ => ⟨S256, .i32⟩

abbrev hbmTy (i : Nat) : BufTy := match i / 128 with
  | 0 => hbmTy0_0 i
  | 1 => hbmTy0_1 i
  | _ => ⟨S256, .i32⟩

abbrev bufTy : (tb : Table) → Fin (tcTables nBuf tb) → BufTy
  | .hbm, ⟨i, _⟩ => hbmTy i
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call0_cst : Ref sig .tc := ⟨.hbm, 39, rfl⟩
abbrev main_call0_v0 : Ref sig .tc := ⟨.hbm, 40, rfl⟩
abbrev main_v21 : Ref sig .tc := ⟨.hbm, 41, rfl⟩
abbrev main_cst : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_v33 : Ref sig .tc := ⟨.hbm, 67, rfl⟩
abbrev main_cst_3 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_call2_cst : Ref sig .tc := ⟨.hbm, 81, rfl⟩
abbrev main_call2_v0 : Ref sig .tc := ⟨.hbm, 82, rfl⟩
abbrev main_call2_cst_0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_cst_1 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_v46 : Ref sig .tc := ⟨.hbm, 95, rfl⟩
abbrev main_c_4 : Ref sig .tc := ⟨.hbm, 96, rfl⟩
abbrev main_v47 : Ref sig .tc := ⟨.hbm, 97, rfl⟩
abbrev main_v48 : Ref sig .tc := ⟨.hbm, 98, rfl⟩
abbrev main_c_5 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_c_6 : Ref sig .tc := ⟨.hbm, 105, rfl⟩
abbrev main_v54 : Ref sig .tc := ⟨.hbm, 106, rfl⟩
abbrev main_v55 : Ref sig .tc := ⟨.hbm, 107, rfl⟩
abbrev main_c_7 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_v61 : Ref sig .tc := ⟨.hbm, 127, rfl⟩
abbrev main_v62 : Ref sig .tc := ⟨.hbm, 128, rfl⟩
abbrev main_cst_8 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_cst_9 : Ref sig .tc := ⟨.hbm, 134, rfl⟩
abbrev main_v67 : Ref sig .tc := ⟨.hbm, 135, rfl⟩
abbrev main_v68 : Ref sig .tc := ⟨.hbm, 136, rfl⟩
abbrev main_cst_10 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_cst_11 : Ref sig .tc := ⟨.hbm, 143, rfl⟩
abbrev main_v74 : Ref sig .tc := ⟨.hbm, 144, rfl⟩
abbrev main_v75 : Ref sig .tc := ⟨.hbm, 145, rfl⟩
abbrev main_cst_12 : Ref sig .tc := ⟨.hbm, 146, rfl⟩
abbrev main_v76 : Ref sig .tc := ⟨.hbm, 147, rfl⟩
abbrev main_v77 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_cst : Ref sig .tc := ⟨.hbm, 168, rfl⟩
abbrev main_call4_v14 : Ref sig .tc := ⟨.hbm, 169, rfl⟩
abbrev main_v78 : Ref sig .tc := ⟨.hbm, 170, rfl⟩
abbrev main_cst_13 : Ref sig .tc := ⟨.hbm, 171, rfl⟩
abbrev main_v79 : Ref sig .tc := ⟨.hbm, 172, rfl⟩
abbrev main_v80 : Ref sig .tc := ⟨.hbm, 173, rfl⟩
abbrev main_cst_14 : Ref sig .tc := ⟨.hbm, 174, rfl⟩
abbrev main_v81 : Ref sig .tc := ⟨.hbm, 175, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x10 : S_.BroadcastsInDim S256x10 (![] : Fin 0 → Fin S256x10.rank)
  bcast_S256x10_S256x10x1_0_1 : S256x10.BroadcastsInDim S256x10x1 (![0, 1] : Fin 2 → Fin S256x10x1.rank)
  bcast_S256x256_S256x1x256_0_2 : S256x256.BroadcastsInDim S256x1x256 (![0, 2] : Fin 2 → Fin S256x1x256.rank)
  bcast_S256x1x256_S256x10x256_0_1_2 : S256x1x256.BroadcastsInDim S256x10x256 (![0, 1, 2] : Fin 3 → Fin S256x10x256.rank)
  concatenates_S256x10x256_S256x10x256_S256x10x512_d2 : Shape.Concatenates [S256x10x256, S256x10x256] S256x10x512 2
  bcast_S512_S1x1x512_2 : S512.BroadcastsInDim S1x1x512 (![2] : Fin 1 → Fin S1x1x512.rank)
  bcast_S1x1x512_S256x10x512_0_1_2 : S1x1x512.BroadcastsInDim S256x10x512 (![0, 1, 2] : Fin 3 → Fin S256x10x512.rank)
  bcast_S_S256x10x512 : S_.BroadcastsInDim S256x10x512 (![] : Fin 0 → Fin S256x10x512.rank)
  reducesTo_S256x10x512_S256x512_d1 : S256x10x512.ReducesTo [1] S256x512
  h_S_ : 0 < S_.numel
  transposes_S256x512_S512x256_1_0 : S256x512.Transposes [1, 0] S512x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  transposes_S50000x256_S256x50000_1_0 : S50000x256.Transposes [1, 0] S256x50000
  bcast_S50000_S1x50000_1 : S50000.BroadcastsInDim S1x50000 (![1] : Fin 1 → Fin S1x50000.rank)
  bcast_S1x50000_S256x50000_0_1 : S1x50000.BroadcastsInDim S256x50000 (![0, 1] : Fin 2 → Fin S256x50000.rank)
  reducesTo_S256x50000_S256_d1 : S256x50000.ReducesTo [1] S256
  bcast_S256x1_S256x50000_0_1 : S256x1.BroadcastsInDim S256x50000 (![0, 1] : Fin 2 → Fin S256x50000.rank)
  reducesTo_S256x256_S256_d1 : S256x256.ReducesTo [1] S256
  shapeCasts_S256x10_S256x10x1 : S256x10.ShapeCasts S256x10x1
  bcast_S_S256x10x1 : S_.BroadcastsInDim S256x10x1 (![] : Fin 0 → Fin S256x10x1.rank)
  bcast_S1_S1x1x1_2 : S1.BroadcastsInDim S1x1x1 (![2] : Fin 1 → Fin S1x1x1.rank)
  bcast_S1x1x1_S256x10x1_0_1_2 : S1x1x1.BroadcastsInDim S256x10x1 (![0, 1, 2] : Fin 3 → Fin S256x10x1.rank)
  reducesTo_S256x10x1_S256x10_d2 : S256x10x1.ReducesTo [2] S256x10
  reducesTo_S256x10_S256_d1 : S256x10.ReducesTo [1] S256
  reducesTo_S256_S_d0 : S256.ReducesTo [0] S_
  gather_S50000x256_S256x1_S256x256_1_0_n_n_0_1_1256_wf : GatherDims.WF S50000x256 S256x1 S256x256 [1] [0] [] [0] [] 1 ![1, 256]
  gather_S50000x256_S256x10x1_S256x10x256_2_0_n_n_0_2_1256_wf : GatherDims.WF S50000x256 S256x10x1 S256x10x256 [2] [0] [] [0] [] 2 ![1, 256]
  dot_S256x10x512_S512x512_S256x10x512_2_1_01_0_n_n_wf : DotDims.WF S256x10x512 S512x512 S256x10x512 [2] [1] [0, 1] [0] [] []
  dot_S256x512_S512x256_S256x256_1_0_0_1_n_n_wf : DotDims.WF S256x512 S512x256 S256x256 [1] [0] [0] [1] [] []
  dot_S256x256_S256x50000_S256x50000_1_0_0_1_n_n_wf : DotDims.WF S256x256 S256x50000 S256x50000 [1] [0] [0] [1] [] []
  gather_S256x50000_S256x10x1_S256x10_n_1_0_0_1_2_11_wf : GatherDims.WF S256x50000 S256x10x1 S256x10 [] [1] [0] [1] [0] 2 ![1, 1]

variable [Facts₀]

def gather_S50000x256_S256x1_S256x256_1_0_n_n_0_1_1256 : GatherDims S50000x256 S256x1 S256x256 where
  offsetDims := [1]
  collapsedSliceDims := [0]
  operandBatchingDims := []
  startIndicesBatchingDims := []
  startIndexMap := [0]
  indexVectorDim := 1
  sliceSizes := ![1, 256]
  wf := gather_S50000x256_S256x1_S256x256_1_0_n_n_0_1_1256_wf
def gather_S50000x256_S256x10x1_S256x10x256_2_0_n_n_0_2_1256 : GatherDims S50000x256 S256x10x1 S256x10x256 where
  offsetDims := [2]
  collapsedSliceDims := [0]
  operandBatchingDims := []
  startIndicesBatchingDims := []
  startIndexMap := [0]
  indexVectorDim := 2
  sliceSizes := ![1, 256]
  wf := gather_S50000x256_S256x10x1_S256x10x256_2_0_n_n_0_2_1256_wf
def dot_S256x10x512_S512x512_S256x10x512_2_1_01_0_n_n : DotDims S256x10x512 S512x512 S256x10x512 where
  lhsContracting := [2]
  rhsContracting := [1]
  lhsNonContracting := [0, 1]
  rhsNonContracting := [0]
  lhsBatch := []
  rhsBatch := []
  wf := dot_S256x10x512_S512x512_S256x10x512_2_1_01_0_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x50000_S256x50000_1_0_0_1_n_n : DotDims S256x256 S256x50000 S256x50000 where
  lhsContracting := [1]
  rhsContracting := [0]
  lhsNonContracting := [0]
  rhsNonContracting := [1]
  lhsBatch := []
  rhsBatch := []
  wf := dot_S256x256_S256x50000_S256x50000_1_0_0_1_n_n_wf
def gather_S256x50000_S256x10x1_S256x10_n_1_0_0_1_2_11 : GatherDims S256x50000 S256x10x1 S256x10 where
  offsetDims := []
  collapsedSliceDims := [1]
  operandBatchingDims := [0]
  startIndicesBatchingDims := [0]
  startIndexMap := [1]
  indexVectorDim := 2
  sliceSizes := ![1, 1]
  wf := gather_S256x50000_S256x10x1_S256x10_n_1_0_0_1_2_11_wf

class Facts : Prop extends Facts₀ where

variable [Facts]
-- ==== Proof.KI.Reg0.lean ====
/- Region 0, the encoder, on its two grid points: the blocks a point reads and writes, and its body's run. -/
import proofs.«402386_j49916109914289_3_alg».proof.Proof.Gen.KernelIdeal.Launch
import proofs.«402386_j49916109914289_3_alg».proof.Proof.Gen.KernelIdeal.Skeleton
import proofs.«402386_j49916109914289_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S128x256 := Rect.unit (s := S128x256) ![0, 0] S128x256.size inb_S128x256_S128x256_0_0
abbrev r0_1 : Rect S512x512 := Rect.unit (s := S512x512) ![0, 0] S512x256.size inb_S512x512_S512x256_0_0
abbrev r0_2 : Rect S512x512 := Rect.unit (s := S512x512) ![0, 256] S512x256.size inb_S512x512_S512x256_0_256
abbrev r0_3 : Rect S512 := Rect.unit (s := S512) ![0] S512.size inb_S512_S512_0
abbrev r0_4 : Rect S128x10x256 := Rect.unit (s := S128x10x256) ![0, 0, 0] S128x10x256.size inb_S128x10x256_S128x10x256_0_0_0
abbrev r0_5 : Rect S256x512 := Rect.unit (s := S256x512) ![0, 0] S256x512.size inb_S256x512_S256x512_0_0
abbrev r0_6 : Rect S256 := Rect.unit (s := S256) ![0] S256.size inb_S256_S256_0
abbrev r0_7 : Rect S128x1 := Rect.unit (s := S128x1) ![0, 0] S128x1.size inb_S128x1_S128x1_0_0

def out0_11 (x0 : Vec F S128x256 .f32) (x1 : Vec F S128x10x256 .f32) (x2 : Vec F S512x512 .f32) (x3 : Vec F S512 .f32) (x4 : Vec F S256x512 .f32) (x5 : Vec F S256 .f32) (x6 : Vec F S256x512 .f32) (x7 : Vec F S256 .f32) (x8 : Vec F S256 .f32) (x9 : Vec F S128x256 .f32) (x10 : Vec F S128x256 .f32) : Vec F S128x256 .f32 :=
  View.canon [⟨r0_0, k0_pay15 (k0_pay11 (k0_pay2 (View.ld x2 r0_2)) (k0_pay3 (View.ld x0 r0_0) (View.ld x2 r0_1)) (View.ld x3 r0_3) (k0_pay4 (View.ld x1 r0_4)) (k0_pay8 (k0_pay2 (View.ld x2 r0_2)) (k0_pay3 (View.ld x0 r0_0) (View.ld x2 r0_1)) (View.ld x3 r0_3) (k0_pay4 (View.ld x1 r0_4)) (k0_pay5 (View.ld x0 r0_0) (View.ld x2 r0_1) (View.ld x2 r0_2) (View.ld x3 r0_3) (View.ld x1 r0_4)) (k0_pay6 (View.ld x0 r0_0) (View.ld x2 r0_1) (View.ld x2 r0_2) (View.ld x1 r0_4)) (k0_pay7 (View.ld x3 r0_3))) (k0_pay9 (k0_pay4 (View.ld x1 r0_4))) (View.ld x4 r0_5) (View.ld x5 r0_6)) (k0_pay12 (k0_pay2 (View.ld x2 r0_2)) (k0_pay3 (View.ld x0 r0_0) (View.ld x2 r0_1)) (View.ld x3 r0_3) (k0_pay4 (View.ld x1 r0_4)) (k0_pay8 (k0_pay2 (View.ld x2 r0_2)) (k0_pay3 (View.ld x0 r0_0) (View.ld x2 r0_1)) (View.ld x3 r0_3) (k0_pay4 (View.ld x1 r0_4)) (k0_pay5 (View.ld x0 r0_0) (View.ld x2 r0_1) (View.ld x2 r0_2) (View.ld x3 r0_3) (View.ld x1 r0_4)) (k0_pay6 (View.ld x0 r0_0) (View.ld x2 r0_1) (View.ld x2 r0_2) (View.ld x1 r0_4)) (k0_pay7 (View.ld x3 r0_3))) (k0_pay9 (k0_pay4 (View.ld x1 r0_4))) (View.ld x6 r0_5)) (k0_pay13 (View.ld x7 r0_6)) (View.ld x8 r0_6)⟩]

def out0_12 (x0 : Vec F S128x256 .f32) (x1 : Vec F S128x10x256 .f32) (x2 : Vec F S512x512 .f32) (x3 : Vec F S512 .f32) (x4 : Vec F S256x512 .f32) (x5 : Vec F S256 .f32) (x6 : Vec F S256x512 .f32) (x7 : Vec F S256 .f32) (x8 : Vec F S256 .f32) (x9 : Vec F S128x256 .f32) (x10 : Vec F S128x256 .f32) : Vec F S128x1 .f32 :=
  View.canon [⟨r0_7, k0_pay1 (k0_pay17 (k0_pay11 (k0_pay2 (View.ld x2 r0_2)) (k0_pay3 (View.ld x0 r0_0) (View.ld x2 r0_1)) (View.ld x3 r0_3) (k0_pay4 (View.ld x1 r0_4)) (k0_pay8 (k0_pay2 (View.ld x2 r0_2)) (k0_pay3 (View.ld x0 r0_0) (View.ld x2 r0_1)) (View.ld x3 r0_3) (k0_pay4 (View.ld x1 r0_4)) (k0_pay5 (View.ld x0 r0_0) (View.ld x2 r0_1) (View.ld x2 r0_2) (View.ld x3 r0_3) (View.ld x1 r0_4)) (k0_pay6 (View.ld x0 r0_0) (View.ld x2 r0_1) (View.ld x2 r0_2) (View.ld x1 r0_4)) (k0_pay7 (View.ld x3 r0_3))) (k0_pay9 (k0_pay4 (View.ld x1 r0_4))) (View.ld x4 r0_5) (View.ld x5 r0_6)) (k0_pay12 (k0_pay2 (View.ld x2 r0_2)) (k0_pay3 (View.ld x0 r0_0) (View.ld x2 r0_1)) (View.ld x3 r0_3) (k0_pay4 (View.ld x1 r0_4)) (k0_pay8 (k0_pay2 (View.ld x2 r0_2)) (k0_pay3 (View.ld x0 r0_0) (View.ld x2 r0_1)) (View.ld x3 r0_3) (k0_pay4 (View.ld x1 r0_4)) (k0_pay5 (View.ld x0 r0_0) (View.ld x2 r0_1) (View.ld x2 r0_2) (View.ld x3 r0_3) (View.ld x1 r0_4)) (k0_pay6 (View.ld x0 r0_0) (View.ld x2 r0_1) (View.ld x2 r0_2) (View.ld x1 r0_4)) (k0_pay7 (View.ld x3 r0_3))) (k0_pay9 (k0_pay4 (View.ld x1 r0_4))) (View.ld x6 r0_5)) (k0_pay13 (View.ld x7 r0_6)) (View.ld x9 r0_0) (View.ld x10 r0_0)) (k0_pay18 (k0_pay12 (k0_pay2 (View.ld x2 r0_2)) (k0_pay3 (View.ld x0 r0_0) (View.ld x2 r0_1)) (View.ld x3 r0_3) (k0_pay4 (View.ld x1 r0_4)) (k0_pay8 (k0_pay2 (View.ld x2 r0_2)) (k0_pay3 (View.ld x0 r0_0) (View.ld x2 r0_1)) (View.ld x3 r0_3) (k0_pay4 (View.ld x1 r0_4)) (k0_pay5 (View.ld x0 r0_0) (View.ld x2 r0_1) (View.ld x2 r0_2) (View.ld x3 r0_3) (View.ld x1 r0_4)) (k0_pay6 (View.ld x0 r0_0) (View.ld x2 r0_1) (View.ld x2 r0_2) (View.ld x1 r0_4)) (k0_pay7 (View.ld x3 r0_3))) (k0_pay9 (k0_pay4 (View.ld x1 r0_4))) (View.ld x6 r0_5)) (k0_pay13 (View.ld x7 r0_6)) (View.ld x10 r0_0))⟩]

theorem cover0_11 (p0 : Vec F S128x256 .f32) (y : S128x256.Idx) :
    ∃ pc ∈ ([⟨r0_0, p0⟩] : List (View.Piece (Elt F) S128x256 .f32)), y ∈ pc.1.set :=
  View.cover_of_tiled [⟨r0_0, p0⟩] S128x256.size (by rfl) y

theorem cover0_12 (p0 : Vec F S128x1 .f32) (y : S128x1.Idx) :
    ∃ pc ∈ ([⟨r0_7, p0⟩] : List (View.Piece (Elt F) S128x1 .f32)), y ∈ pc.1.set :=
  View.cover_of_tiled [⟨r0_7, p0⟩] S128x1.size (by rfl) y

set_option maxHeartbeats 4000000 in
theorem sound_kernel0 (c : Dev nD) (E : Set ℕ) (i : grid0.Coords) (arg1 : Memref sig .tc .vmem S128x256 .f32) (harg1 : arg1.IsWhole) (arg2 : Memref sig .tc .vmem S128x10x256 .f32) (harg2 : arg2.IsWhole) (arg3 : Memref sig .tc .vmem S512x512 .f32) (harg3 : arg3.IsWhole) (arg4 : Memref sig .tc .vmem S512 .f32) (harg4 : arg4.IsWhole) (arg5 : Memref sig .tc .vmem S256x512 .f32) (harg5 : arg5.IsWhole) (arg6 : Memref sig .tc .vmem S256 .f32) (harg6 : arg6.IsWhole) (arg7 : Memref sig .tc .vmem S256x512 .f32) (harg7 : arg7.IsWhole) (arg8 : Memref sig .tc .vmem S256 .f32) (harg8 : arg8.IsWhole) (arg9 : Memref sig .tc .vmem S256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S128x1 .f32) (harg13 : arg13.IsWhole)
    (x0 : Vec F S128x256 .f32) (x1 : Vec F S128x10x256 .f32) (x2 : Vec F S512x512 .f32) (x3 : Vec F S512 .f32) (x4 : Vec F S256x512 .f32) (x5 : Vec F S256 .f32) (x6 : Vec F S256x512 .f32) (x7 : Vec F S256 .f32) (x8 : Vec F S256 .f32) (x9 : Vec F S128x256 .f32) (x10 : Vec F S128x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10)) -∗ K ⟨⟩))
      ⊢ wp frame (wpE (defs₀ (F := F)) Variants.none c none) E (cc0__encoder_kernel i arg1 harg1 arg2 harg2 arg3 harg3 arg4 harg4 arg5 harg5 arg6 harg6 arg7 harg7 arg8 harg8 arg9 harg9 arg10 harg10 arg11 harg11 arg12 harg12 arg13 harg13) K := by
  simp only [cc0__encoder_kernel_eq_skeleton]; unfold cc0__encoder_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.Runs.lean ====
/- Region 1's windows at a point: the blocks in use, the outputs written back only at a core's last tile, and the carried scratch. -/
import proofs.«402386_j49916109914289_3_alg».proof.Proof.Gen.KernelIdeal.Launch
import proofs.«402386_j49916109914289_3_alg».proof.Proof.Gen.KernelIdeal.Skeleton
import proofs.«402386_j49916109914289_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev zf1 {S : Shape} : S.Idx → Elt F .f32 := fun _ => Scalar.ofBits .f32 0#32

abbrev x1At (c : Dev nD) (t : Fin cfg1.N) (d : S5120x256.Idx → Elt F .f32) : S5120x256.Idx → Elt F .f32 :=
  win1_1.fill (grid1.coords t) d (iblk1 V c 1 t)

abbrev x2At (c : Dev nD) (t : Fin cfg1.N) (d : S1x5120.Idx → Elt F .f32) : S1x5120.Idx → Elt F .f32 :=
  win1_2.fill (grid1.coords t) d (iblk1 V c 2 t)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (t : Fin cfg1.N) (d) : dat.before 1 t d = x1At V c t d :=
  (dat.before_fetched 1 t (fetch1_1 t) d).trans (by unfold Dat.fetched Dat.blockOf; rw [hA]; rfl)

theorem before1_2_of {c : Dev nD} (dat : Dat τ (Elt F) Unit ℕ (UR sig nD τ) ℕ cfg1 c) (hA : dat.A 2 = V c (Pipeline.arrRef spec1 2))
    (t : Fin cfg1.N) (d) : dat.before 2 t d = x2At V c t d :=
  (dat.before_fetched 2 t (fetch1_2 t) d).trans (by unfold Dat.fetched Dat.blockOf; rw [hA]; rfl)

end

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1

theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

abbrev VO1_3 : View sig .tc .vmem S1x256x1 .f32 := (Memref.whole cc1_stg3_0 : Memref sig .tc .vmem S1x256x1 .f32).view
abbrev VO1_4 : View sig .tc .vmem S1x256x1 .f32 := (Memref.whole cc1_stg4_0 : Memref sig .tc .vmem S1x256x1 .f32).view

abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5120x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x5120 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x1 .f32 := win1_4.stage (cfg1.slots t 4)
abbrev hs1_4 (t : Fin cfg1.N) : (ms1_4 t).IsWhole := hstage1_4 ((cfg1.slots t 4).cast nbuf1_4)

abbrev scM1_0 : Memref sig .tc .vmem S256x1 .f32 := Memref.whole cc1_scratch0
abbrev scM1_1 : Memref sig .tc .vmem S256x1 .f32 := Memref.whole cc1_scratch1
abbrev VS1_0 : View sig .tc .vmem S256x1 .f32 := scM1_0.view
abbrev VS1_1 : View sig .tc .vmem S256x1 .f32 := scM1_1.view

def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg10_1), ((c : Thread nD τ).loc cc0_stg10_1) ↦{fullShare} f) ∗ (∃ f : Buf (Elt F) ((c : Thread nD τ).loc cc0_stg11_0), ((c : Thread nD τ).loc cc0_stg11_0) ↦{fullShare} f) ∗ (∃ f : Buf (Elt F) ((c : Thread nD τ).loc cc0_stg11_1), ((c : Thread nD τ).loc cc0_stg11_1) ↦{fullShare} f) ∗ (∃ f : Buf (Elt F) ((c : Thread nD τ).loc cc0_stg12_0), ((c : Thread nD τ).loc cc0_stg12_0) ↦{fullShare} f) ∗ (∃ f : Buf (Elt F) ((c : Thread nD τ).loc cc0_stg12_1), ((c : Thread nD τ).loc cc0_stg12_1) ↦{fullShare} f))

theorem PhiA1_out (c : Dev nD) : (Pipeline.ΦA spec1 c : sProp 𝕄) ⊢ iprop(Rest1 c ∗ (∃ d, owns (c : Thread nD τ) scM1_0 fullShare d) ∗ (∃ d, owns (c : Thread nD τ) scM1_1 fullShare d) ∗ (∃ r, prngReg c r)) := by
  unfold Pipeline.ΦA; rw [scopedRest1_eq]; unfold Rest1; simp only [scM1_0, scM1_1, owns_whole]
  iintro ⟨⟨H1, H2, H3, H4, H5, H6, H7, H8, H9, H10, H11, H12, H13, H14, H15, H16, H17, H18, H19, HS0, HS1⟩, Hg⟩
  isplitl [H1 H2 H3 H4 H5 H6 H7 H8 H9 H10 H11 H12 H13 H14 H15 H16 H17 H18 H19]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitl [HS0]; · iexact HS0
  isplitl [HS1]; · iexact HS1
  iexact Hg

theorem PhiA1_in (c : Dev nD) : iprop(Rest1 c ∗ (∃ d, owns (c : Thread nD τ) scM1_0 fullShare d) ∗ (∃ d, owns (c : Thread nD τ) scM1_1 fullShare d) ∗ (∃ r, prngReg c r)) ⊢ (Pipeline.ΦA spec1 c : sProp 𝕄) := by
  unfold Pipeline.ΦA; rw [scopedRest1_eq]; unfold Rest1; simp only [scM1_0, scM1_1, owns_whole]
  iintro ⟨⟨H1, H2, H3, H4, H5, H6, H7, H8, H9, H10, H11, H12, H13, H14, H15, H16, H17, H18, H19⟩, HS0, HS1, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  iexact HS1

theorem PhiA1_eq (c : Dev nD) : (Pipeline.ΦA spec1 c : sProp 𝕄) = iprop(Rest1 c ∗ (∃ d, owns (c : Thread nD τ) scM1_0 fullShare d) ∗ (∃ d, owns (c : Thread nD τ) scM1_1 fullShare d) ∗ (∃ r, prngReg c r)) :=
  Entails.antisymm (PhiA1_out c) (PhiA1_in c)

end Cert.KernelIdeal.Hand

end
-- ==== Proof.KI.Reg1.RunA.lean ====
/- Region 1's body at a core's first tile. -/
import proofs.«402386_j49916109914289_3_alg».proof.Proof.KI.Reg1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x256 .f32) (x1 : Vec F S5120x256 .f32) (x2 : Vec F S1x5120 .f32) :
    Σ' (LS0 : List (View.Piece (Elt F) S256x1 .f32)), { LS1 : List (View.Piece (Elt F) S256x1 .f32) //
      ∀ (xi3 xi4 : Vec F S1x256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__vocab_lse_kernel i arg2 harg2 arg3 harg3 arg4 harg4 arg5 harg5 arg6 harg6 arg7 harg7 arg8 harg8) K } := by
  refine ⟨?_, ?_, fun xi3 xi4 E K => ?run⟩
  case run =>
    simp only [cc1__vocab_lse_kernel_eq_skeleton]; unfold cc1__vocab_lse_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.Reg1.RunB.lean ====
/- Region 1's body at a core's middle tiles. -/
import proofs.«402386_j49916109914289_3_alg».proof.Proof.KI.Reg1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x256 .f32) (x1 : Vec F S5120x256 .f32) (x2 : Vec F S1x5120 .f32) (xs0 xs1 : Vec F S256x1 .f32) :
    Σ' (LS0 : List (View.Piece (Elt F) S256x1 .f32)), { LS1 : List (View.Piece (Elt F) S256x1 .f32) //
      ∀ (xi3 xi4 : Vec F S1x256x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__vocab_lse_kernel i arg2 harg2 arg3 harg3 arg4 harg4 arg5 harg5 arg6 harg6 arg7 harg7 arg8 harg8) K } := by
  refine ⟨?_, ?_, fun xi3 xi4 E K => ?run⟩
  case run =>
    simp only [cc1__vocab_lse_kernel_eq_skeleton]; unfold cc1__vocab_lse_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.Reg1.RunC.lean ====
/- Region 1's body at a core's last tile. -/
import proofs.«402386_j49916109914289_3_alg».proof.Proof.KI.Reg1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) :
    Σ' (L3 : List (View.Piece (Elt F) S1x256x1 .f32)) (L4 : List (View.Piece (Elt F) S1x256x1 .f32))
      (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__vocab_lse_kernel i arg2 harg2 arg3 harg3 arg4 harg4 arg5 harg5 arg6 harg6 arg7 harg7 arg8 harg8) K } := by
  refine ⟨?_, ?_, ?_, ?_, fun E K => ?run⟩
  case run =>
    simp only [cc1__vocab_lse_kernel_eq_skeleton]; unfold cc1__vocab_lse_kernel_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.Reg1.Outs.lean ====
/- What each control case of region 1 leaves in the scratch pair and in the two outputs, as payloads of the blocks it read. -/
import proofs.«402386_j49916109914289_3_alg».proof.Proof.KI.Reg1.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

theorem hz2 : (![0, 0] : Fin 2 → Nat) = fun _ => 0 := funext fun a => by
  match a with
  | ⟨0, _⟩ => rfl
  | ⟨1, _⟩ => rfl
theorem hz3 : (![0, 0, 0] : Fin 3 → Nat) = fun _ => 0 := funext fun a => by
  match a with
  | ⟨0, _⟩ => rfl
  | ⟨1, _⟩ => rfl
  | ⟨2, _⟩ => rfl

theorem scover1_A_0 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x256 .f32) (x1 : Vec F S5120x256 .f32) (x2 : Vec F S1x5120 .f32) (y : S256x1.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S256x1.size (by sl_kernel_rfl) y

def sout1_A_0 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x256 .f32) (x1 : Vec F S5120x256 .f32) (x2 : Vec F S1x5120 .f32) : Vec F S256x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

theorem scover1_A_1 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x256 .f32) (x1 : Vec F S5120x256 .f32) (x2 : Vec F S1x5120 .f32) (y : S256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S256x1.size (by sl_kernel_rfl) y

def sout1_A_1 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x256 .f32) (x1 : Vec F S5120x256 .f32) (x2 : Vec F S1x5120 .f32) : Vec F S256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

theorem scover1_B_0 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x256 .f32) (x1 : Vec F S5120x256 .f32) (x2 : Vec F S1x5120 .f32) (xs0 xs1 : Vec F S256x1 .f32) (y : S256x1.Idx) :
    ∃ pc ∈ (kernelRun1_B c i arg2 harg2 arg3 harg3 arg4 harg4 arg5 harg5 arg6 harg6 arg7 harg7 arg8 harg8 hc0 hc1 x0 x1 x2 xs0 xs1).1, y ∈ pc.1.set :=
  View.cover_of_tiledL (kernelRun1_B c i arg2 harg2 arg3 harg3 arg4 harg4 arg5 harg5 arg6 harg6 arg7 harg7 arg8 harg8 hc0 hc1 x0 x1 x2 xs0 xs1).1 S256x1.size (by sl_kernel_rfl) y

def sout1_B_0 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x256 .f32) (x1 : Vec F S5120x256 .f32) (x2 : Vec F S1x5120 .f32) (xs0 xs1 : Vec F S256x1 .f32) : Vec F S256x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1).1)

theorem scover1_B_1 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x256 .f32) (x1 : Vec F S5120x256 .f32) (x2 : Vec F S1x5120 .f32) (xs0 xs1 : Vec F S256x1 .f32) (y : S256x1.Idx) :
    ∃ pc ∈ (kernelRun1_B c i arg2 harg2 arg3 harg3 arg4 harg4 arg5 harg5 arg6 harg6 arg7 harg7 arg8 harg8 hc0 hc1 x0 x1 x2 xs0 xs1).2.1, y ∈ pc.1.set :=
  View.cover_of_tiledL (kernelRun1_B c i arg2 harg2 arg3 harg3 arg4 harg4 arg5 harg5 arg6 harg6 arg7 harg7 arg8 harg8 hc0 hc1 x0 x1 x2 xs0 xs1).2.1 S256x1.size (by sl_kernel_rfl) y

def sout1_B_1 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x256 .f32) (x1 : Vec F S5120x256 .f32) (x2 : Vec F S1x5120 .f32) (xs0 xs1 : Vec F S256x1 .f32) : Vec F S256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1).2.1)

theorem cover1_C_3 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) (y : S1x256x1.Idx) :
    ∃ pc ∈ (kernelRun1_C c i arg2 harg2 arg3 harg3 arg4 harg4 arg5 harg5 arg6 harg6 arg7 harg7 arg8 harg8 hc0 hc1 x0 x1 x2 xs0 xs1).1, y ∈ pc.1.set :=
  View.cover_of_tiledL (kernelRun1_C c i arg2 harg2 arg3 harg3 arg4 harg4 arg5 harg5 arg6 harg6 arg7 harg7 arg8 harg8 hc0 hc1 x0 x1 x2 xs0 xs1).1 S1x256x1.size (by sl_kernel_rfl) y

def out1_C_3 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) : Vec F S1x256x1 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1).1)

theorem cover1_C_4 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) (y : S1x256x1.Idx) :
    ∃ pc ∈ (kernelRun1_C c i arg2 harg2 arg3 harg3 arg4 harg4 arg5 harg5 arg6 harg6 arg7 harg7 arg8 harg8 hc0 hc1 x0 x1 x2 xs0 xs1).2.1, y ∈ pc.1.set :=
  View.cover_of_tiledL (kernelRun1_C c i arg2 harg2 arg3 harg3 arg4 harg4 arg5 harg5 arg6 harg6 arg7 harg7 arg8 harg8 hc0 hc1 x0 x1 x2 xs0 xs1).2.1 S1x256x1.size (by sl_kernel_rfl) y

def out1_C_4 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) : Vec F S1x256x1 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 xs0 xs1).2.1)

theorem scover1_C_0 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) (y : S256x1.Idx) :
    ∃ pc ∈ (kernelRun1_C c i arg2 harg2 arg3 harg3 arg4 harg4 arg5 harg5 arg6 harg6 arg7 harg7 arg8 harg8 hc0 hc1 x0 x1 x2 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 xs0 xs1).2.2.1 S256x1.size (by sl_kernel_rfl) y

def sout1_C_0 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) : Vec F S256x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1).2.2.1)

theorem scover1_C_1 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) (y : S256x1.Idx) :
    ∃ pc ∈ (kernelRun1_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1).2.2.2.1 S256x1.size (by sl_kernel_rfl) y

def sout1_C_1 (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) : Vec F S256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1).2.2.2.1)

theorem sout1_A_0_eq (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x256 .f32) (x1 : Vec F S5120x256 .f32) (x2 : Vec F S1x5120 .f32) :
    sout1_A_0 c i arg2 harg2 arg3 harg3 arg4 harg4 arg5 harg5 arg6 harg6 arg7 harg7 arg8 harg8 hc0 hc1 x0 x1 x2 = k1_pay2 (k1_pay8 i x0 x1 x2 (k1_pay5 (F := F))) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  try sl_unfold_words
  simp only [View.canon_unit_zero (S := S256x1) hz2, View.canon_unit_zero (S := S1x256x1) hz3, View.canon_cons_unit_zero (S := S256x1) hz2, View.canon_cons_unit_zero (S := S1x256x1) hz3, View.readCov_unit_zero (S := S256x1) _ hz2, View.readCov_unit_zero (S := S1x256x1) _ hz3, View.readAt_eq_ld, harg2.read_unread, harg3.read_unread, harg4.read_unread, harg7.read_unread, harg8.read_unread, View.ld_unit_zero (S := S256x256) hz2, View.ld_unit_zero (S := S5120x256) hz2, View.ld_unit_zero (S := S1x5120) hz2, View.ld_unit_zero (S := S256x1) hz2, View.ld_unit_zero (S := S1x256x1) hz3]

theorem sout1_A_1_eq (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x256 .f32) (x1 : Vec F S5120x256 .f32) (x2 : Vec F S1x5120 .f32) :
    sout1_A_1 c i arg2 harg2 arg3 harg3 arg4 harg4 arg5 harg5 arg6 harg6 arg7 harg7 arg8 harg8 hc0 hc1 x0 x1 x2 = k1_pay1 (k1_pay9 i x0 x1 x2 (k1_pay5 (F := F))) (k1_pay10 i x0 x1 x2 (k1_pay5 (F := F)) (k1_pay5 (F := F)) (k1_pay6 (F := F))) := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  try sl_unfold_words
  simp only [View.canon_unit_zero (S := S256x1) hz2, View.canon_unit_zero (S := S1x256x1) hz3, View.canon_cons_unit_zero (S := S256x1) hz2, View.canon_cons_unit_zero (S := S1x256x1) hz3, View.readCov_unit_zero (S := S256x1) _ hz2, View.readCov_unit_zero (S := S1x256x1) _ hz3, View.readAt_eq_ld, harg2.read_unread, harg3.read_unread, harg4.read_unread, harg7.read_unread, harg8.read_unread, View.ld_unit_zero (S := S256x256) hz2, View.ld_unit_zero (S := S5120x256) hz2, View.ld_unit_zero (S := S1x5120) hz2, View.ld_unit_zero (S := S256x1) hz2, View.ld_unit_zero (S := S1x256x1) hz3]

theorem sout1_B_0_eq (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x256 .f32) (x1 : Vec F S5120x256 .f32) (x2 : Vec F S1x5120 .f32) (xs0 xs1 : Vec F S256x1 .f32) :
    sout1_B_0 c i arg2 harg2 arg3 harg3 arg4 harg4 arg5 harg5 arg6 harg6 arg7 harg7 arg8 harg8 hc0 hc1 x0 x1 x2 xs0 xs1 = k1_pay2 (k1_pay8 i x0 x1 x2 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1)]
  unfold kernelRun1_B
  dsimp only
  try sl_unfold_words
  simp only [View.canon_unit_zero (S := S256x1) hz2, View.canon_unit_zero (S := S1x256x1) hz3, View.canon_cons_unit_zero (S := S256x1) hz2, View.canon_cons_unit_zero (S := S1x256x1) hz3, View.readCov_unit_zero (S := S256x1) _ hz2, View.readCov_unit_zero (S := S1x256x1) _ hz3, View.readAt_eq_ld, harg2.read_unread, harg3.read_unread, harg4.read_unread, harg7.read_unread, harg8.read_unread, View.ld_unit_zero (S := S256x256) hz2, View.ld_unit_zero (S := S5120x256) hz2, View.ld_unit_zero (S := S1x5120) hz2, View.ld_unit_zero (S := S256x1) hz2, View.ld_unit_zero (S := S1x256x1) hz3]

theorem sout1_B_1_eq (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x256 .f32) (x1 : Vec F S5120x256 .f32) (x2 : Vec F S1x5120 .f32) (xs0 xs1 : Vec F S256x1 .f32) :
    sout1_B_1 c i arg2 harg2 arg3 harg3 arg4 harg4 arg5 harg5 arg6 harg6 arg7 harg7 arg8 harg8 hc0 hc1 x0 x1 x2 xs0 xs1 = k1_pay1 (k1_pay9 i x0 x1 x2 xs0) (k1_pay10 i x0 x1 x2 xs0 xs0 xs1) := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1)]
  unfold kernelRun1_B
  dsimp only
  try sl_unfold_words
  simp only [View.canon_unit_zero (S := S256x1) hz2, View.canon_unit_zero (S := S1x256x1) hz3, View.canon_cons_unit_zero (S := S256x1) hz2, View.canon_cons_unit_zero (S := S1x256x1) hz3, View.readCov_unit_zero (S := S256x1) _ hz2, View.readCov_unit_zero (S := S1x256x1) _ hz3, View.readAt_eq_ld, harg2.read_unread, harg3.read_unread, harg4.read_unread, harg7.read_unread, harg8.read_unread, View.ld_unit_zero (S := S256x256) hz2, View.ld_unit_zero (S := S5120x256) hz2, View.ld_unit_zero (S := S1x5120) hz2, View.ld_unit_zero (S := S256x1) hz2, View.ld_unit_zero (S := S1x256x1) hz3]

theorem sout1_C_0_eq (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) :
    sout1_C_0 c i arg2 harg2 arg3 harg3 arg4 harg4 arg5 harg5 arg6 harg6 arg7 harg7 arg8 harg8 hc0 hc1 x0 x1 x2 xs0 xs1 = k1_pay2 (k1_pay8 i x0 x1 x2 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1)]
  unfold kernelRun1_C
  dsimp only
  try sl_unfold_words
  simp only [View.canon_unit_zero (S := S256x1) hz2, View.canon_unit_zero (S := S1x256x1) hz3, View.canon_cons_unit_zero (S := S256x1) hz2, View.canon_cons_unit_zero (S := S1x256x1) hz3, View.readCov_unit_zero (S := S256x1) _ hz2, View.readCov_unit_zero (S := S1x256x1) _ hz3, View.readAt_eq_ld, harg2.read_unread, harg3.read_unread, harg4.read_unread, harg7.read_unread, harg8.read_unread, View.ld_unit_zero (S := S256x256) hz2, View.ld_unit_zero (S := S5120x256) hz2, View.ld_unit_zero (S := S1x5120) hz2, View.ld_unit_zero (S := S256x1) hz2, View.ld_unit_zero (S := S1x256x1) hz3]

theorem sout1_C_1_eq (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) :
    sout1_C_1 c i arg2 harg2 arg3 harg3 arg4 harg4 arg5 harg5 arg6 harg6 arg7 harg7 arg8 harg8 hc0 hc1 x0 x1 x2 xs0 xs1 = k1_pay1 (k1_pay9 i x0 x1 x2 xs0) (k1_pay10 i x0 x1 x2 xs0 xs0 xs1) := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1)]
  unfold kernelRun1_C
  dsimp only
  try sl_unfold_words
  simp only [View.canon_unit_zero (S := S256x1) hz2, View.canon_unit_zero (S := S1x256x1) hz3, View.canon_cons_unit_zero (S := S256x1) hz2, View.canon_cons_unit_zero (S := S1x256x1) hz3, View.readCov_unit_zero (S := S256x1) _ hz2, View.readCov_unit_zero (S := S1x256x1) _ hz3, View.readAt_eq_ld, harg2.read_unread, harg3.read_unread, harg4.read_unread, harg7.read_unread, harg8.read_unread, View.ld_unit_zero (S := S256x256) hz2, View.ld_unit_zero (S := S5120x256) hz2, View.ld_unit_zero (S := S1x5120) hz2, View.ld_unit_zero (S := S256x1) hz2, View.ld_unit_zero (S := S1x256x1) hz3]

theorem out1_C_3_eq (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) :
    out1_C_3 c i arg2 harg2 arg3 harg3 arg4 harg4 arg5 harg5 arg6 harg6 arg7 harg7 arg8 harg8 hc0 hc1 x0 x1 x2 xs0 xs1 = k1_pay3 (k1_pay2 (k1_pay8 i x0 x1 x2 xs0)) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1)]
  unfold kernelRun1_C
  dsimp only
  try sl_unfold_words
  simp only [View.canon_unit_zero (S := S256x1) hz2, View.canon_unit_zero (S := S1x256x1) hz3, View.canon_cons_unit_zero (S := S256x1) hz2, View.canon_cons_unit_zero (S := S1x256x1) hz3, View.readCov_unit_zero (S := S256x1) _ hz2, View.readCov_unit_zero (S := S1x256x1) _ hz3, View.readAt_eq_ld, harg2.read_unread, harg3.read_unread, harg4.read_unread, harg7.read_unread, harg8.read_unread, View.ld_unit_zero (S := S256x256) hz2, View.ld_unit_zero (S := S5120x256) hz2, View.ld_unit_zero (S := S1x5120) hz2, View.ld_unit_zero (S := S256x1) hz2, View.ld_unit_zero (S := S1x256x1) hz3]

theorem out1_C_4_eq (c : Dev nD) (i : grid1.Coords) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x256 .f32) (x1 : Vec F S5120x256 .f32) (x2 : Vec F S1x5120 .f32) (xs0 xs1 : Vec F S256x1 .f32) :
    out1_C_4 c i arg2 harg2 arg3 harg3 arg4 harg4 arg5 harg5 arg6 harg6 arg7 harg7 arg8 harg8 hc0 hc1 x0 x1 x2 xs0 xs1 = k1_pay4 (k1_pay1 (k1_pay9 i x0 x1 x2 xs0) (k1_pay10 i x0 x1 x2 xs0 xs0 xs1)) := by
  unfold out1_C_4
  rw [View.read_writes_eq_canon _ _ _ (cover1_C_4 c i arg2 harg2 arg3 harg3 arg4 harg4 arg5 harg5 arg6 harg6 arg7 harg7 arg8 harg8 hc0 hc1 x0 x1 x2 xs0 xs1)]
  unfold kernelRun1_C
  dsimp only
  try sl_unfold_words
  simp only [View.canon_unit_zero (S := S256x1) hz2, View.canon_unit_zero (S := S1x256x1) hz3, View.canon_cons_unit_zero (S := S256x1) hz2, View.canon_cons_unit_zero (S := S1x256x1) hz3, View.readCov_unit_zero (S := S256x1) _ hz2, View.readCov_unit_zero (S := S1x256x1) _ hz3, View.readAt_eq_ld, harg2.read_unread, harg3.read_unread, harg4.read_unread, harg7.read_unread, harg8.read_unread, View.ld_unit_zero (S := S256x256) hz2, View.ld_unit_zero (S := S5120x256) hz2, View.ld_unit_zero (S := S1x5120) hz2, View.ld_unit_zero (S := S256x1) hz2, View.ld_unit_zero (S := S1x256x1) hz3]

end Cert.KernelIdeal.Hand

end
-- ==== Proof.KI.Reg1.Mask.lean ====
/- The masked logits of a tile do not depend on what lies past the table's end; the payloads built on them inherit this. -/
import proofs.«402386_j49916109914289_3_alg».proof.Proof.Gen.KernelIdeal.Skeleton

noncomputable section

namespace Cert.KernelIdeal.Hand

open Cert.KernelIdeal Cert.KernelIdeal.Gen
open Idealize.ShloMosaic Idealize.ShloMosaic.TcCoe

def Mask1 (F : FTy → Type) [FloatOps F] [Named F] : Prop :=
  ∀ (t : Fin cfg1.N) (v3 : Vec F S256x256 .f32)
    (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32),
    k1_pay7 (grid1.coords t) v3 (win1_1.fill (grid1.coords t) d1 b1) (win1_2.fill (grid1.coords t) d2 b2)
      = k1_pay7 (grid1.coords t) v3 (win1_1.fill (grid1.coords t) d1' b1) (win1_2.fill (grid1.coords t) d2' b2)

section
variable {F : FTy → Type} [FloatOps F] [Named F] (hmask1 : Mask1 F)
include hmask1

theorem pay8_mask (t : Fin cfg1.N) (v3 : Vec F S256x256 .f32)
    (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) (v26 : Vec F S256x1 .f32) :
    k1_pay8 (grid1.coords t) v3 (win1_1.fill (grid1.coords t) d1 b1) (win1_2.fill (grid1.coords t) d2 b2) v26
      = k1_pay8 (grid1.coords t) v3 (win1_1.fill (grid1.coords t) d1' b1) (win1_2.fill (grid1.coords t) d2' b2) v26 := by
  unfold k1_pay8; rw [hmask1 t v3 b1 b2 d1 d1' d2 d2']

theorem pay9_mask (t : Fin cfg1.N) (v3 : Vec F S256x256 .f32)
    (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) (v26 : Vec F S256x1 .f32) :
    k1_pay9 (grid1.coords t) v3 (win1_1.fill (grid1.coords t) d1 b1) (win1_2.fill (grid1.coords t) d2 b2) v26
      = k1_pay9 (grid1.coords t) v3 (win1_1.fill (grid1.coords t) d1' b1) (win1_2.fill (grid1.coords t) d2' b2) v26 := by
  unfold k1_pay9; rw [pay8_mask hmask1 t v3 b1 b2 d1 d1' d2 d2', hmask1 t v3 b1 b2 d1 d1' d2 d2']

theorem pay10_mask (t : Fin cfg1.N) (v3 : Vec F S256x256 .f32)
    (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) (v26 v28 v34 : Vec F S256x1 .f32) :
    k1_pay10 (grid1.coords t) v3 (win1_1.fill (grid1.coords t) d1 b1) (win1_2.fill (grid1.coords t) d2 b2) v26 v28 v34
      = k1_pay10 (grid1.coords t) v3 (win1_1.fill (grid1.coords t) d1' b1) (win1_2.fill (grid1.coords t) d2' b2) v26 v28 v34 := by
  unfold k1_pay10; rw [pay8_mask hmask1 t v3 b1 b2 d1 d1' d2 d2']

end

end Cert.KernelIdeal.Hand

end
-- ==== Proof.KI.Reg1.lean ====
/- Region 1, the vocabulary scan, on its grid of two cores by five tiles: a point's three control cases and the (maximum, sum) scratch pair carried from point to point. -/
import proofs.«402386_j49916109914289_3_alg».proof.Proof.KI.Reg1.Outs
import proofs.«402386_j49916109914289_3_alg».proof.Proof.KI.Reg1.Mask

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

abbrev O4 (F : FTy → Type) [FloatOps F] : Type := Vec F S1x256x1 .f32 × Vec F S1x256x1 .f32 × Vec F S256x1 .f32 × Vec F S256x1 .f32

abbrev in0 (c : Dev nD) (t : Fin cfg1.N) : Vec F S256x256 .f32 := iblk1 V c 0 t
abbrev in1 (c : Dev nD) (t : Fin cfg1.N) : Vec F S5120x256 .f32 := x1At V c t (zf1 (F := F) (S := S5120x256))
abbrev in2 (c : Dev nD) (t : Fin cfg1.N) : Vec F S1x5120 .f32 := x2At V c t (zf1 (F := F) (S := S1x5120))

def atA1 (c : Dev nD) (t : Fin cfg1.N) (h0 : t.val % 5 = 0) : O4 F :=
  (zf1, zf1,
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have := (hcond1_1 t).mp h; omega) (in0 V c t) (in1 V c t) (in2 V c t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => by have := (hcond1_1 t).mp h; omega) (in0 V c t) (in1 V c t) (in2 V c t))

def atB1 (c : Dev nD) (t : Fin cfg1.N) (h0 : ¬t.val % 5 = 0) (h1 : ¬t.val % 5 = 4) (xs0 xs1 : Vec F S256x1 .f32) : O4 F :=
  (zf1, zf1,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (in0 V c t) (in1 V c t) (in2 V c t) xs0 xs1,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (in0 V c t) (in1 V c t) (in2 V c t) xs0 xs1)

def atC1 (c : Dev nD) (t : Fin cfg1.N) (h0 : ¬t.val % 5 = 0) (h1 : t.val % 5 = 4) (xs0 xs1 : Vec F S256x1 .f32) : O4 F :=
  (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (in0 V c t) (in1 V c t) (in2 V c t) xs0 xs1,
   out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (in0 V c t) (in1 V c t) (in2 V c t) xs0 xs1,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (in0 V c t) (in1 V c t) (in2 V c t) xs0 xs1,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (in0 V c t) (in1 V c t) (in2 V c t) xs0 xs1)

def outsAt1 (c : Dev nD) : (n : ℕ) → n < cfg1.N → O4 F
  | 0, hn => atA1 V c ⟨0, hn⟩ (Nat.zero_mod _)
  | n + 1, hn =>
    if h0 : (n + 1) % 5 = 0 then atA1 V c ⟨n + 1, hn⟩ h0
    else if h1 : (n + 1) % 5 = 4 then atC1 V c ⟨n + 1, hn⟩ h0 h1 (outsAt1 c n (Nat.lt_of_succ_lt hn)).2.2.1 (outsAt1 c n (Nat.lt_of_succ_lt hn)).2.2.2
    else atB1 V c ⟨n + 1, hn⟩ h0 h1 (outsAt1 c n (Nat.lt_of_succ_lt hn)).2.2.1 (outsAt1 c n (Nat.lt_of_succ_lt hn)).2.2.2

theorem outsAt1_A (c : Dev nD) (t : Fin cfg1.N) (h0 : t.val % 5 = 0) : outsAt1 V c t.val t.isLt = atA1 V c t h0 := by
  obtain ⟨n, hn⟩ := t
  cases n with
  | zero => exact rfl
  | succ n => exact (dif_pos h0).trans rfl

theorem outsAt1_B (c : Dev nD) (t : Fin cfg1.N) (h0 : ¬t.val % 5 = 0) (h1 : ¬t.val % 5 = 4) :
    outsAt1 V c t.val t.isLt = atB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 5 = 0) (h1 : t.val % 5 = 4) :
    outsAt1 V c t.val t.isLt = atC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(Rest1 c ∗ owns (c : Thread nD τ) scM1_0 fullShare (outsAt1 V c n hn).2.2.1 ∗ owns (c : Thread nD τ) scM1_1 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(Rest1 c ∗ owns (c : Thread nD τ) scM1_0 fullShare (outsAt1 V c n hn).2.2.1 ∗ owns (c : Thread nD τ) scM1_1 fullShare (outsAt1 V c n hn).2.2.2 ∗ (∃ r, prngReg c r)) := rfl

theorem PhiS1_pos (c : Dev nD) (n : ℕ) (h : n ≤ cfg1.N) (hz : n ≠ 0) :
    PhiS1 V c n h = iprop(Rest1 c ∗ owns (c : Thread nD τ) scM1_0 fullShare (outsAt1 V c (n - 1) (by omega)).2.2.1 ∗ owns (c : Thread nD τ) scM1_1 fullShare (outsAt1 V c (n - 1) (by omega)).2.2.2 ∗ (∃ r, prngReg c r)) := by
  cases n with
  | zero => exact absurd rfl hz
  | succ n => rfl

theorem PhiS1_any (c : Dev nD) (n : ℕ) (h : n ≤ cfg1.N) : PhiS1 V c n h ⊢ iprop(Rest1 c ∗ (∃ d, owns (c : Thread nD τ) scM1_0 fullShare d) ∗ (∃ d, owns (c : Thread nD τ) scM1_1 fullShare d) ∗ (∃ r, prngReg c r)) := by
  cases n with
  | zero => exact PhiA1_out c
  | succ n =>
    rw [PhiS1_succ]
    iintro ⟨HR, HS0, HS1, Hg⟩
    isplitl [HR]; · iexact HR
    isplitl [HS0]; · iexists _; iexact HS0
    isplitl [HS1]; · iexists _; iexact HS1
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => in1 V c t
    | ⟨2, _⟩ => in2 V c t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = in1 V c t := by dsimp only [dat1]
theorem after1_2 (c : Dev nD) (t : Fin cfg1.N) : (dat1 V c).after 2 t = in2 V c t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = x1At V c t d :=
  before1_1_of V (dat1 V c) (A_eq1 V c 1) t d
theorem before1_2 (c : Dev nD) (t : Fin cfg1.N) (d) : (dat1 V c).before 2 t d = x2At V c t d :=
  before1_2_of V (dat1 V c) (A_eq1 V c 2) t d

end

section
variable (V : (c : Dev nD) → (b : Ref sig .tc) → Buf (Elt F) ((c : Thread nD τ).loc b))

theorem leaves1_0 (c : Dev nD) (t : Fin cfg1.N) :
    (dat1 V c).leaves 0 t = owns (c : Thread nD τ) (ms1_0 t) fullShare (iblk1 V c 0 t) := by
  unfold Dat.leaves; rw [liveAt1_0 t, after1_0]

theorem leaves1_1 (c : Dev nD) (t : Fin cfg1.N) :
    (dat1 V c).leaves 1 t = iprop(∃ d, owns (c : Thread nD τ) (ms1_1 t) fullShare (x1At V c t d)) := by
  unfold Dat.leaves; rw [liveAt1_1 t, after1_1]
  exact congrArg (fun X => iprop(∃ d, owns (c : Thread nD τ) (ms1_1 t) fullShare (win1_1.fill (grid1.coords t) d X)))
    (win1_1.cut_fill (grid1.coords t) (zf1 (F := F) (S := S5120x256)) (iblk1 V c 1 t))

theorem leaves1_2 (c : Dev nD) (t : Fin cfg1.N) :
    (dat1 V c).leaves 2 t = iprop(∃ d, owns (c : Thread nD τ) (ms1_2 t) fullShare (x2At V c t d)) := by
  unfold Dat.leaves; rw [liveAt1_2 t, after1_2]
  exact congrArg (fun X => iprop(∃ d, owns (c : Thread nD τ) (ms1_2 t) fullShare (win1_2.fill (grid1.coords t) d X)))
    (win1_2.cut_fill (grid1.coords t) (zf1 (F := F) (S := S1x5120)) (iblk1 V c 2 t))

theorem leaves1_3_C (c : Dev nD) (t : Fin cfg1.N) (hc1 : cond1_1 (grid1.coords t)) :
    (dat1 V c).leaves 3 t = owns (c : Thread nD τ) (ms1_3 t) fullShare (outsAt1 V c t.val t.isLt).1 := by
  unfold Dat.leaves; rw [liveAt1_3 t hc1, after1_3]
theorem leaves1_4_C (c : Dev nD) (t : Fin cfg1.N) (hc1 : cond1_1 (grid1.coords t)) :
    (dat1 V c).leaves 4 t = owns (c : Thread nD τ) (ms1_4 t) fullShare (outsAt1 V c t.val t.isLt).2.1 := by
  unfold Dat.leaves; rw [liveAt1_4 t hc1, after1_4]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leaves 0 t ∗ (dat1 V c).leaves 1 t ∗ (dat1 V c).leaves 2 t ∗ (dat1 V c).leaves 3 t ∗ (dat1 V c).leaves 4 t)

end

theorem weaken_head1 {P Q R K : sProp 𝕄} (h : P ⊢ Q) (k : iprop(Q ∗ R) ⊢ K) : iprop(P ∗ R) ⊢ K := by
  iintro ⟨HP, HR⟩
  iapply k
  isplitl [HP]
  · iapply h; iexact HP
  · iexact HR

section
variable (hmask1 : Mask1 F)
include hmask1

theorem sout1_A_0_indep (c : Dev nD) (t : Fin cfg1.N) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 (grid1.coords t)) (hc1 : ¬cond1_1 (grid1.coords t))
    (x0 : Vec F S256x256 .f32) (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) :
    sout1_A_0 c (grid1.coords t) arg2 harg2 arg3 harg3 arg4 harg4 arg5 harg5 arg6 harg6 arg7 harg7 arg8 harg8 hc0 hc1 x0 (win1_1.fill (grid1.coords t) d1 b1) (win1_2.fill (grid1.coords t) d2 b2)
      = sout1_A_0 c (grid1.coords t) arg2 harg2 arg3 harg3 arg4 harg4 arg5 harg5 arg6 harg6 arg7 harg7 arg8 harg8 hc0 hc1 x0 (win1_1.fill (grid1.coords t) d1' b1) (win1_2.fill (grid1.coords t) d2' b2) := by
  rw [sout1_A_0_eq, sout1_A_0_eq, pay8_mask hmask1 t x0 b1 b2 d1 d1' d2 d2']

theorem sout1_A_1_indep (c : Dev nD) (t : Fin cfg1.N) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : cond1_0 (grid1.coords t)) (hc1 : ¬cond1_1 (grid1.coords t))
    (x0 : Vec F S256x256 .f32) (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) :
    sout1_A_1 c (grid1.coords t) arg2 harg2 arg3 harg3 arg4 harg4 arg5 harg5 arg6 harg6 arg7 harg7 arg8 harg8 hc0 hc1 x0 (win1_1.fill (grid1.coords t) d1 b1) (win1_2.fill (grid1.coords t) d2 b2)
      = sout1_A_1 c (grid1.coords t) arg2 harg2 arg3 harg3 arg4 harg4 arg5 harg5 arg6 harg6 arg7 harg7 arg8 harg8 hc0 hc1 x0 (win1_1.fill (grid1.coords t) d1' b1) (win1_2.fill (grid1.coords t) d2' b2) := by
  rw [sout1_A_1_eq, sout1_A_1_eq, pay9_mask hmask1 t x0 b1 b2 d1 d1' d2 d2', pay10_mask hmask1 t x0 b1 b2 d1 d1' d2 d2']

theorem sout1_B_0_indep (c : Dev nD) (t : Fin cfg1.N) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 (grid1.coords t)) (hc1 : ¬cond1_1 (grid1.coords t))
    (x0 : Vec F S256x256 .f32) (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) (xs0 xs1 : Vec F S256x1 .f32) :
    sout1_B_0 c (grid1.coords t) arg2 harg2 arg3 harg3 arg4 harg4 arg5 harg5 arg6 harg6 arg7 harg7 arg8 harg8 hc0 hc1 x0 (win1_1.fill (grid1.coords t) d1 b1) (win1_2.fill (grid1.coords t) d2 b2) xs0 xs1
      = sout1_B_0 c (grid1.coords t) arg2 harg2 arg3 harg3 arg4 harg4 arg5 harg5 arg6 harg6 arg7 harg7 arg8 harg8 hc0 hc1 x0 (win1_1.fill (grid1.coords t) d1' b1) (win1_2.fill (grid1.coords t) d2' b2) xs0 xs1 := by
  rw [sout1_B_0_eq, sout1_B_0_eq, pay8_mask hmask1 t x0 b1 b2 d1 d1' d2 d2']

theorem sout1_B_1_indep (c : Dev nD) (t : Fin cfg1.N) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 (grid1.coords t)) (hc1 : ¬cond1_1 (grid1.coords t))
    (x0 : Vec F S256x256 .f32) (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) (xs0 xs1 : Vec F S256x1 .f32) :
    sout1_B_1 c (grid1.coords t) arg2 harg2 arg3 harg3 arg4 harg4 arg5 harg5 arg6 harg6 arg7 harg7 arg8 harg8 hc0 hc1 x0 (win1_1.fill (grid1.coords t) d1 b1) (win1_2.fill (grid1.coords t) d2 b2) xs0 xs1
      = sout1_B_1 c (grid1.coords t) arg2 harg2 arg3 harg3 arg4 harg4 arg5 harg5 arg6 harg6 arg7 harg7 arg8 harg8 hc0 hc1 x0 (win1_1.fill (grid1.coords t) d1' b1) (win1_2.fill (grid1.coords t) d2' b2) xs0 xs1 := by
  rw [sout1_B_1_eq, sout1_B_1_eq, pay9_mask hmask1 t x0 b1 b2 d1 d1' d2 d2', pay10_mask hmask1 t x0 b1 b2 d1 d1' d2 d2']

theorem sout1_C_0_indep (c : Dev nD) (t : Fin cfg1.N) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 (grid1.coords t)) (hc1 : cond1_1 (grid1.coords t))
    (x0 : Vec F S256x256 .f32) (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) (xs0 xs1 : Vec F S256x1 .f32) :
    sout1_C_0 c (grid1.coords t) arg2 harg2 arg3 harg3 arg4 harg4 arg5 harg5 arg6 harg6 arg7 harg7 arg8 harg8 hc0 hc1 x0 (win1_1.fill (grid1.coords t) d1 b1) (win1_2.fill (grid1.coords t) d2 b2) xs0 xs1
      = sout1_C_0 c (grid1.coords t) arg2 harg2 arg3 harg3 arg4 harg4 arg5 harg5 arg6 harg6 arg7 harg7 arg8 harg8 hc0 hc1 x0 (win1_1.fill (grid1.coords t) d1' b1) (win1_2.fill (grid1.coords t) d2' b2) xs0 xs1 := by
  rw [sout1_C_0_eq, sout1_C_0_eq, pay8_mask hmask1 t x0 b1 b2 d1 d1' d2 d2']

theorem sout1_C_1_indep (c : Dev nD) (t : Fin cfg1.N) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 (grid1.coords t)) (hc1 : cond1_1 (grid1.coords t))
    (x0 : Vec F S256x256 .f32) (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) (xs0 xs1 : Vec F S256x1 .f32) :
    sout1_C_1 c (grid1.coords t) arg2 harg2 arg3 harg3 arg4 harg4 arg5 harg5 arg6 harg6 arg7 harg7 arg8 harg8 hc0 hc1 x0 (win1_1.fill (grid1.coords t) d1 b1) (win1_2.fill (grid1.coords t) d2 b2) xs0 xs1
      = sout1_C_1 c (grid1.coords t) arg2 harg2 arg3 harg3 arg4 harg4 arg5 harg5 arg6 harg6 arg7 harg7 arg8 harg8 hc0 hc1 x0 (win1_1.fill (grid1.coords t) d1' b1) (win1_2.fill (grid1.coords t) d2' b2) xs0 xs1 := by
  rw [sout1_C_1_eq, sout1_C_1_eq, pay9_mask hmask1 t x0 b1 b2 d1 d1' d2 d2', pay10_mask hmask1 t x0 b1 b2 d1 d1' d2 d2']

theorem out1_C_3_indep (c : Dev nD) (t : Fin cfg1.N) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 (grid1.coords t)) (hc1 : cond1_1 (grid1.coords t))
    (x0 : Vec F S256x256 .f32) (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) (xs0 xs1 : Vec F S256x1 .f32) :
    out1_C_3 c (grid1.coords t) arg2 harg2 arg3 harg3 arg4 harg4 arg5 harg5 arg6 harg6 arg7 harg7 arg8 harg8 hc0 hc1 x0 (win1_1.fill (grid1.coords t) d1 b1) (win1_2.fill (grid1.coords t) d2 b2) xs0 xs1
      = out1_C_3 c (grid1.coords t) arg2 harg2 arg3 harg3 arg4 harg4 arg5 harg5 arg6 harg6 arg7 harg7 arg8 harg8 hc0 hc1 x0 (win1_1.fill (grid1.coords t) d1' b1) (win1_2.fill (grid1.coords t) d2' b2) xs0 xs1 := by
  rw [out1_C_3_eq, out1_C_3_eq, pay8_mask hmask1 t x0 b1 b2 d1 d1' d2 d2']

theorem out1_C_4_indep (c : Dev nD) (t : Fin cfg1.N) (arg2 : Memref sig .tc .vmem S256x256 .f32) (harg2 : arg2.IsWhole) (arg3 : Memref sig .tc .vmem S5120x256 .f32) (harg3 : arg3.IsWhole) (arg4 : Memref sig .tc .vmem S1x5120 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S256x1 .f32) (harg7 : arg7.IsWhole) (arg8 : Memref sig .tc .vmem S256x1 .f32) (harg8 : arg8.IsWhole) (hc0 : ¬cond1_0 (grid1.coords t)) (hc1 : cond1_1 (grid1.coords t))
    (x0 : Vec F S256x256 .f32) (b1 : (win1_1.xblock (grid1.coords t)).Idx → Elt F .f32) (b2 : (win1_2.xblock (grid1.coords t)).Idx → Elt F .f32)
    (d1 d1' : S5120x256.Idx → Elt F .f32) (d2 d2' : S1x5120.Idx → Elt F .f32) (xs0 xs1 : Vec F S256x1 .f32) :
    out1_C_4 c (grid1.coords t) arg2 harg2 arg3 harg3 arg4 harg4 arg5 harg5 arg6 harg6 arg7 harg7 arg8 harg8 hc0 hc1 x0 (win1_1.fill (grid1.coords t) d1 b1) (win1_2.fill (grid1.coords t) d2 b2) xs0 xs1
      = out1_C_4 c (grid1.coords t) arg2 harg2 arg3 harg3 arg4 harg4 arg5 harg5 arg6 harg6 arg7 harg7 arg8 harg8 hc0 hc1 x0 (win1_1.fill (grid1.coords t) d1' b1) (win1_2.fill (grid1.coords t) d2' b2) xs0 xs1 := by
  rw [out1_C_4_eq, out1_C_4_eq, pay9_mask hmask1 t x0 b1 b2 d1 d1' d2 d2', pay10_mask hmask1 t x0 b1 b2 d1 d1' d2 d2']

variable (V : (c : Dev nD) → (b : Ref sig .tc) → Buf (Elt F) ((c : Thread nD τ).loc b))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, PhiS1_castSucc V c t]
  have hN : t.val < 10 := lt_of_lt_of_eq t.isLt (show cfg1.N = 10 from N_1)
  by_cases h0 : t.val % 5 = 0
  ·
    have hc0 : cond1_0 (grid1.coords t) := (hcond1_0 t).mpr h0
    have hc1 : ¬cond1_1 (grid1.coords t) := fun h => by have := (hcond1_1 t).mp h; omega
    rw [Dat.leaves_idle (dat1 V c) 3 t (idleAt1_3 t hc1) (noFlush1_3 t hc1), Dat.leaves_idle (dat1 V c) 4 t (idleAt1_4 t hc1) (noFlush1_4 t hc1)]
    rw [outsAt1_A V c t h0]; unfold atA1; dsimp only
    refine weaken_head1 (PhiS1_any V c t.val _) ?_
    iintro ⟨⟨HR, ⟨%e0, HS0⟩, ⟨%e1, HS1⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ _ _ hc0 hc1 (iblk1 V c 0 t) (x1At V c t d1) (x2At V c t d2)).2.2 _ _ Set.univ _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexists _; iexact HS1
    iintro ⟨H0, H1, H2, H3, H4, ⟨%es0, HS0⟩, ⟨%es1, HS1⟩⟩
    isplitl [HR HS0 HS1 Hg]
    · isplitl [HR]; · iexact HR
      isplitl [HS0]
      · unfold owns; iexists _; isplitr
        swap; · iexact HS0
        ipureintro
        refine Eq.trans (View.read_writes_of_cover _ _ VS1_0 VS1_0.junk _ (scover1_A_0 c (grid1.coords t) _ _ _ _ _ _ _ _ _ _ _ _ _ _ hc0 hc1 (iblk1 V c 0 t) (x1At V c t d1) (x2At V c t d2))) ?_
        exact sout1_A_0_indep hmask1 c t _ _ _ _ _ _ _ _ _ _ _ _ _ _ hc0 hc1 _ _ _ _ _ _ _
      isplitl [HS1]
      · unfold owns; iexists _; isplitr
        swap; · iexact HS1
        ipureintro
        refine Eq.trans (View.read_writes_of_cover _ _ VS1_1 VS1_1.junk _ (scover1_A_1 c (grid1.coords t) _ _ _ _ _ _ _ _ _ _ _ _ _ _ hc0 hc1 (iblk1 V c 0 t) (x1At V c t d1) (x2At V c t d2))) ?_
        exact sout1_A_1_indep hmask1 c t _ _ _ _ _ _ _ _ _ _ _ _ _ _ hc0 hc1 _ _ _ _ _ _ _
      iexact Hg
    isplitl [Ho]; · iexact Ho
    isplitl [H0]; · iexact H0
    isplitl [H1]; · iexists _; iexact H1
    isplitl [H2]; · iexists _; iexact H2
    isplitl [H3]; · iexists _; iexact H3
    iexists _; iexact H4
  · have hz : t.val ≠ 0 := fun e => h0 (by rw [e])
    have hc0 : ¬cond1_0 (grid1.coords t) := fun h => h0 ((hcond1_0 t).mp h)
    rw [PhiS1_pos V c _ _ hz]
    by_cases h1 : t.val % 5 = 4
    ·
      have hc1 : cond1_1 (grid1.coords t) := (hcond1_1 t).mpr h1
      rw [leaves1_3_C V c t hc1, leaves1_4_C V c t hc1]
      rw [outsAt1_C V c t h0 h1]; unfold atC1; dsimp only
      iintro ⟨⟨HR, HS0, HS1, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ hc0 hc1 (iblk1 V c 0 t) (x1At V c t d1) (x2At V c t d2) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HR HS0 HS1 Hg]
      · isplitl [HR]; · iexact HR
        isplitl [HS0]
        · unfold owns; iexists _; isplitr
          swap; · iexact HS0
          ipureintro
          refine Eq.trans (View.read_writes_of_cover _ _ VS1_0 VS1_0.junk _ (scover1_C_0 c (grid1.coords t) _ _ _ _ _ _ _ _ _ _ _ _ _ _ hc0 hc1 (iblk1 V c 0 t) (x1At V c t d1) (x2At V c t d2) _ _)) ?_
          exact sout1_C_0_indep hmask1 c t _ _ _ _ _ _ _ _ _ _ _ _ _ _ hc0 hc1 _ _ _ _ _ _ _ _ _
        isplitl [HS1]
        · unfold owns; iexists _; isplitr
          swap; · iexact HS1
          ipureintro
          refine Eq.trans (View.read_writes_of_cover _ _ VS1_1 VS1_1.junk _ (scover1_C_1 c (grid1.coords t) _ _ _ _ _ _ _ _ _ _ _ _ _ _ hc0 hc1 (iblk1 V c 0 t) (x1At V c t d1) (x2At V c t d2) _ _)) ?_
          exact sout1_C_1_indep hmask1 c t _ _ _ _ _ _ _ _ _ _ _ _ _ _ hc0 hc1 _ _ _ _ _ _ _ _ _
        iexact Hg
      isplitl [Ho]; · iexact Ho
      isplitl [H0]; · iexact H0
      isplitl [H1]; · iexists _; iexact H1
      isplitl [H2]; · iexists _; iexact H2
      isplitl [H3]
      · unfold owns; iexists _; isplitr
        swap; · iexact H3
        ipureintro
        refine Eq.trans (View.read_writes_of_cover _ _ VO1_3 VO1_3.junk _ (cover1_C_3 c (grid1.coords t) _ _ _ _ _ _ _ _ _ _ _ _ _ _ hc0 hc1 (iblk1 V c 0 t) (x1At V c t d1) (x2At V c t d2) _ _)) ?_
        exact out1_C_3_indep hmask1 c t _ _ _ _ _ _ _ _ _ _ _ _ _ _ hc0 hc1 _ _ _ _ _ _ _ _ _
      unfold owns; iexists _; isplitr
      swap; · iexact H4
      ipureintro
      refine Eq.trans (View.read_writes_of_cover _ _ VO1_4 VO1_4.junk _ (cover1_C_4 c (grid1.coords t) _ _ _ _ _ _ _ _ _ _ _ _ _ _ hc0 hc1 (iblk1 V c 0 t) (x1At V c t d1) (x2At V c t d2) _ _)) ?_
      exact out1_C_4_indep hmask1 c t _ _ _ _ _ _ _ _ _ _ _ _ _ _ hc0 hc1 _ _ _ _ _ _ _ _ _
    ·
      have hc1 : ¬cond1_1 (grid1.coords t) := fun h => h1 ((hcond1_1 t).mp h)
      rw [Dat.leaves_idle (dat1 V c) 3 t (idleAt1_3 t hc1) (noFlush1_3 t hc1), Dat.leaves_idle (dat1 V c) 4 t (idleAt1_4 t hc1) (noFlush1_4 t hc1)]
      rw [outsAt1_B V c t h0 h1]; unfold atB1; dsimp only
      iintro ⟨⟨HR, HS0, HS1, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ hc0 hc1 (iblk1 V c 0 t) (x1At V c t d1) (x2At V c t d2) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitl [HR]; · iexact HR
        isplitl [HS0]
        · unfold owns; iexists _; isplitr
          swap; · iexact HS0
          ipureintro
          refine Eq.trans (View.read_writes_of_cover _ _ VS1_0 VS1_0.junk _ (scover1_B_0 c (grid1.coords t) _ _ _ _ _ _ _ _ _ _ _ _ _ _ hc0 hc1 (iblk1 V c 0 t) (x1At V c t d1) (x2At V c t d2) _ _)) ?_
          exact sout1_B_0_indep hmask1 c t _ _ _ _ _ _ _ _ _ _ _ _ _ _ hc0 hc1 _ _ _ _ _ _ _ _ _
        isplitl [HS1]
        · unfold owns; iexists _; isplitr
          swap; · iexact HS1
          ipureintro
          refine Eq.trans (View.read_writes_of_cover _ _ VS1_1 VS1_1.junk _ (scover1_B_1 c (grid1.coords t) _ _ _ _ _ _ _ _ _ _ _ _ _ _ hc0 hc1 (iblk1 V c 0 t) (x1At V c t d1) (x2At V c t d2) _ _)) ?_
          exact sout1_B_1_indep hmask1 c t _ _ _ _ _ _ _ _ _ _ _ _ _ _ hc0 hc1 _ _ _ _ _ _ _ _ _
        iexact Hg
      isplitl [Ho]; · iexact Ho
      isplitl [H0]; · iexact H0
      isplitl [H1]; · iexists _; iexact H1
      isplitl [H2]; · iexists _; iexact H2
      isplitl [H3]; · iexists _; iexact H3
      iexists _; iexact H4

theorem body_obligation1 (c : Dev nD) : BodyObligationLoose (dat1 V c) (defs₀ (F := F)) Variants.none () Set.univ := fun t => by
  rw [bigSep_W1, bigSep_W1]
  exact sound_body1 hmask1 V c t

end

section
variable (V : (c : Dev nD) → (b : Ref sig .tc) → Buf (Elt F) ((c : Thread nD τ).loc b))

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_any V c _ _).trans (PhiA1_in c)

end

end Cert.KernelIdeal.Hand

end
-- ==== Proof.KI.Reg1F.lean ====
/- Region 1 with the contents of its two outputs left unnamed: all the frame needs of it. -/
import proofs.«402386_j49916109914289_3_alg».proof.Proof.KI.Reg1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

abbrev fgt1 : Fin cfg1.W → Bool := fun | 0 => false | 1 => false | 2 => false | 3 => true | 4 => true | ⟨_ + 5, h⟩ => absurd h (Nat.not_lt.2 (Nat.le_add_left _ _))

def dat1F (c : Dev nD) : Dat τ (Elt F) Unit ℕ (UR sig nD τ) ℕ cfg1 c where
  A w := V c (Pipeline.arrRef spec1 w)
  after w t := match w with
    | ⟨0, _⟩ => iblk1 V c 0 t
    | ⟨1, _⟩ => x1At V c t (zf1 (F := F) (S := S5120x256))
    | ⟨2, _⟩ => x2At V c t (zf1 (F := F) (S := S1x5120))
    | ⟨3, _⟩ => zf1
    | ⟨4, _⟩ => zf1
  Φ _ := Pipeline.ΦA spec1 c
  q _ := fullShare
  owed _ := 0

theorem A_eq1F (c : Dev nD) (w : Fin cfg1.W) : (dat1F V c).A w = V c (Pipeline.arrRef spec1 w) := by
  dsimp only [dat1F]

theorem after1F_0 (c : Dev nD) (t : Fin cfg1.N) : (dat1F V c).after 0 t = iblk1 V c 0 t := by dsimp only [dat1F]
theorem after1F_1 (c : Dev nD) (t : Fin cfg1.N) : (dat1F V c).after 1 t = x1At V c t (zf1 (F := F) (S := S5120x256)) := by dsimp only [dat1F]
theorem after1F_2 (c : Dev nD) (t : Fin cfg1.N) : (dat1F V c).after 2 t = x2At V c t (zf1 (F := F) (S := S1x5120)) := by dsimp only [dat1F]

theorem before1F_0 (c : Dev nD) (t : Fin cfg1.N) (d) : (dat1F V c).before 0 t d = iblk1 V c 0 t :=
  before1_0_of V (dat1F V c) (A_eq1F V c 0) (after1F_0 V c) t d
theorem before1F_1 (c : Dev nD) (t : Fin cfg1.N) (d) : (dat1F V c).before 1 t d = x1At V c t d :=
  before1_1_of V (dat1F V c) (A_eq1F V c 1) t d
theorem before1F_2 (c : Dev nD) (t : Fin cfg1.N) (d) : (dat1F V c).before 2 t d = x2At V c t d :=
  before1_2_of V (dat1F V c) (A_eq1F V c 2) t d

theorem leaves1F_0 (c : Dev nD) (t : Fin cfg1.N) :
    (dat1F V c).leaves 0 t = owns (c : Thread nD τ) (ms1_0 t) fullShare (iblk1 V c 0 t) := by
  unfold Dat.leaves; rw [liveAt1_0 t, after1F_0]

theorem leaves1F_1 (c : Dev nD) (t : Fin cfg1.N) :
    (dat1F V c).leaves 1 t = iprop(∃ d, owns (c : Thread nD τ) (ms1_1 t) fullShare (x1At V c t d)) := by
  unfold Dat.leaves; rw [liveAt1_1 t, after1F_1]
  exact congrArg (fun X => iprop(∃ d, owns (c : Thread nD τ) (ms1_1 t) fullShare (win1_1.fill (grid1.coords t) d X)))
    (win1_1.cut_fill (grid1.coords t) (zf1 (F := F) (S := S5120x256)) (iblk1 V c 1 t))

theorem leaves1F_2 (c : Dev nD) (t : Fin cfg1.N) :
    (dat1F V c).leaves 2 t = iprop(∃ d, owns (c : Thread nD τ) (ms1_2 t) fullShare (x2At V c t d)) := by
  unfold Dat.leaves; rw [liveAt1_2 t, after1F_2]
  exact congrArg (fun X => iprop(∃ d, owns (c : Thread nD τ) (ms1_2 t) fullShare (win1_2.fill (grid1.coords t) d X)))
    (win1_2.cut_fill (grid1.coords t) (zf1 (F := F) (S := S1x5120)) (iblk1 V c 2 t))

def bodyPre1F (c : Dev nD) (t : Fin cfg1.N) : sProp 𝕄 :=
  iprop((dat1F V c).Φ t.castSucc ∗ (dat1F V c).owesAt () t.castSucc
    ∗ (∃ d, owns (c : Thread nD τ) (ms1_0 t) fullShare ((dat1F V c).before 0 t d))
    ∗ (∃ d, owns (c : Thread nD τ) (ms1_1 t) fullShare ((dat1F V c).before 1 t d))
    ∗ (∃ d, owns (c : Thread nD τ) (ms1_2 t) fullShare ((dat1F V c).before 2 t d))
    ∗ (∃ X, owns (c : Thread nD τ) (ms1_3 t) fullShare X)
    ∗ (∃ X, owns (c : Thread nD τ) (ms1_4 t) fullShare X))

def bodyPost1F (c : Dev nD) (t : Fin cfg1.N) : sProp 𝕄 :=
  iprop((dat1F V c).Φ t.succ ∗ (dat1F V c).owesAt () t.succ
    ∗ (dat1F V c).leaves 0 t ∗ (dat1F V c).leaves 1 t ∗ (dat1F V c).leaves 2 t
    ∗ (∃ X, owns (c : Thread nD τ) (ms1_3 t) fullShare X)
    ∗ (∃ X, owns (c : Thread nD τ) (ms1_4 t) fullShare X))

set_option maxHeartbeats 4800000 in
theorem sound_body1F (c : Dev nD) (t : Fin cfg1.N) :
    bodyPre1F V c t ⊢ wp frame (wpE (defs₀ (F := F)) Variants.none c none) Set.univ (bodyAt1 t) (fun _ => bodyPost1F V c t) := by
  unfold bodyPre1F bodyPost1F bodyAt1
  simp only [before1F_0, before1F_1, before1F_2]
  rw [show (dat1F V c).owesAt () t.succ = (dat1F V c).owesAt () t.castSucc from rfl]
  rw [show (dat1F V c).Φ t.succ = Pipeline.ΦA spec1 c from rfl, show (dat1F V c).Φ t.castSucc = Pipeline.ΦA spec1 c from rfl]
  rw [leaves1F_0, leaves1F_1, leaves1F_2, PhiA1_eq]
  have hN : t.val < 10 := lt_of_lt_of_eq t.isLt (show cfg1.N = 10 from N_1)
  iintro ⟨⟨HR, ⟨%e0, HS0⟩, ⟨%e1, HS1⟩, Hg⟩, Ho, ⟨%d0, H0⟩, ⟨%d1, H1⟩, ⟨%d2, H2⟩, ⟨%X3, H3⟩, ⟨%X4, H4⟩⟩
  by_cases h0 : t.val % 5 = 0
  ·
    have hc0 : cond1_0 (grid1.coords t) := (hcond1_0 t).mpr h0
    have hc1 : ¬cond1_1 (grid1.coords t) := fun h => by have := (hcond1_1 t).mp h; omega
    iapply ((kernelRun1_A c (grid1.coords t) _ _ _ _ _ _ _ _ _ _ _ _ _ _ hc0 hc1 (iblk1 V c 0 t) (x1At V c t d1) (x2At V c t d2)).2.2 _ _ Set.univ _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexists _; iexact HS1
    iintro ⟨H0, H1, H2, H3, H4, ⟨%es0, HS0⟩, ⟨%es1, HS1⟩⟩
    isplitl [HR HS0 HS1 Hg]
    · isplitl [HR]; · iexact HR
      isplitl [HS0]
      · iexists _; unfold owns; iexists _; isplitr; swap; iexact HS0; ipureintro; rfl
      isplitl [HS1]
      · iexists _; unfold owns; iexists _; isplitr; swap; iexact HS1; ipureintro; rfl
      iexact Hg
    isplitl [Ho]; · iexact Ho
    isplitl [H0]; · iexact H0
    isplitl [H1]; · iexists _; iexact H1
    isplitl [H2]; · iexists _; iexact H2
    isplitl [H3]; · iexists _; iexact H3
    iexists _; iexact H4
  · have hc0 : ¬cond1_0 (grid1.coords t) := fun h => h0 ((hcond1_0 t).mp h)
    by_cases h1 : t.val % 5 = 4
    ·
      have hc1 : cond1_1 (grid1.coords t) := (hcond1_1 t).mpr h1
      iapply ((kernelRun1_C c (grid1.coords t) _ _ _ _ _ _ _ _ _ _ _ _ _ _ hc0 hc1 (iblk1 V c 0 t) (x1At V c t d1) (x2At V c t d2) e0 e1).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HR HS0 HS1 Hg]
      · isplitl [HR]; · iexact HR
        isplitl [HS0]
        · iexists _; unfold owns; iexists _; isplitr; swap; iexact HS0; ipureintro; rfl
        isplitl [HS1]
        · iexists _; unfold owns; iexists _; isplitr; swap; iexact HS1; ipureintro; rfl
        iexact Hg
      isplitl [Ho]; · iexact Ho
      isplitl [H0]; · iexact H0
      isplitl [H1]; · iexists _; iexact H1
      isplitl [H2]; · iexists _; iexact H2
      isplitl [H3]
      · iexists _; unfold owns; iexists _; isplitr; swap; iexact H3; ipureintro; rfl
      iexists _; unfold owns; iexists _; isplitr; swap; iexact H4; ipureintro; rfl
    ·
      have hc1 : ¬cond1_1 (grid1.coords t) := fun h => h1 ((hcond1_1 t).mp h)
      iapply ((kernelRun1_B c (grid1.coords t) _ _ _ _ _ _ _ _ _ _ _ _ _ _ hc0 hc1 (iblk1 V c 0 t) (x1At V c t d1) (x2At V c t d2) e0 e1).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HR HS0 HS1 Hg]
      · isplitl [HR]; · iexact HR
        isplitl [HS0]
        · iexists _; unfold owns; iexists _; isplitr; swap; iexact HS0; ipureintro; rfl
        isplitl [HS1]
        · iexists _; unfold owns; iexists _; isplitr; swap; iexact HS1; ipureintro; rfl
        iexact Hg
      isplitl [Ho]; · iexact Ho
      isplitl [H0]; · iexact H0
      isplitl [H1]; · iexists _; iexact H1
      isplitl [H2]; · iexists _; iexact H2
      isplitl [H3]; · iexists _; iexact H3
      iexists _; iexact H4

theorem body_obligation1F (c : Dev nD) : BodyObligationLoose (dat1F V c) (defs₀ (F := F)) Variants.none () Set.univ fgt1 := fun t => by
  rw [bigSep_W1, bigSep_W1]
  exact sound_body1F V c t

theorem hin1F (c : Dev nD) : Pipeline.ΦA spec1 c ⊢ (dat1F V c).Φ 0 := by
  rw [show (dat1F V c).Φ 0 = Pipeline.ΦA spec1 c from rfl]
  try exact Idealize.SL.BI.Entails.refl _

theorem hout1F (c : Dev nD) : (dat1F V c).Φ (Fin.last cfg1.N) ⊢ Pipeline.ΦA spec1 c := by
  rw [show (dat1F V c).Φ (Fin.last cfg1.N) = Pipeline.ΦA spec1 c from rfl]
  try exact Idealize.SL.BI.Entails.refl _

end

end Cert.KernelIdeal.Hand

end
-- ==== Proof.KI.Run.lean ====
/- The run of @main: the buffer contents at each boundary between host stretches and regions, the two regions as segments of the launch, and the frame. -/
import proofs.«402386_j49916109914289_3_alg».proof.Proof.Gen.KernelIdeal.Regions
import proofs.«402386_j49916109914289_3_alg».proof.Proof.KI.Reg0
import proofs.«402386_j49916109914289_3_alg».proof.Proof.KI.Reg1
import proofs.«402386_j49916109914289_3_alg».proof.Proof.KI.Reg1F
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Bookkeeping

theorem ΦA_make {gr W : Nat} (win : Fin W → Pipeline.WinSpec sig gr) (c : Dev nD) (T : sProp 𝕄) :
    iprop((∃ r, prngReg c r) ∗ T ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hreg, -, Hsc⟩
  isplitl [Hsc]
  · iexact Hsc
  · iexact Hreg

theorem ΦA_take {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hsc, Hreg⟩
  isplitl [Hreg]
  · iexact Hreg
  isplitr
  · iempintro
  · iexact Hsc

variable {cfg : Cfg sig Λ₀} {c : Dev nD} (dat : Dat τ (Elt F) Unit ℕ (UR sig nD τ) ℕ cfg c)

theorem owesAt_of_nothing (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, H⟩
  iexists W
  isplitr
  · ipureintro
    intro x _
    exact Or.inl (hrec ▸ Set.mem_univ x)
  · iexact H

theorem nothing_of_owesAt (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, H⟩
  iexists W
  iexact H

theorem entry_regroup {H A Zr Xp O O' Pf S Lv : sProp 𝕄} (hs : H ⊢ iprop(A ∗ Zr)) (ho : O ⊢ O') (hp : (BI.emp : sProp 𝕄) ⊢ Pf) :
    iprop((H ∗ Xp ∗ O) ∗ S ∗ Lv) ⊢ |={Set.univ}=> iprop(A ∗ Pf ∗ O' ∗ Xp ∗ Zr) := by
  iintro ⟨⟨HH, HX, HO⟩, -, -⟩
  ihave HAZ := hs $$ HH
  icases HAZ with ⟨HA, HZ⟩
  ihave HO' := ho $$ HO
  imodintro
  isplitl [HA]
  · iexact HA
  isplitr
  · iapply hp; iempintro
  isplitl [HO']
  · iexact HO'
  isplitl [HX]
  · iexact HX
  · iexact HZ

theorem exit_regroup {A Zr H' Y O O' : sProp 𝕄} (hj : iprop(A ∗ Zr) ⊢ H') (ho : O ⊢ O') :
    iprop(A ∗ O ∗ Y ∗ Zr) ⊢ |={Set.univ}=> iprop(H' ∗ Y ∗ O') := by
  iintro ⟨HA, HO, HY, HZ⟩
  ihave HO' := ho $$ HO
  imodintro
  isplitl [HA HZ]
  · iapply hj
    isplitl [HA]
    · iexact HA
    · iexact HZ
  isplitl [HY]
  · iexact HY
  · iexact HO'

end Bookkeeping

abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

abbrev W1 : Dev nD → Valuation τ sig (Elt F) := fun c => StableHlo.after hostOps0 (W0 m ρ c)

abbrev W2 : Dev nD → Valuation τ sig (Elt F) := fun c => StableHlo.after hostOps0_1 (W1 m ρ c)

abbrev V2 : (c : Dev nD) → (b : Ref sig .tc) → Buf (Elt F) ((c : Thread nD τ).loc b) := fun c b => W2 m ρ c b

def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N :=
  Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) :=
  Pipeline.withArrays_of_ne spec0 c _ _ b hb

theorem W3_in (c : Dev nD) (w : Fin cfg0.W) (hw : (cfg0.win w).isOut = false) :
    W3 m ρ c (Proc.devRef .tc (Pipeline.arrRef spec0 w)) = W2 m ρ c (Proc.devRef .tc (Pipeline.arrRef spec0 w)) :=
  (W3_arr m ρ c w).trans (((dat0 (V2 m ρ) c).arrAt_in w hw _).trans (A_eq0 (V2 m ρ) c w))

abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) (b : Ref sig .tc) (hb : b ∉ Finset.univ.image (Pipeline.arrRef spec0)) : V3 m ρ c b = V2 m ρ c b :=
  W3_of_ne m ρ c b fun w e => hb (Finset.mem_image.mpr ⟨w, Finset.mem_univ w, e⟩)

abbrev W4 : Dev nD → Valuation τ sig (Elt F) := fun c => StableHlo.after hostOps1 (W3 m ρ c)

abbrev V4 : (c : Dev nD) → (b : Ref sig .tc) → Buf (Elt F) ((c : Thread nD τ).loc b) := fun c b => W4 m ρ c b

theorem W4_of_unwritten (c : Dev nD) (r : Ref sig .tc)
    (h0 : r ∉ hostOps0_W) (h01 : r ∉ hostOps0_1_W) (h1 : r ∉ hostOps1_W)
    (hr0 : W3 m ρ c (Proc.devRef .tc r) = W2 m ρ c (Proc.devRef .tc r)) :
    W4 m ρ c (Proc.devRef .tc r) = m ((c : Thread nD τ).loc r) := by
  have e4 : W4 m ρ c (Proc.devRef .tc r) = W3 m ρ c (Proc.devRef .tc r) :=
    StableHlo.after_of_writes_sub hostOps1 _ hostOps1_writes h1
  have e2 : W2 m ρ c (Proc.devRef .tc r) = W1 m ρ c (Proc.devRef .tc r) :=
    StableHlo.after_of_writes_sub hostOps0_1 _ hostOps0_1_writes h01
  have e1 : W1 m ρ c (Proc.devRef .tc r) = W0 m ρ c (Proc.devRef .tc r) :=
    StableHlo.after_of_writes_sub hostOps0 _ hostOps0_writes h0
  rw [e4, hr0, e2, e1]

theorem W4_main_arg0 (c : Dev nD) : W4 m ρ c (Proc.devRef .tc main_arg0) = m ((c : Thread nD τ).loc main_arg0) :=
  W4_of_unwritten m ρ c main_arg0 (by decide) (by decide) (by decide) (W3_of_ne m ρ c main_arg0 (by decide))
theorem W4_main_arg1 (c : Dev nD) : W4 m ρ c (Proc.devRef .tc main_arg1) = m ((c : Thread nD τ).loc main_arg1) :=
  W4_of_unwritten m ρ c main_arg1 (by decide) (by decide) (by decide) (W3_of_ne m ρ c main_arg1 (by decide))
theorem W4_main_arg2 (c : Dev nD) : W4 m ρ c (Proc.devRef .tc main_arg2) = m ((c : Thread nD τ).loc main_arg2) :=
  W4_of_unwritten m ρ c main_arg2 (by decide) (by decide) (by decide) (W3_of_ne m ρ c main_arg2 (by decide))
theorem W4_main_arg3 (c : Dev nD) : W4 m ρ c (Proc.devRef .tc main_arg3) = m ((c : Thread nD τ).loc main_arg3) :=
  W4_of_unwritten m ρ c main_arg3 (by decide) (by decide) (by decide) (W3_of_ne m ρ c main_arg3 (by decide))
theorem W4_main_arg4 (c : Dev nD) : W4 m ρ c (Proc.devRef .tc main_arg4) = m ((c : Thread nD τ).loc main_arg4) :=
  W4_of_unwritten m ρ c main_arg4 (by decide) (by decide) (by decide) (W3_of_ne m ρ c main_arg4 (by decide))
theorem W4_main_arg5 (c : Dev nD) : W4 m ρ c (Proc.devRef .tc main_arg5) = m ((c : Thread nD τ).loc main_arg5) :=
  W4_of_unwritten m ρ c main_arg5 (by decide) (by decide) (by decide) (W3_in m ρ c 2 rfl)
theorem W4_main_arg6 (c : Dev nD) : W4 m ρ c (Proc.devRef .tc main_arg6) = m ((c : Thread nD τ).loc main_arg6) :=
  W4_of_unwritten m ρ c main_arg6 (by decide) (by decide) (by decide) (W3_in m ρ c 3 rfl)
theorem W4_main_arg7 (c : Dev nD) : W4 m ρ c (Proc.devRef .tc main_arg7) = m ((c : Thread nD τ).loc main_arg7) :=
  W4_of_unwritten m ρ c main_arg7 (by decide) (by decide) (by decide) (W3_in m ρ c 4 rfl)
theorem W4_main_arg8 (c : Dev nD) : W4 m ρ c (Proc.devRef .tc main_arg8) = m ((c : Thread nD τ).loc main_arg8) :=
  W4_of_unwritten m ρ c main_arg8 (by decide) (by decide) (by decide) (W3_in m ρ c 5 rfl)
theorem W4_main_arg9 (c : Dev nD) : W4 m ρ c (Proc.devRef .tc main_arg9) = m ((c : Thread nD τ).loc main_arg9) :=
  W4_of_unwritten m ρ c main_arg9 (by decide) (by decide) (by decide) (W3_in m ρ c 6 rfl)
theorem W4_main_arg10 (c : Dev nD) : W4 m ρ c (Proc.devRef .tc main_arg10) = m ((c : Thread nD τ).loc main_arg10) :=
  W4_of_unwritten m ρ c main_arg10 (by decide) (by decide) (by decide) (W3_in m ρ c 7 rfl)
theorem W4_main_arg11 (c : Dev nD) : W4 m ρ c (Proc.devRef .tc main_arg11) = m ((c : Thread nD τ).loc main_arg11) :=
  W4_of_unwritten m ρ c main_arg11 (by decide) (by decide) (by decide) (W3_of_ne m ρ c main_arg11 (by decide))
theorem W4_main_arg12 (c : Dev nD) : W4 m ρ c (Proc.devRef .tc main_arg12) = m ((c : Thread nD τ).loc main_arg12) :=
  W4_of_unwritten m ρ c main_arg12 (by decide) (by decide) (by decide) (W3_of_ne m ρ c main_arg12 (by decide))
theorem W4_main_arg13 (c : Dev nD) : W4 m ρ c (Proc.devRef .tc main_arg13) = m ((c : Thread nD τ).loc main_arg13) :=
  W4_of_unwritten m ρ c main_arg13 (by decide) (by decide) (by decide) (W3_in m ρ c 8 rfl)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev St (W : Dev nD → Valuation τ sig (Elt F)) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op hop => Pipeline.sub_ucRefs op ((List.forall_iff_forall_mem.mp hsub) op hop))
    (fun op hop => (List.forall_iff_forall_mem.mp hfresh) op hop) W R

theorem mem_uc (b : Ref sig .tc) (hb : ¬ (Proc.devRef .tc b : DevRef τ sig).isScoped) : Proc.devRef .tc b ∈ Pipeline.ucRefs τ sig :=
  Finset.mem_filter.mpr ⟨StableHlo.devRef_mem_tcRefs b, hb⟩

theorem launch_core (c : Dev nD) (S Cr G Lv : sProp 𝕄) :
    iprop((unscopedBufs c (fun b => m ((c : Thread nD τ).loc b)) ∗ S ∗ owes (c : Thread nD τ) (0 : CellTallies nD τ sig Unit) ∅ ∗ Cr ∗ prngReg c (ρ c) ∗ G) ∗ Lv)
      ⊢ |={Set.univ}=> St (W0 m ρ) c := by
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hbufs, -, Hdue, -, Hreg, -⟩, -⟩
  imodintro
  isplitl [Hbufs]
  · iexact Hbufs
  isplitl [Hreg]
  · iexists (ρ c); iexact Hreg
  · iexists ∅; iexact Hdue

theorem launch_tokens (u : UR sig nD τ) :
    (ownU u : sProp 𝕄) ⊢ |={Set.univ}=> iprop(BI.own (emb₁ u) ∗ bigSep (Finset.univ : Finset (Dev nD)) fun _ => (BI.emp : sProp 𝕄)) := by
  rw [BI.bigSep_emp_const, ← ownU_emb₁]
  iintro Htok
  imodintro
  isplitl [Htok]
  · iexact Htok
  · iempintro

structure Reg1Facts (d1 : (c : Dev nD) → Dat τ (Elt F) Unit ℕ (UR sig nD τ) ℕ cfg1 c) : Prop where
  A_eq : ∀ c w, (d1 c).A w = V4 m ρ c (Pipeline.arrRef spec1 w)
  q_eq : ∀ c w, (d1 c).q w = fullShare
  owed_eq : ∀ c t, (d1 c).owed t = 0
  recorded_eq : ∀ c t, (d1 c).recorded t = Set.univ
  enter : ∀ c, (Pipeline.ΦA spec1 c : sProp 𝕄) ⊢ (d1 c).Φ 0
  leave : ∀ c, (d1 c).Φ (Fin.last cfg1.N) ⊢ (Pipeline.ΦA spec1 c : sProp 𝕄)

variable (d1 : (c : Dev nD) → Dat τ (Elt F) Unit ℕ (UR sig nD τ) ℕ cfg1 c)

def W5Of (c : Dev nD) : Valuation τ sig (Elt F) :=
  Pipeline.withArrays spec1 c (W4 m ρ c) fun w => (d1 c).arrAt w cfg1.N
theorem W5Of_arr (c : Dev nD) (w : Fin cfg1.W) :
    W5Of m ρ d1 c (Proc.devRef .tc (Pipeline.arrRef spec1 w)) = (d1 c).arrAt w cfg1.N :=
  Pipeline.withArrays_arr spec1 launch1.win.arr_inj c _ _ w
theorem W5Of_of_ne (c : Dev nD) (b : Ref sig .tc) (hb : ∀ w, Pipeline.arrRef spec1 w ≠ b) :
    W5Of m ρ d1 c (Proc.devRef .tc b) = W4 m ρ c (Proc.devRef .tc b) :=
  Pipeline.withArrays_of_ne spec1 c _ _ b hb

theorem W5Of_in (h : Reg1Facts m ρ d1) (c : Dev nD) (w : Fin cfg1.W) (hw : (cfg1.win w).isOut = false) :
    W5Of m ρ d1 c (Proc.devRef .tc (Pipeline.arrRef spec1 w)) = W4 m ρ c (Proc.devRef .tc (Pipeline.arrRef spec1 w)) :=
  (W5Of_arr m ρ d1 c w).trans (((d1 c).arrAt_in w hw _).trans (h.A_eq c w))

abbrev V5Of : (c : Dev nD) → (b : Ref sig .tc) → Buf (Elt F) ((c : Thread nD τ).loc b) := fun c b => W5Of m ρ d1 c b
theorem hF1Of (c : Dev nD) (w : Fin cfg1.W) : (d1 c).arrAt w cfg1.N = V5Of m ρ d1 c (Pipeline.arrRef spec1 w) :=
  (W5Of_arr m ρ d1 c w).symm
theorem hrest1Of (c : Dev nD) (b : Ref sig .tc) (hb : b ∉ Finset.univ.image (Pipeline.arrRef spec1)) : V5Of m ρ d1 c b = V4 m ρ c b :=
  W5Of_of_ne m ρ d1 c b fun w e => hb (Finset.mem_image.mpr ⟨w, Finset.mem_univ w, e⟩)

abbrev W6Of : Dev nD → Valuation τ sig (Elt F) := fun c => StableHlo.after hostOps2 (W5Of m ρ d1 c)

theorem W6Of_main_arg0 (c : Dev nD) : W6Of m ρ d1 c (Proc.devRef .tc main_arg0) = m ((c : Thread nD τ).loc main_arg0) :=
  (StableHlo.after_of_writes_sub hostOps2 _ hostOps2_writes (by decide)).trans ((W5Of_of_ne m ρ d1 c main_arg0 (by decide)).trans (W4_main_arg0 m ρ c))
theorem W6Of_main_arg1 (c : Dev nD) : W6Of m ρ d1 c (Proc.devRef .tc main_arg1) = m ((c : Thread nD τ).loc main_arg1) :=
  (StableHlo.after_of_writes_sub hostOps2 _ hostOps2_writes (by decide)).trans ((W5Of_of_ne m ρ d1 c main_arg1 (by decide)).trans (W4_main_arg1 m ρ c))
theorem W6Of_main_arg2 (c : Dev nD) : W6Of m ρ d1 c (Proc.devRef .tc main_arg2) = m ((c : Thread nD τ).loc main_arg2) :=
  (StableHlo.after_of_writes_sub hostOps2 _ hostOps2_writes (by decide)).trans ((W5Of_of_ne m ρ d1 c main_arg2 (by decide)).trans (W4_main_arg2 m ρ c))
theorem W6Of_main_arg3 (c : Dev nD) : W6Of m ρ d1 c (Proc.devRef .tc main_arg3) = m ((c : Thread nD τ).loc main_arg3) :=
  (StableHlo.after_of_writes_sub hostOps2 _ hostOps2_writes (by decide)).trans ((W5Of_of_ne m ρ d1 c main_arg3 (by decide)).trans (W4_main_arg3 m ρ c))
theorem W6Of_main_arg4 (c : Dev nD) : W6Of m ρ d1 c (Proc.devRef .tc main_arg4) = m ((c : Thread nD τ).loc main_arg4) :=
  (StableHlo.after_of_writes_sub hostOps2 _ hostOps2_writes (by decide)).trans ((W5Of_of_ne m ρ d1 c main_arg4 (by decide)).trans (W4_main_arg4 m ρ c))
theorem W6Of_main_arg5 (c : Dev nD) : W6Of m ρ d1 c (Proc.devRef .tc main_arg5) = m ((c : Thread nD τ).loc main_arg5) :=
  (StableHlo.after_of_writes_sub hostOps2 _ hostOps2_writes (by decide)).trans ((W5Of_of_ne m ρ d1 c main_arg5 (by decide)).trans (W4_main_arg5 m ρ c))
theorem W6Of_main_arg6 (c : Dev nD) : W6Of m ρ d1 c (Proc.devRef .tc main_arg6) = m ((c : Thread nD τ).loc main_arg6) :=
  (StableHlo.after_of_writes_sub hostOps2 _ hostOps2_writes (by decide)).trans ((W5Of_of_ne m ρ d1 c main_arg6 (by decide)).trans (W4_main_arg6 m ρ c))
theorem W6Of_main_arg7 (c : Dev nD) : W6Of m ρ d1 c (Proc.devRef .tc main_arg7) = m ((c : Thread nD τ).loc main_arg7) :=
  (StableHlo.after_of_writes_sub hostOps2 _ hostOps2_writes (by decide)).trans ((W5Of_of_ne m ρ d1 c main_arg7 (by decide)).trans (W4_main_arg7 m ρ c))
theorem W6Of_main_arg8 (c : Dev nD) : W6Of m ρ d1 c (Proc.devRef .tc main_arg8) = m ((c : Thread nD τ).loc main_arg8) :=
  (StableHlo.after_of_writes_sub hostOps2 _ hostOps2_writes (by decide)).trans ((W5Of_of_ne m ρ d1 c main_arg8 (by decide)).trans (W4_main_arg8 m ρ c))
theorem W6Of_main_arg9 (c : Dev nD) : W6Of m ρ d1 c (Proc.devRef .tc main_arg9) = m ((c : Thread nD τ).loc main_arg9) :=
  (StableHlo.after_of_writes_sub hostOps2 _ hostOps2_writes (by decide)).trans ((W5Of_of_ne m ρ d1 c main_arg9 (by decide)).trans (W4_main_arg9 m ρ c))
theorem W6Of_main_arg10 (c : Dev nD) : W6Of m ρ d1 c (Proc.devRef .tc main_arg10) = m ((c : Thread nD τ).loc main_arg10) :=
  (StableHlo.after_of_writes_sub hostOps2 _ hostOps2_writes (by decide)).trans ((W5Of_of_ne m ρ d1 c main_arg10 (by decide)).trans (W4_main_arg10 m ρ c))
theorem W6Of_main_arg11 (h : Reg1Facts m ρ d1) (c : Dev nD) : W6Of m ρ d1 c (Proc.devRef .tc main_arg11) = m ((c : Thread nD τ).loc main_arg11) :=
  (StableHlo.after_of_writes_sub hostOps2 _ hostOps2_writes (by decide)).trans ((W5Of_in m ρ d1 h c 1 rfl).trans (W4_main_arg11 m ρ c))
theorem W6Of_main_arg12 (c : Dev nD) : W6Of m ρ d1 c (Proc.devRef .tc main_arg12) = m ((c : Thread nD τ).loc main_arg12) :=
  (StableHlo.after_of_writes_sub hostOps2 _ hostOps2_writes (by decide)).trans ((W5Of_of_ne m ρ d1 c main_arg12 (by decide)).trans (W4_main_arg12 m ρ c))
theorem W6Of_main_arg13 (c : Dev nD) : W6Of m ρ d1 c (Proc.devRef .tc main_arg13) = m ((c : Thread nD τ).loc main_arg13) :=
  (StableHlo.after_of_writes_sub hostOps2 _ hostOps2_writes (by decide)).trans ((W5Of_of_ne m ρ d1 c main_arg13 (by decide)).trans (W4_main_arg13 m ρ c))

def pdatsOf : (p : Fin 2) → (c : Dev nD) → Dat τ (Elt F) Unit ℕ (UR sig nD τ) ℕ (Pipeline.pin (pcfgs (F := F)) adm p) c
  | ⟨0, _⟩ => fun c => dat0 (V2 m ρ) c
  | ⟨1, _⟩ => fun c => d1 c

set_option backward.isDefEq.respectTransparency.types false in
def reg0Of : Pipeline.RegionSeg (pcfgs (F := F)) adm (pdatsOf m ρ d1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre := St (W2 m ρ)
  post := St (W3 m ρ)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    have hs := Pipeline.arrays_of_unscopedBufs (p := 0) (pcfgs (F := F)) adm (pdatsOf m ρ d1) launch0.win launch0.arr_whole c
      ((pdatsOf m ρ d1 0 c).share_full fun _ => rfl) (V2 m ρ c) (A_eq0 (V2 m ρ) c)
    rw [Pipeline.unscopedBufs_held] at hs
    exact entry_regroup hs (owesAt_of_nothing (pdatsOf m ρ d1 0 c) 0 rfl rfl)
      (by unfold Pipeline.prefHeld; rw [show (Finset.univ : Finset (Fin 0)) = ∅ from rfl, BI.bigSep_empty])
  hin c := ΦA_make spec0 c _
  hout c := by rw [Pipeline.ownSems0_none]; exact ΦA_take spec0 c
  hexit c := by
    have hj := Pipeline.unscopedBufs_of_arrays (p := 0) (pcfgs (F := F)) adm (Ix := Unit) (Name := ℕ) (U := UR sig nD τ) (Lvl := ℕ)
      launch0.win launch0.arr_whole c (pdatsOf m ρ d1) ((pdatsOf m ρ d1 0 c).share_full fun _ => rfl)
      (V2 m ρ c) (V3 m ρ c) ((pdatsOf m ρ d1 0 c).arrAt · cfg0.N) (hF0 m ρ c) (hrest0 m ρ c)
    rw [Pipeline.unscopedBufs_held] at hj
    exact exit_regroup hj (nothing_of_owesAt (pdatsOf m ρ d1 0 c) (Fin.last _) rfl)

set_option backward.isDefEq.respectTransparency.types false in
theorem entry1Of (h : Reg1Facts m ρ d1) (c : Dev nD) (S Lv : sProp 𝕄) :
    iprop(St (W4 m ρ) c ∗ S ∗ Lv)
      ⊢ |={Set.univ}=> iprop((pdatsOf m ρ d1 1 c).arrays ((pdatsOf m ρ d1 1 c).arrAt · 0)
          ∗ Pipeline.prefHeld (pcfgs (F := F) 1).pre c (fun _ => fullShare) (adm (F := F) 1).1
          ∗ (pdatsOf m ρ d1 1 c).owesAt () 0 ∗ (∃ r, prngReg c r)
          ∗ Pipeline.unscopedRest (Ix := Unit) (Name := ℕ) (U := UR sig nD τ) (Lvl := ℕ) spec1 c (V4 m ρ c)) := by
  have hs := Pipeline.arrays_of_unscopedBufs (p := 1) (pcfgs (F := F)) adm (pdatsOf m ρ d1) launch1.win launch1.arr_whole c
    ((pdatsOf m ρ d1 1 c).share_full (h.q_eq c)) (V4 m ρ c) (h.A_eq c)
  rw [Pipeline.unscopedBufs_held] at hs
  exact entry_regroup hs (owesAt_of_nothing (pdatsOf m ρ d1 1 c) 0 (h.owed_eq c 0) (h.recorded_eq c 0))
    (by unfold Pipeline.prefHeld; rw [show (Finset.univ : Finset (Fin 0)) = ∅ from rfl, BI.bigSep_empty])

set_option backward.isDefEq.respectTransparency.types false in
def reg1Of (h : Reg1Facts m ρ d1) (hb : ∀ c, Pipeline.BodyObligationLoose (d1 c) (defs₀ (F := F)) Variants.none () Set.univ) :
    Pipeline.RegionSeg (pcfgs (F := F)) adm (pdatsOf m ρ d1) () defs₀ 𝒱₀ L lv 1 where
  win := launch1.win.to₀
  block_pos := launch1.block_pos
  stage_whole := launch1.stage_whole
  K := PEmpty
  osem k := k.elim
  ho := Pipeline.OwnSemFacts.none _
  hbody c := hb c
  hwaits := Pipeline.hwaits_of_owed_zero _ _ _ _ L lv 1 fun c t => h.owed_eq c t
  pre := St (W4 m ρ)
  post := St (W5Of m ρ d1)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := entry1Of m ρ d1 h c _ _
  hin c := (ΦA_make spec1 c _).trans (h.enter c)
  hout c := by rw [Pipeline.ownSems0_none]; exact (h.leave c).trans (ΦA_take spec1 c)
  hexit c := by
    have hj := Pipeline.unscopedBufs_of_arrays (p := 1) (pcfgs (F := F)) adm (Ix := Unit) (Name := ℕ) (U := UR sig nD τ) (Lvl := ℕ)
      launch1.win launch1.arr_whole c (pdatsOf m ρ d1) ((pdatsOf m ρ d1 1 c).share_full (h.q_eq c))
      (V4 m ρ c) (V5Of m ρ d1 c) ((pdatsOf m ρ d1 1 c).arrAt · cfg1.N) (hF1Of m ρ d1 c) (hrest1Of m ρ d1 c)
    rw [Pipeline.unscopedBufs_held] at hj
    exact exit_regroup hj (nothing_of_owesAt (pdatsOf m ρ d1 1 c) (Fin.last _) (h.owed_eq c _))

abbrev segsOf (h : Reg1Facts m ρ d1) (hb : ∀ c, Pipeline.BodyObligationLoose (d1 c) (defs₀ (F := F)) Variants.none () Set.univ) :
    List (Pipeline.Seg (pcfgs (F := F)) adm (pdatsOf m ρ d1) () defs₀ 𝒱₀ L lv) :=
  [ .host (hseg hostOps0 hostOps0_sub hostOps0_fresh (W0 m ρ)),
    .host (hseg hostOps0_1 hostOps0_1_sub hostOps0_1_fresh (W1 m ρ)),
    .region (reg0Of m ρ d1),
    .host (hseg hostOps1 hostOps1_sub hostOps1_fresh (W3 m ρ)),
    .region (reg1Of m ρ d1 h hb),
    .host (hseg hostOps2 hostOps2_sub hostOps2_fresh (W5Of m ρ d1)) ]

theorem main_runOf (h : Reg1Facts m ρ d1) (hb : ∀ c, Pipeline.BodyObligationLoose (d1 c) (defs₀ (F := F)) Variants.none () Set.univ)
    (c : Dev nD) : main (F := F) c = Pipeline.Seg.run (segsOf m ρ d1 h hb) := by
  rw [main_chain c, Pipeline.Seg.run_eq_chain]
  rfl

abbrev TₙOf (c : Dev nD) : sProp 𝕄 := iprop(StableHlo.held (c : Thread nD τ) (Pipeline.ucRefs τ sig) (W6Of m ρ d1 c) ∗ ∃ r, prngReg c r)

theorem read_endOf (c : Dev nD) (s' : Phys nD τ sig (Elt F)) :
    iprop(TₙOf m ρ d1 c ∗ SI s') ⊢ (|={Set.univ}=> iprop(⌜∀ b ∈ Pipeline.ucRefs τ sig, s'.mem.mem ((c : Thread nD τ).1, b) = W6Of m ρ d1 c b⌝ ∗ SI s') : sProp 𝕄) := by
  unfold TₙOf StableHlo.held
  iintro ⟨⟨Hbufs, -⟩, Hmem⟩
  imodintro
  iapply (pointsTo_read_all (Pipeline.ucRefs τ sig) (fun b => ((c : Thread nD τ).1, b)) (W6Of m ρ d1 c) s')
  isplitl [Hbufs]
  · iexact Hbufs
  · iexact Hmem

theorem end_regroupOf (c : Dev nD) :
    St (W6Of m ρ d1) c ⊢ iprop(TₙOf m ρ d1 c ∗ ∃ W, owes (c : Thread nD τ) (0 : CellTallies nD τ sig Unit) W) := by
  iintro ⟨Hbufs, Hreg, Hdue⟩
  isplitl [Hbufs Hreg]
  · isplitl [Hbufs]
    · iexact Hbufs
    · iexact Hreg
  · iexact Hdue

set_option backward.isDefEq.respectTransparency.types false in
theorem run_allOf (h : Reg1Facts m ρ d1) (hb : ∀ c, Pipeline.BodyObligationLoose (d1 c) (defs₀ (F := F)) Variants.none () Set.univ) :
    θ_run defs (onTc (τ := τ) (main (F := F))) ⟨m, fun _ => 0, ρ⟩
      (fun r => ∀ c : Dev nD, ∀ b ∈ Pipeline.ucRefs τ sig, r.2.mem ((c : Thread nD τ).1, b) = W6Of m ρ d1 c b) :=
  Pipeline.θ_run_regions_kit (pcfgs (F := F)) adm (pdatsOf m ρ d1) () cellOf_inj emb₁ defs₀ 𝒱₀ L lv m ρ main (segsOf m ρ d1 h hb)
    (fun c Q => by rw [main_runOf m ρ d1 h hb c])
    (by simp only [segsOf, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := launch_tokens _)
    (T₀ := St (W0 m ρ)) (Tₙ := TₙOf m ρ d1)
    (hch := ⟨fun _ => .rfl, fun _ => .rfl, fun _ => .rfl, fun _ => .rfl, fun _ => .rfl, fun _ => .rfl, fun c => end_regroupOf m ρ d1 c⟩)
    (hinit := Pipeline.initEach L lv fun c => launch_core m ρ c _ _ _ _)
    (QY := fun c s => ∀ b ∈ Pipeline.ucRefs τ sig, s.mem ((c : Thread nD τ).1, b) = W6Of m ρ d1 c b)
    (hfin := fun c s' => read_endOf m ρ d1 c s')
    (hQ := fun s hs => hs)

abbrev d1x : (c : Dev nD) → Dat τ (Elt F) Unit ℕ (UR sig nD τ) ℕ cfg1 c := fun c => dat1 (V4 m ρ) c

theorem reg1Facts : Reg1Facts m ρ (d1x m ρ) where
  A_eq c w := A_eq1 (V4 m ρ) c w
  q_eq _ _ := rfl
  owed_eq _ _ := rfl
  recorded_eq _ _ := rfl
  enter c := hin1 (V4 m ρ) c
  leave c := hout1 (V4 m ρ) c

abbrev W5 : Dev nD → Valuation τ sig (Elt F) := W5Of m ρ (d1x m ρ)

abbrev W6 : Dev nD → Valuation τ sig (Elt F) := W6Of m ρ (d1x m ρ)

theorem run_all (hmask1 : Mask1 F) :
    θ_run defs (onTc (τ := τ) (main (F := F))) ⟨m, fun _ => 0, ρ⟩
      (fun r => ∀ c : Dev nD, ∀ b ∈ Pipeline.ucRefs τ sig, r.2.mem ((c : Thread nD τ).1, b) = W6 m ρ c b) :=
  run_allOf m ρ (d1x m ρ) (reg1Facts m ρ) fun c => body_obligation1 hmask1 (V4 m ρ) c

theorem W6_main_arg0 (c : Dev nD) : W6 m ρ c (Proc.devRef .tc main_arg0) = m ((c : Thread nD τ).loc main_arg0) :=
  W6Of_main_arg0 m ρ (d1x m ρ) c
theorem W6_main_arg1 (c : Dev nD) : W6 m ρ c (Proc.devRef .tc main_arg1) = m ((c : Thread nD τ).loc main_arg1) :=
  W6Of_main_arg1 m ρ (d1x m ρ) c
theorem W6_main_arg2 (c : Dev nD) : W6 m ρ c (Proc.devRef .tc main_arg2) = m ((c : Thread nD τ).loc main_arg2) :=
  W6Of_main_arg2 m ρ (d1x m ρ) c
theorem W6_main_arg3 (c : Dev nD) : W6 m ρ c (Proc.devRef .tc main_arg3) = m ((c : Thread nD τ).loc main_arg3) :=
  W6Of_main_arg3 m ρ (d1x m ρ) c
theorem W6_main_arg4 (c : Dev nD) : W6 m ρ c (Proc.devRef .tc main_arg4) = m ((c : Thread nD τ).loc main_arg4) :=
  W6Of_main_arg4 m ρ (d1x m ρ) c
theorem W6_main_arg5 (c : Dev nD) : W6 m ρ c (Proc.devRef .tc main_arg5) = m ((c : Thread nD τ).loc main_arg5) :=
  W6Of_main_arg5 m ρ (d1x m ρ) c
theorem W6_main_arg6 (c : Dev nD) : W6 m ρ c (Proc.devRef .tc main_arg6) = m ((c : Thread nD τ).loc main_arg6) :=
  W6Of_main_arg6 m ρ (d1x m ρ) c
theorem W6_main_arg7 (c : Dev nD) : W6 m ρ c (Proc.devRef .tc main_arg7) = m ((c : Thread nD τ).loc main_arg7) :=
  W6Of_main_arg7 m ρ (d1x m ρ) c
theorem W6_main_arg8 (c : Dev nD) : W6 m ρ c (Proc.devRef .tc main_arg8) = m ((c : Thread nD τ).loc main_arg8) :=
  W6Of_main_arg8 m ρ (d1x m ρ) c
theorem W6_main_arg9 (c : Dev nD) : W6 m ρ c (Proc.devRef .tc main_arg9) = m ((c : Thread nD τ).loc main_arg9) :=
  W6Of_main_arg9 m ρ (d1x m ρ) c
theorem W6_main_arg10 (c : Dev nD) : W6 m ρ c (Proc.devRef .tc main_arg10) = m ((c : Thread nD τ).loc main_arg10) :=
  W6Of_main_arg10 m ρ (d1x m ρ) c
theorem W6_main_arg11 (c : Dev nD) : W6 m ρ c (Proc.devRef .tc main_arg11) = m ((c : Thread nD τ).loc main_arg11) :=
  W6Of_main_arg11 m ρ (d1x m ρ) (reg1Facts m ρ) c
theorem W6_main_arg12 (c : Dev nD) : W6 m ρ c (Proc.devRef .tc main_arg12) = m ((c : Thread nD τ).loc main_arg12) :=
  W6Of_main_arg12 m ρ (d1x m ρ) c
theorem W6_main_arg13 (c : Dev nD) : W6 m ρ c (Proc.devRef .tc main_arg13) = m ((c : Thread nD τ).loc main_arg13) :=
  W6Of_main_arg13 m ρ (d1x m ρ) c

section Forget

theorem arraysAt_open {cfg : Cfg sig Λ₀} {c : Dev nD} (rd : Pipeline.RDat τ (Elt F) Unit ℕ (UR sig nD τ) ℕ cfg c) (n : Nat) :
    (rd.arraysAt n : sProp 𝕄) ⊢ iprop(∃ A, ⌜∀ w, rd.ArrAt w n (A w)⌝ ∗ rd.arrays A) := by
  unfold Pipeline.RDat.arraysAt Pipeline.RDat.arrays
  iintro Harr
  ihave Hall := (BI.bigSep_exists_pi Finset.univ (fun w G => iprop(⌜rd.ArrAt w n G⌝
      ∗ (cfg.win w).arr.view.loc (c : Thread nD τ) ↦[(cfg.win w).arr.view.set]{rd.share w} G))) $$ Harr
  icases Hall with ⟨%A, Hall⟩
  ihave Hsplit := (BI.bigSep_pure_sep Finset.univ (fun w => rd.ArrAt w n (A w))
      (fun w => (cfg.win w).arr.view.loc (c : Thread nD τ) ↦[(cfg.win w).arr.view.set]{rd.share w} A w)) $$ Hall
  icases Hsplit with ⟨%hA, Hpts⟩
  iexists A
  isplitr
  · ipureintro; exact fun w => hA w (Finset.mem_univ w)
  · iexact Hpts

abbrev outs1 : List (Ref sig .tc) := [main_v32_0, main_v32_1]

theorem outs1_cover : ∀ w : Fin cfg1.W, Pipeline.arrRef spec1 w ∉ outs1 → (cfg1.win w).isOut = false := by decide

def Off1 (c : Dev nD) (W' : Valuation τ sig (Elt F)) : Prop :=
  ∀ r : Ref sig .tc, r ∉ outs1 → W' (Proc.devRef .tc r) = W4 m ρ c (Proc.devRef .tc r)

abbrev StX (P : Dev nD → Valuation τ sig (Elt F) → Prop) (c : Dev nD) : sProp 𝕄 :=
  iprop(∃ W', ⌜P c W'⌝ ∗ StableHlo.held (c : Thread nD τ) (Pipeline.ucRefs τ sig) W' ∗ R c)

theorem hseg_pre (ops : List (HloOp τ sig (Elt F))) (hsub : ops.Forall fun op => op.bufs ⊆ StableHlo.tcRefs τ sig)
    (hfresh : ops.Forall fun op => op.fresh = ∅) (W : Dev nD → Valuation τ sig (Elt F)) (c : Dev nD) :
    (hseg ops hsub hfresh W).pre c = St W c := rfl

theorem hseg_post (ops : List (HloOp τ sig (Elt F))) (hsub : ops.Forall fun op => op.bufs ⊆ StableHlo.tcRefs τ sig)
    (hfresh : ops.Forall fun op => op.fresh = ∅) (W : Dev nD → Valuation τ sig (Elt F)) (c : Dev nD) :
    (hseg ops hsub hfresh W).post c = St (fun c => StableHlo.after ops (W c)) c := rfl

def hsegX (ops : List (HloOp τ sig (Elt F))) (hsub : ops.Forall fun op => op.bufs ⊆ StableHlo.tcRefs τ sig)
    (hfresh : ops.Forall fun op => op.fresh = ∅) (P : Dev nD → Valuation τ sig (Elt F) → Prop) :
    Pipeline.HostSeg (Name := ℕ) (U := UR sig nD τ) (pcfgs (F := F)) defs₀ 𝒱₀ L lv where
  prog := StableHlo.seq ops
  pre := StX P
  post c := iprop(∃ W', ⌜P c W'⌝ ∗ StableHlo.held (c : Thread nD τ) (Pipeline.ucRefs τ sig) (StableHlo.after ops W') ∗ R c)
  run c _ k K := by
    iintro ⟨Hk, Hb, Hpre, Hlev⟩
    icases Hpre with ⟨%W', %hP, Hpre⟩
    have hrun := (hseg ops hsub hfresh (fun _ => W')).run c k K
    rw [hseg_pre, hseg_post] at hrun
    iapply hrun
    isplitl [Hk]
    · iintro ⟨Hb', Hpost⟩
      iapply Hk
      isplitl [Hb']
      · iexact Hb'
      iexists W'
      isplitr
      · ipureintro; exact hP
      · iexact Hpost
    isplitl [Hb]
    · iexact Hb
    isplitl [Hpre]
    · iexact Hpre
    · iexact Hlev

variable (fgt : Fin cfg1.W → Bool)

def rdatsOf : (p : Fin 2) → (c : Dev nD) → Pipeline.RDat τ (Elt F) Unit ℕ (UR sig nD τ) ℕ (Pipeline.pin (pcfgs (F := F)) adm p) c
  | ⟨0, _⟩ => fun c => (dat0 (V2 m ρ) c).toR
  | ⟨1, _⟩ => fun c => (d1 c).toRForget fgt

set_option backward.isDefEq.respectTransparency.types false in
def reg0R : Pipeline.RDat.RegionSeg (pcfgs (F := F)) adm (rdatsOf m ρ d1 fgt) () defs₀ 𝒱₀ L lv 0 :=
  let R0 := (reg0Of m ρ d1).toR
  { win := R0.win, block_pos := R0.block_pos, stage_whole := R0.stage_whole, K := R0.K, fK := R0.fK, osem := R0.osem, ho := R0.ho,
    hbody := R0.hbody, hwaits := Pipeline.RDat.hwaits_of_owed_zero _ _ _ _ L lv 0 fun _ _ => rfl,
    pre := R0.pre, post := R0.post, X := R0.X, Y := R0.Y, Z := R0.Z,
    hentry := R0.hentry, hin := R0.hin, hout := R0.hout, hexit := R0.hexit }

theorem off1_withArrays (h : Reg1Facts m ρ d1) (c : Dev nD)
    (A : (w : Fin cfg1.W) → Buf (Elt F) ((cfg1.win w).arr.view.loc (c : Thread nD τ)))
    (hA : ∀ w, ((d1 c).toRForget fgt).ArrAt w cfg1.N (A w)) :
    Off1 m ρ c (Pipeline.withArrays spec1 c (W4 m ρ c) A) := by
  intro r hr
  by_cases hex : ∃ w, Pipeline.arrRef spec1 w = r
  · obtain ⟨w, rfl⟩ := hex
    have hw : (cfg1.win w).isOut = false := outs1_cover w hr
    have hAw := hA w
    rw [((d1 c).toRForget fgt).ArrAt_in w hw cfg1.N] at hAw
    rw [Pipeline.withArrays_arr spec1 launch1.win.arr_inj c _ _ w]
    exact hAw.trans (h.A_eq c w)
  · exact Pipeline.withArrays_of_ne spec1 c _ _ r fun w e => hex ⟨w, e⟩

set_option backward.isDefEq.respectTransparency.types false in
theorem exit1X (h : Reg1Facts m ρ d1) (c : Dev nD) :
    iprop(((d1 c).toRForget fgt).arraysAt cfg1.N ∗ (d1 c).owesAt () (Fin.last cfg1.N) ∗ (∃ r, prngReg c r)
        ∗ Pipeline.unscopedRest (Ix := Unit) (Name := ℕ) (U := UR sig nD τ) (Lvl := ℕ) spec1 c (V4 m ρ c))
      ⊢ |={Set.univ}=> StX (Off1 m ρ) c := by
  have hopen : (((d1 c).toRForget fgt).arraysAt cfg1.N : sProp 𝕄)
      ⊢ iprop(∃ A, ⌜∀ w, ((d1 c).toRForget fgt).ArrAt w cfg1.N (A w)⌝ ∗ (d1 c).arrays A) :=
    arraysAt_open ((d1 c).toRForget fgt) cfg1.N
  iintro ⟨Harr, Hdue, Hreg, Hrest⟩
  ihave Hopen := hopen $$ Harr
  icases Hopen with ⟨%A, %hA, Harr⟩
  have hj : iprop((d1 c).arrays A ∗ Pipeline.unscopedRest (Ix := Unit) (Name := ℕ) (U := UR sig nD τ) (Lvl := ℕ) spec1 c (V4 m ρ c))
      ⊢ (unscopedBufs c (fun b => Pipeline.withArrays spec1 c (W4 m ρ c) A b) : sProp 𝕄) := Pipeline.unscopedBufs_of_arrays (p := 1) (pcfgs (F := F)) adm (Ix := Unit) (Name := ℕ) (U := UR sig nD τ) (Lvl := ℕ)
    launch1.win launch1.arr_whole c (pdatsOf m ρ d1) ((pdatsOf m ρ d1 1 c).share_full (h.q_eq c))
    (V4 m ρ c) (fun b => Pipeline.withArrays spec1 c (W4 m ρ c) A b) A
    (fun w => (Pipeline.withArrays_arr spec1 launch1.win.arr_inj c _ _ w).symm)
    (fun b hb => Pipeline.withArrays_of_ne spec1 c _ _ b fun w e => hb (Finset.mem_image.mpr ⟨w, Finset.mem_univ w, e⟩))
  rw [show (unscopedBufs c (fun b => Pipeline.withArrays spec1 c (W4 m ρ c) A b) : sProp 𝕄)
      = StableHlo.held (c : Thread nD τ) (Pipeline.ucRefs τ sig) (Pipeline.withArrays spec1 c (W4 m ρ c) A)
    from Pipeline.unscopedBufs_held c (Pipeline.withArrays spec1 c (W4 m ρ c) A)] at hj
  ihave Hdue' := (nothing_of_owesAt (d1 c) (Fin.last _) (h.owed_eq c _)) $$ Hdue
  imodintro
  iexists (Pipeline.withArrays spec1 c (W4 m ρ c) A)
  isplitr
  · ipureintro; exact off1_withArrays m ρ d1 fgt h c A hA
  isplitl [Harr Hrest]
  · iapply hj
    isplitl [Harr]
    · iexact Harr
    · iexact Hrest
  isplitl [Hreg]
  · iexact Hreg
  · iexact Hdue'

set_option backward.isDefEq.respectTransparency.types false in
def reg1R (h : Reg1Facts m ρ d1) (hbR : ∀ c, ((d1 c).toRForget fgt).BodyObligation (defs₀ (F := F)) Variants.none () Set.univ) :
    Pipeline.RDat.RegionSeg (pcfgs (F := F)) adm (rdatsOf m ρ d1 fgt) () defs₀ 𝒱₀ L lv 1 where
  win := launch1.win.to₀
  block_pos := launch1.block_pos
  stage_whole := launch1.stage_whole
  K := PEmpty
  osem k := k.elim
  ho := Pipeline.OwnSemFacts.none _
  hbody c := hbR c
  hwaits := Pipeline.RDat.hwaits_of_owed_zero _ _ _ _ L lv 1 fun c t => h.owed_eq c t
  pre := St (W4 m ρ)
  post := StX (Off1 m ρ)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := entry1Of m ρ d1 h c _ _
  hin c := (ΦA_make spec1 c _).trans (h.enter c)
  hout c := by rw [Pipeline.ownSems0_none]; exact (h.leave c).trans (ΦA_take spec1 c)
  hexit c := exit1X m ρ d1 fgt h c

abbrev segsR (h : Reg1Facts m ρ d1) (hbR : ∀ c, ((d1 c).toRForget fgt).BodyObligation (defs₀ (F := F)) Variants.none () Set.univ) :
    List (Pipeline.RDat.Seg (pcfgs (F := F)) adm (rdatsOf m ρ d1 fgt) () defs₀ 𝒱₀ L lv) :=
  [ .host (hseg hostOps0 hostOps0_sub hostOps0_fresh (W0 m ρ)),
    .host (hseg hostOps0_1 hostOps0_1_sub hostOps0_1_fresh (W1 m ρ)),
    .region (reg0R m ρ d1 fgt),
    .host (hseg hostOps1 hostOps1_sub hostOps1_fresh (W3 m ρ)),
    .region (reg1R m ρ d1 fgt h hbR),
    .host (hsegX hostOps2 hostOps2_sub hostOps2_fresh (Off1 m ρ)) ]

theorem main_runR (h : Reg1Facts m ρ d1) (hbR : ∀ c, ((d1 c).toRForget fgt).BodyObligation (defs₀ (F := F)) Variants.none () Set.univ) (c : Dev nD) :
    main (F := F) c = Pipeline.RDat.Seg.run (segsR m ρ d1 fgt h hbR) := by
  rw [main_chain c, Pipeline.RDat.Seg.run_eq_chain]
  rfl

abbrev argRefs : List (Ref sig .tc) := [main_arg0, main_arg1, main_arg2, main_arg3, main_arg4, main_arg5, main_arg6, main_arg7, main_arg8, main_arg9, main_arg10, main_arg11, main_arg12, main_arg13]

theorem W4_args (c : Dev nD) : ∀ r ∈ argRefs, W4 m ρ c (Proc.devRef .tc r) = m ((c : Thread nD τ).loc r) := by
  intro r hr
  simp only [argRefs, List.mem_cons, List.not_mem_nil, or_false] at hr
  rcases hr with rfl | rfl | rfl | rfl | rfl | rfl | rfl | rfl | rfl | rfl | rfl | rfl | rfl | rfl
  exacts [W4_main_arg0 m ρ c, W4_main_arg1 m ρ c, W4_main_arg2 m ρ c, W4_main_arg3 m ρ c, W4_main_arg4 m ρ c, W4_main_arg5 m ρ c, W4_main_arg6 m ρ c, W4_main_arg7 m ρ c, W4_main_arg8 m ρ c, W4_main_arg9 m ρ c, W4_main_arg10 m ρ c, W4_main_arg11 m ρ c, W4_main_arg12 m ρ c, W4_main_arg13 m ρ c]

theorem endX_args (c : Dev nD) (W' : Valuation τ sig (Elt F)) (hP : Off1 m ρ c W') :
    ∀ r ∈ argRefs, StableHlo.after hostOps2 W' (Proc.devRef .tc r) = m ((c : Thread nD τ).loc r) := by
  intro r hr
  have h2 : r ∉ hostOps2_W := (by decide : ∀ r ∈ argRefs, r ∉ hostOps2_W) r hr
  have ho : r ∉ outs1 := (by decide : ∀ r ∈ argRefs, r ∉ outs1) r hr
  exact (StableHlo.after_of_writes_sub hostOps2 W' hostOps2_writes h2).trans ((hP r ho).trans (W4_args m ρ c r hr))

abbrev TₙX (c : Dev nD) : sProp 𝕄 :=
  iprop(∃ W', ⌜Off1 m ρ c W'⌝ ∗ StableHlo.held (c : Thread nD τ) (Pipeline.ucRefs τ sig) (StableHlo.after hostOps2 W') ∗ ∃ r, prngReg c r)

theorem end_regroupX (c : Dev nD) :
    (hsegX hostOps2 hostOps2_sub hostOps2_fresh (Off1 m ρ)).post c
      ⊢ iprop(TₙX m ρ c ∗ ∃ W, owes (c : Thread nD τ) (0 : CellTallies nD τ sig Unit) W) := by
  unfold hsegX
  iintro ⟨%W', %hP, Hbufs, Hreg, Hdue⟩
  isplitr [Hdue]
  · iexists W'
    isplitr
    · ipureintro; exact hP
    isplitl [Hbufs]
    · iexact Hbufs
    · iexact Hreg
  · iexact Hdue

theorem read_endX (c : Dev nD) (s' : Phys nD τ sig (Elt F)) :
    iprop(TₙX m ρ c ∗ SI s') ⊢ (|={Set.univ}=> iprop(⌜∀ r ∈ argRefs, s'.mem.mem ((c : Thread nD τ).loc r) = m ((c : Thread nD τ).loc r)⌝ ∗ SI s') : sProp 𝕄) := by
  unfold TₙX StableHlo.held
  iintro ⟨⟨%W', %hP, Hbufs, -⟩, Hmem⟩
  ihave Hread := (pointsTo_read_all (Pipeline.ucRefs τ sig) (fun b => ((c : Thread nD τ).1, b)) (StableHlo.after hostOps2 W') s') $$ [Hbufs Hmem]
  · isplitl [Hbufs]
    · iexact Hbufs
    · iexact Hmem
  icases Hread with ⟨%hall, Hmem⟩
  imodintro
  isplitr
  · ipureintro
    intro r hr
    exact (hall (Proc.devRef .tc r) (mem_uc r ((by decide : ∀ r ∈ argRefs, ¬ (Proc.devRef .tc r : DevRef τ sig).isScoped) r hr))).trans
      (endX_args m ρ c W' hP r hr)
  · iexact Hmem

set_option backward.isDefEq.respectTransparency.types false in
theorem run_frameOf (h : Reg1Facts m ρ d1) (hbR : ∀ c, ((d1 c).toRForget fgt).BodyObligation (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) adm (rdatsOf m ρ d1 fgt) () cellOf_inj emb₁ defs₀ 𝒱₀ L lv m ρ main (segsR m ρ d1 fgt h hbR)
    (fun c Q => by rw [main_runR m ρ d1 fgt h hbR c])
    (by simp only [segsR, Pipeline.RDat.Seg.pipes_host, Pipeline.RDat.Seg.pipes_region, Pipeline.RDat.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := launch_tokens _)
    (T₀ := St (W0 m ρ)) (Tₙ := TₙX m ρ)
    (hch := ⟨fun _ => .rfl, fun _ => .rfl, fun _ => .rfl, fun _ => .rfl, fun _ => .rfl, fun _ => .rfl, fun c => end_regroupX m ρ c⟩)
    (hinit := Pipeline.initEach L lv fun c => launch_core m ρ c _ _ _ _)
    (QY := fun c s => ∀ r ∈ argRefs, s.mem ((c : Thread nD τ).loc r) = m ((c : Thread nD τ).loc r))
    (hfin := fun c s' => read_endX m ρ c s')
    (hQ := fun s hs c => ⟨hs c main_arg0 (by decide), hs c main_arg1 (by decide), hs c main_arg2 (by decide), hs c main_arg3 (by decide), hs c main_arg4 (by decide), hs c main_arg5 (by decide), hs c main_arg6 (by decide), hs c main_arg7 (by decide), hs c main_arg8 (by decide), hs c main_arg9 (by decide), hs c main_arg10 (by decide), hs c main_arg11 (by decide), hs c main_arg12 (by decide), hs c main_arg13 (by decide)⟩)

end Forget

abbrev d1f : (c : Dev nD) → Dat τ (Elt F) Unit ℕ (UR sig nD τ) ℕ cfg1 c := fun c => dat1F (V4 m ρ) c

theorem reg1FactsF : Reg1Facts m ρ (d1f m ρ) where
  A_eq c w := A_eq1F (V4 m ρ) c w
  q_eq _ _ := rfl
  owed_eq _ _ := rfl
  recorded_eq _ _ := rfl
  enter c := hin1F (V4 m ρ) c
  leave c := hout1F (V4 m ρ) c

theorem run_frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_frameOf m ρ (d1f m ρ) fgt1 (reg1FactsF m ρ) fun c => (body_obligation1F (V4 m ρ) c).toRForget

end Cert.KernelIdeal.Hand

end
-- ==== Proof.Math.lean ====
/- Log-sum-exp over the reals and the extended reals: exp(a − b)·Σ exp(x − a) = Σ exp(x − b), a running (maximum, sum) pair updated tile by tile, two pairs joined, and Σ_c ((x_c − M) − log S) = Σ_c x_c − 10·(M + log S). -/
import Idealize.ShloMosaic.PureOps.Ideal
import Mathlib.Algebra.BigOperators.Fin
import Mathlib.Algebra.BigOperators.Group.Finset.Basic
import Mathlib.Algebra.Order.BigOperators.Group.Finset
import Mathlib.Analysis.SpecialFunctions.Log.Basic
import Mathlib.Data.EReal.Operations
import Mathlib.Data.Finset.Lattice.Fold

namespace Cert.Math

open Idealize.ShloMosaic
open scoped BigOperators

section Real
variable {ι : Type*}

theorem real_logsoftmax_sum {n : ℕ} (y : Fin n → ℝ) (M L : ℝ) :
    ∑ c : Fin n, ((y c - M) - L) = (∑ c : Fin n, y c) - n * (M + L) := by
  simp only [Finset.sum_sub_distrib, Finset.sum_const, Finset.card_univ, Fintype.card_fin,
    nsmul_eq_mul]
  ring

end Real

section EReal
variable {ι : Type*}

theorem ereal_coe_sum (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem exp_nonneg (a : EReal) : 0 ≤ Ideal.exp a := by
  induction a using EReal.rec with
  | bot => simp
  | coe r => rw [Ideal.exp_coe]; exact EReal.coe_nonneg.2 (Real.exp_pos r).le
  | top => simp

theorem ereal_mul_sum (c : EReal) (S : Finset ι) (f : ι → EReal) (hf : ∀ i ∈ S, 0 ≤ f i) :
    c * ∑ i ∈ S, f i = ∑ i ∈ S, c * f i := by
  classical
  induction S using Finset.induction_on with
  | empty => simp
  | insert a S ha ih =>
    rw [Finset.sum_insert ha, Finset.sum_insert ha,
      EReal.left_distrib_of_nonneg (hf a (Finset.mem_insert_self a S))
        (Finset.sum_nonneg fun i hi => hf i (Finset.mem_insert_of_mem hi)),
      ih fun i hi => hf i (Finset.mem_insert_of_mem hi)]

theorem exp_sub_mul_exp_sub {a m m' : EReal} (ham : a ≤ m) (hmm : m ≤ m') (hm' : m' ≠ ⊤) :
    Ideal.exp (m - m') * Ideal.exp (a - m) = Ideal.exp (a - m') := by
  induction a using EReal.rec with
  | bot => simp [EReal.bot_sub]
  | top => exact absurd (top_le_iff.1 (ham.trans hmm)) hm'
  | coe a =>
    have hm_top : m ≠ ⊤ := fun h => hm' (top_le_iff.1 (h ▸ hmm))
    have hm_bot : m ≠ ⊥ := fun h => by
      rw [h] at ham; exact EReal.coe_ne_bot a (le_bot_iff.1 ham)
    have hm'_bot : m' ≠ ⊥ := fun h => by
      rw [h] at hmm; exact hm_bot (le_bot_iff.1 hmm)
    lift m to ℝ using ⟨hm_top, hm_bot⟩
    lift m' to ℝ using ⟨hm', hm'_bot⟩
    rw [← EReal.coe_sub, ← EReal.coe_sub, ← EReal.coe_sub, Ideal.exp_coe, Ideal.exp_coe,
      Ideal.exp_coe, ← EReal.coe_mul, ← Real.exp_add]
    congr 2; ring

theorem ereal_rescale (S : Finset ι) (x : ι → EReal) {m m' : EReal}
    (hxm : ∀ i ∈ S, x i ≤ m) (hmm : m ≤ m') (hm' : m' ≠ ⊤) :
    Ideal.exp (m - m') * ∑ i ∈ S, Ideal.exp (x i - m) = ∑ i ∈ S, Ideal.exp (x i - m') := by
  rw [ereal_mul_sum _ _ _ fun i _ => exp_nonneg _]
  exact Finset.sum_congr rfl fun i hi => exp_sub_mul_exp_sub (hxm i hi) hmm hm'

theorem sup_ne_top {S : Finset ι} {x : ι → EReal} (hx : ∀ i ∈ S, x i ≠ ⊤) : S.sup x ≠ ⊤ :=
  ((Finset.sup_lt_iff bot_lt_top).2 fun i hi => lt_top_iff_ne_top.2 (hx i hi)).ne

theorem fold_max_eq (S : Finset ι) (x : ι → EReal) (b : EReal) :
    Finset.fold max b x S = max b (S.sup x) := by
  classical
  induction S using Finset.induction_on with
  | empty => simp
  | insert a S ha ih =>
    rw [Finset.fold_insert ha, Finset.sup_insert, ih]
    exact max_left_comm _ _ _

structure IsLSE (x : ι → EReal) (S : Finset ι) (m l : EReal) : Prop where
  max_eq : m = S.sup x
  sum_eq : l = ∑ i ∈ S, Ideal.exp (x i - m)

theorem IsLSE.refl (x : ι → EReal) (S : Finset ι) :
    IsLSE x S (S.sup x) (∑ i ∈ S, Ideal.exp (x i - S.sup x)) := ⟨rfl, rfl⟩

theorem IsLSE.empty (x : ι → EReal) : IsLSE x ∅ ⊥ 0 := ⟨by simp, by simp⟩

theorem IsLSE.congr {x x' : ι → EReal} {S : Finset ι} {m l : EReal} (h : IsLSE x S m l)
    (hxx : ∀ i ∈ S, x i = x' i) : IsLSE x' S m l := by
  refine ⟨h.max_eq.trans (Finset.sup_congr rfl hxx), h.sum_eq.trans ?_⟩
  exact Finset.sum_congr rfl fun i hi => by rw [hxx i hi]

theorem IsLSE.step [DecidableEq ι] {x : ι → EReal} {S : Finset ι} {m l : EReal}
    (h : IsLSE x S m l) (T : Finset ι) (hd : Disjoint S T) (hx : ∀ i ∈ S ∪ T, x i ≠ ⊤) :
    IsLSE x (S ∪ T) (max m (T.sup x))
      (Ideal.exp (m - max m (T.sup x)) * l + ∑ i ∈ T, Ideal.exp (x i - max m (T.sup x))) := by
  have hmax : max m (T.sup x) = (S ∪ T).sup x := by rw [h.max_eq, Finset.sup_union]
  refine ⟨hmax, ?_⟩
  have hxm : ∀ i ∈ S, x i ≤ m := fun i hi => by rw [h.max_eq]; exact Finset.le_sup hi
  have htop : max m (T.sup x) ≠ ⊤ := by rw [hmax]; exact sup_ne_top hx
  rw [h.sum_eq, ereal_rescale S x hxm (le_max_left _ _) htop, Finset.sum_union hd]

theorem IsLSE.combine [DecidableEq ι] {x : ι → EReal} {S₀ S₁ : Finset ι} {m₀ l₀ m₁ l₁ : EReal}
    (h₀ : IsLSE x S₀ m₀ l₀) (h₁ : IsLSE x S₁ m₁ l₁) (hd : Disjoint S₀ S₁)
    (hx : ∀ i ∈ S₀ ∪ S₁, x i ≠ ⊤) :
    IsLSE x (S₀ ∪ S₁) (max m₀ m₁)
      (Ideal.exp (m₀ - max m₀ m₁) * l₀ + Ideal.exp (m₁ - max m₀ m₁) * l₁) := by
  have hmax : max m₀ m₁ = (S₀ ∪ S₁).sup x := by
    rw [h₀.max_eq, h₁.max_eq, Finset.sup_union]
  refine ⟨hmax, ?_⟩
  have hx₀ : ∀ i ∈ S₀, x i ≤ m₀ := fun i hi => by rw [h₀.max_eq]; exact Finset.le_sup hi
  have hx₁ : ∀ i ∈ S₁, x i ≤ m₁ := fun i hi => by rw [h₁.max_eq]; exact Finset.le_sup hi
  have htop : max m₀ m₁ ≠ ⊤ := by rw [hmax]; exact sup_ne_top hx
  rw [h₀.sum_eq, h₁.sum_eq, ereal_rescale S₀ x hx₀ (le_max_left _ _) htop,
    ereal_rescale S₁ x hx₁ (le_max_right _ _) htop, Finset.sum_union hd]

theorem IsLSE.masked_iff {x : ι → EReal} {S S' : Finset ι} {m l : EReal} (hSS : S' ⊆ S)
    (hmask : ∀ i ∈ S, i ∉ S' → x i = ⊥) : IsLSE x S m l ↔ IsLSE x S' m l := by
  classical
  have hsup : S.sup x = S'.sup x := by
    refine le_antisymm (Finset.sup_le fun i hi => ?_) (Finset.sup_mono hSS)
    by_cases h : i ∈ S'
    · exact Finset.le_sup h
    · rw [hmask i hi h]; exact bot_le
  have hsum : ∀ m : EReal, ∑ i ∈ S', Ideal.exp (x i - m) = ∑ i ∈ S, Ideal.exp (x i - m) :=
    fun m => Finset.sum_subset hSS fun i hi hni => by
      rw [hmask i hi hni, EReal.bot_sub]; rfl
  constructor
  · rintro ⟨h1, h2⟩; exact ⟨h1.trans hsup, h2.trans (hsum m).symm⟩
  · rintro ⟨h1, h2⟩; exact ⟨h1.trans hsup.symm, h2.trans (hsum m)⟩

theorem IsLSE.lse_eq {x : ι → EReal} {S : Finset ι} {m l : EReal} (h : IsLSE x S m l) :
    m + Ideal.log l = S.sup x + Ideal.log (∑ i ∈ S, Ideal.exp (x i - S.sup x)) := by
  rw [h.sum_eq, h.max_eq]

theorem ereal_logsoftmax_sum {n : ℕ} (y : Fin n → ℝ) (M L : ℝ) :
    ∑ c : Fin n, (((y c : EReal) - (M : EReal)) - (L : EReal))
      = (((∑ c : Fin n, y c) - n * (M + L) : ℝ) : EReal) := by
  rw [← real_logsoftmax_sum, ereal_coe_sum]
  exact Finset.sum_congr rfl fun c _ => by rw [EReal.coe_sub, EReal.coe_sub]

end EReal

section More
variable {ι κ : Type*}

theorem IsLSE.map_iff (e : ι ↪ κ) (x : κ → EReal) (S : Finset ι) (m l : EReal) :
    IsLSE x (S.map e) m l ↔ IsLSE (x ∘ e) S m l := by
  constructor
  · rintro ⟨h1, h2⟩
    exact ⟨by rw [h1, Finset.sup_map], by rw [h2, Finset.sum_map]; rfl⟩
  · rintro ⟨h1, h2⟩
    exact ⟨by rw [h1, Finset.sup_map], by rw [h2, Finset.sum_map]; rfl⟩

noncomputable def online (x : ι → EReal) (T : ℕ → Finset ι) : ℕ → EReal × EReal
  | 0 => (⊥, 0)
  | n + 1 =>
    let p := online x T n
    let m' := max p.1 ((T n).sup x)
    (m', Ideal.exp (p.1 - m') * p.2 + ∑ i ∈ T n, Ideal.exp (x i - m'))

theorem online_zero (x : ι → EReal) (T : ℕ → Finset ι) : online x T 0 = (⊥, 0) := rfl

theorem online_succ (x : ι → EReal) (T : ℕ → Finset ι) (n : ℕ) :
    online x T (n + 1)
      = (max (online x T n).1 ((T n).sup x),
         Ideal.exp ((online x T n).1 - max (online x T n).1 ((T n).sup x)) * (online x T n).2
           + ∑ i ∈ T n, Ideal.exp (x i - max (online x T n).1 ((T n).sup x))) := rfl

theorem isLSE_online [DecidableEq ι] (x : ι → EReal) (T : ℕ → Finset ι)
    (hd : ∀ j k, j ≠ k → Disjoint (T j) (T k)) (n : ℕ)
    (hx : ∀ k < n, ∀ i ∈ T k, x i ≠ ⊤) :
    IsLSE x ((Finset.range n).biUnion T) (online x T n).1 (online x T n).2 := by
  induction n with
  | zero => simpa [online] using IsLSE.empty x
  | succ n ih =>
    have ih' := ih fun k hk => hx k (Nat.lt_succ_of_lt hk)
    have hdis : Disjoint ((Finset.range n).biUnion T) (T n) :=
      (Finset.disjoint_biUnion_left _ _ _).2 fun k hk =>
        hd k n (Nat.ne_of_lt (Finset.mem_range.1 hk))
    have hU : (Finset.range (n + 1)).biUnion T = (Finset.range n).biUnion T ∪ T n := by
      rw [Finset.range_add_one, Finset.biUnion_insert, Finset.union_comm]
    rw [hU, online_succ]
    refine ih'.step (T n) hdis fun i hi => ?_
    rcases Finset.mem_union.1 hi with hi | hi
    · obtain ⟨k, hk, hik⟩ := Finset.mem_biUnion.1 hi
      exact hx k (Nat.lt_succ_of_lt (Finset.mem_range.1 hk)) i hik
    · exact hx n (Nat.lt_succ_self n) i hi

end More

end Cert.Math
-- ==== Proof.KI.Val1.lean ====
/- Region 1's payloads at an index: a tile's masked logits, and the scratch pair after a core's tiles as the log-sum-exp of that core's columns. -/
import proofs.«402386_j49916109914289_3_alg».proof.Proof.Gen.KernelIdeal.Skeleton
import proofs.«402386_j49916109914289_3_alg».proof.Proof.KI.Reg1
import proofs.«402386_j49916109914289_3_alg».proof.Proof.Math
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Hand.Val1

open Cert.KernelIdeal Cert.KernelIdeal.Gen
open Idealize.ShloMosaic Idealize.ShloMosaic.ValueIdx

theorem neg_big : Named.named (F := Ideal) κ "neg_big" (φ := .f32) 0xFF333332#32 = (⊥ : EReal) :=
  IdealRules.named_const.ideal_named_scalar _ _ _ _ rfl

theorem mask_apply (i : grid1.Coords) (b : Fin 256) (q : Fin 5120) :
    (cmpi .slt (addi (broadcast S256x5120 (Scalar.muli (Scalar.addi (Scalar.muli (BitVec.ofNat 32 (i 0).val) 5#32) (BitVec.ofNat 32 (i 1).val)) 5120#32))
       (iota .tc S256x5120 32 [1] iota_S256x5120_d1_w32)) (broadcast S256x5120 50000#32) : IVec S256x5120 1) (ix2 b q)
     = if 5120 * (5 * (i 0).val + (i 1).val) + q.val < 50000 then 1#1 else 0#1 := by
  have h0 : (i 0).val < 2 := (i 0).isLt
  have h1 : (i 1).val < 5 := (i 1).isLt
  have hq : q.val < 5120 := q.isLt
  show IntOp.cmpi .slt (_ + iota .tc S256x5120 32 [1] iota_S256x5120_d1_w32 (ix2 b q)) 50000#32 = _
  rw [iota_single_apply]
  show IntOp.cmpi .slt ((BitVec.ofNat 32 (i 0).val * 5#32 + BitVec.ofNat 32 (i 1).val) * 5120#32 + BitVec.ofNat 32 q.val) 50000#32 = _
  generalize (i 0).val = a at *
  generalize (i 1).val = t at *
  generalize q.val = n at *
  have hv : ((BitVec.ofNat 32 a * 5#32 + BitVec.ofNat 32 t) * 5120#32 + BitVec.ofNat 32 n).toNat = 5120 * (5 * a + t) + n := by
    simp only [BitVec.toNat_add, BitVec.toNat_mul, BitVec.toNat_ofNat]
    omega
  have hs : ((BitVec.ofNat 32 a * 5#32 + BitVec.ofNat 32 t) * 5120#32 + BitVec.ofNat 32 n).slt 50000#32
      = decide (5120 * (5 * a + t) + n < 50000) := by
    rw [BitVec.slt, BitVec.toInt_eq_toNat_of_lt (by rw [hv]; omega), hv]
    rw [show (50000#32 : BitVec 32).toInt = 50000 by decide]
    congr 1
    apply propext
    constructor <;> intro h <;> omega
  simp only [IntOp.cmpi, hs]
  by_cases hc : 5120 * (5 * a + t) + n < 50000
  · rw [if_pos hc, decide_eq_true hc]; rfl
  · rw [if_neg hc, decide_eq_false hc]; rfl

theorem lhs_tile_0 (i : S256x5120.Idx) (q : dot_S256x256_S256x5120_S256x5120_1_0_0_1_n_n.contr.Idx) :
    (dot_S256x256_S256x5120_S256x5120_1_0_0_1_n_n.lhsIdx i q 0).val = (i 0).val := by
  unfold DotDims.lhsIdx
  rw [dif_neg (show ¬(0 : Fin S256x256.rank) ∈ dot_S256x256_S256x5120_S256x5120_1_0_0_1_n_n.lhsBatch by decide), dif_pos (show (0 : Fin S256x256.rank) ∈ dot_S256x256_S256x5120_S256x5120_1_0_0_1_n_n.lhsNonContracting by decide)]
  rfl
theorem lhs_tile_1 (i : S256x5120.Idx) (q : dot_S256x256_S256x5120_S256x5120_1_0_0_1_n_n.contr.Idx) :
    (dot_S256x256_S256x5120_S256x5120_1_0_0_1_n_n.lhsIdx i q 1).val = (q ⟨0, by decide⟩).val :=
  dot_S256x256_S256x5120_S256x5120_1_0_0_1_n_n.lhsIdx_val_of_single rfl i q
theorem rhs_tile_0 (i : S256x5120.Idx) (q : dot_S256x256_S256x5120_S256x5120_1_0_0_1_n_n.contr.Idx) :
    (dot_S256x256_S256x5120_S256x5120_1_0_0_1_n_n.rhsIdx i q 0).val = (q ⟨0, by decide⟩).val :=
  dot_S256x256_S256x5120_S256x5120_1_0_0_1_n_n.rhsIdx_val_of_single rfl i q
theorem rhs_tile_1 (i : S256x5120.Idx) (q : dot_S256x256_S256x5120_S256x5120_1_0_0_1_n_n.contr.Idx) :
    (dot_S256x256_S256x5120_S256x5120_1_0_0_1_n_n.rhsIdx i q 1).val = (i 1).val := by
  unfold DotDims.rhsIdx
  rw [dif_neg (show ¬(1 : Fin S256x5120.rank) ∈ dot_S256x256_S256x5120_S256x5120_1_0_0_1_n_n.rhsBatch by decide), dif_pos (show (1 : Fin S256x5120.rank) ∈ dot_S256x256_S256x5120_S256x5120_1_0_0_1_n_n.rhsNonContracting by decide)]
  rfl

theorem tile_matmul (x : FVec Ideal S256x256 .bf16) (y : FVec Ideal S256x5120 .bf16) (b : Fin 256) (q : Fin 5120) :
    matmul dot_S256x256_S256x5120_S256x5120_1_0_0_1_n_n none x y (constant (F := Ideal) S256x5120 .f32 0x00000000#32) (ix2 b q)
      = ∑ d : Fin 256, x (ix2 b d) * y (ix2 d q) := by
  simp only [matmul]
  rw [Ideal.matmul_constant_zero_apply, ← Equiv.sum_comp (contrEquiv1 dot_S256x256_S256x5120_S256x5120_1_0_0_1_n_n 256 rfl rfl).symm]
  refine Finset.sum_congr rfl fun k _ => ?_
  have hk := contrEquiv1_symm_val dot_S256x256_S256x5120_S256x5120_1_0_0_1_n_n 256 rfl rfl k
  have el : dot_S256x256_S256x5120_S256x5120_1_0_0_1_n_n.lhsIdx (ix2 b q) ((contrEquiv1 dot_S256x256_S256x5120_S256x5120_1_0_0_1_n_n 256 rfl rfl).symm k) = ix2 b k := funext fun a => Fin.ext (by
    match a with
    | ⟨0, _⟩ => exact lhs_tile_0 _ _
    | ⟨1, _⟩ => exact (lhs_tile_1 _ _).trans hk)
  have er : dot_S256x256_S256x5120_S256x5120_1_0_0_1_n_n.rhsIdx (ix2 b q) ((contrEquiv1 dot_S256x256_S256x5120_S256x5120_1_0_0_1_n_n 256 rfl rfl).symm k) = ix2 k q := funext fun a => Fin.ext (by
    match a with
    | ⟨0, _⟩ => exact (rhs_tile_0 _ _).trans hk
    | ⟨1, _⟩ => exact rhs_tile_1 _ _)
  rw [el, er]

theorem k1_pay7_apply (i : grid1.Coords) (v3 : Vec Ideal S256x256 .f32) (v6 : Vec Ideal S5120x256 .f32) (v10 : Vec Ideal S1x5120 .f32)
    (b : Fin 256) (q : Fin 5120) :
    k1_pay7 (F := Ideal) i v3 v6 v10 (ix2 b q)
      = if 5120 * (5 * (i 0).val + (i 1).val) + q.val < 50000
        then (∑ d : Fin 256, v3 (ix2 b d) * v6 (ix2 q d)) + v10 (ix2 (0 : Fin 1) q) else ⊥ := by
  unfold k1_pay7
  simp only []
  rw [select_apply, mask_apply]
  by_cases hc : 5120 * (5 * (i 0).val + (i 1).val) + q.val < 50000
  · rw [if_pos hc, if_pos hc, select_one, addf_apply, tile_matmul, broadcastTo_1b_ab_apply, shapeCast_self, shapeCast_self]
    congr 1
    refine Finset.sum_congr rfl fun d _ => ?_
    rw [truncf_apply, transpose_ix2_apply, truncf_apply]
  · rw [if_neg hc, if_neg hc, select_zero, broadcast_apply, neg_big]

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem ofBits_neg_inf : Ideal.ofBits .f32 0xFF800000#32 = (⊥ : EReal) := by simp [Ideal.ofBits, Ideal.ieee]

theorem lift_row (b : Fin 256) (k : Fin 5120) : reduces_S256x5120_S256.lift (ix1 b) k = ix2 b k :=
  Shape.idx_ext₂ rfl rfl

theorem rowMax_apply (x : FVec Ideal S256x5120 .f32) (b : Fin 256) :
    multiReduction (F := Ideal) .maximumf [1] S256 x 0xFF800000#32 reduces_S256x5120_S256 (.inl rfl) rfl (ix1 b)
      = Finset.univ.sup fun q : Fin 5120 => x (ix2 b q) := by
  refine (Ideal.multiReduction_maximumf_single x _ reduces_S256x5120_S256 _ _ (ix1 b)).trans ?_
  rw [Cert.Math.fold_max_eq]
  show max (Ideal.ofBits .f32 0xFF800000#32) _ = _
  rw [ofBits_neg_inf, max_eq_right bot_le]
  refine Finset.sup_congr rfl fun q _ => ?_
  exact congrArg x (lift_row b q)

theorem rowSum_apply (x : FVec Ideal S256x5120 .f32) (b : Fin 256) :
    multiReduction (F := Ideal) .add [1] S256 x 0x00000000#32 reduces_S256x5120_S256 (.inl rfl) rfl (ix1 b)
      = ∑ q : Fin 5120, x (ix2 b q) := by
  refine (Ideal.multiReduction_add_single x _ reduces_S256x5120_S256 _ _ (ix1 b)).trans ?_
  exact Finset.sum_congr rfl fun q _ => congrArg x (lift_row b q)

section Payloads
variable (i : grid1.Coords) (v3 : Vec Ideal S256x256 .f32) (v6 : Vec Ideal S5120x256 .f32) (v10 : Vec Ideal S1x5120 .f32)

theorem k1_pay8_apply (v26 : Vec Ideal S256x1 .f32) (b : Fin 256) (u : Fin 1) :
    k1_pay8 (F := Ideal) i v3 v6 v10 v26 (ix2 b u)
      = max (v26 (ix2 b u)) (Finset.univ.sup fun q : Fin 5120 => k1_pay7 (F := Ideal) i v3 v6 v10 (ix2 b q)) := by
  unfold k1_pay8
  simp only []
  rw [maximumf_apply, shapeCast_a_a1_apply, rowMax_apply]

theorem k1_pay9_apply (v26 : Vec Ideal S256x1 .f32) (b : Fin 256) (q : Fin 5120) :
    k1_pay9 (F := Ideal) i v3 v6 v10 v26 (ix2 b q)
      = Ideal.exp (k1_pay7 (F := Ideal) i v3 v6 v10 (ix2 b q) - k1_pay8 (F := Ideal) i v3 v6 v10 v26 (ix2 b (0 : Fin 1))) := by
  unfold k1_pay9
  show Ideal.exp (_ - broadcastTo S256x5120 _ broadcasts_S256x1_S256x5120 (ix2 b q)) = _
  rw [broadcastTo_a1_ab_apply]

theorem k1_pay10_apply (v26 v28 v34 : Vec Ideal S256x1 .f32) (b : Fin 256) (u : Fin 1) :
    k1_pay10 (F := Ideal) i v3 v6 v10 v26 v28 v34 (ix2 b u)
      = Ideal.exp (v28 (ix2 b u) - k1_pay8 (F := Ideal) i v3 v6 v10 v26 (ix2 b u)) * v34 (ix2 b u) := rfl

end Payloads

theorem k1_pay1_apply (v33 : FVec Ideal S256x5120 .f32) (v35 : FVec Ideal S256x1 .f32) (b : Fin 256) (u : Fin 1) :
    k1_pay1 (F := Ideal) v33 v35 (ix2 b u) = v35 (ix2 b u) + ∑ q : Fin 5120, v33 (ix2 b q) := by
  unfold k1_pay1
  simp only []
  rw [shapeCast_self, addf_apply, shapeCast_a_a1_apply, rowSum_apply]

theorem k1_pay2_eq (v27 : FVec Ideal S256x1 .f32) : k1_pay2 (F := Ideal) v27 = v27 := shapeCast_self _ _

theorem k1_pay3_apply (v48 : Vec Ideal S256x1 .f32) (p : Fin 1) (b : Fin 256) (u : Fin 1) :
    k1_pay3 (F := Ideal) v48 (ix3 p b u) = v48 (ix2 b u) :=
  shapeCast_ab_1ab_apply v48 shapeCasts_S256x1_S1x256x1 p b u

theorem k1_pay4_apply (v52 : Vec Ideal S256x1 .f32) (p : Fin 1) (b : Fin 256) (u : Fin 1) :
    k1_pay4 (F := Ideal) v52 (ix3 p b u) = v52 (ix2 b u) :=
  shapeCast_ab_1ab_apply v52 shapeCasts_S256x1_S1x256x1 p b u

theorem k1_pay5_apply (j : S256x1.Idx) : k1_pay5 (F := Ideal) j = (⊥ : EReal) := by
  unfold k1_pay5
  rw [shapeCast_self, broadcast_apply]
  exact ofBits_neg_inf

theorem k1_pay6_apply (j : S256x1.Idx) : k1_pay6 (F := Ideal) j = (0 : EReal) := by
  unfold k1_pay6
  rw [shapeCast_self, broadcast_apply]
  exact Ideal.ofBits_zero_f32

theorem fill_eq_of_moved {sig' : RefSig} {G : Pipeline.Grid} (w : Pipeline.Window sig' G) {α : Type} (i : G.Coords)
    (d d' : w.block.Idx → α) (g : (w.xblock i).Idx → α) (j : w.block.Idx) (h : w.moved i j = true) :
    w.fill i d g j = w.fill i d' g j := by
  unfold Pipeline.Window.fill
  rw [dif_pos h, dif_pos h]

theorem xsizes1 : ∀ t : Fin cfg1.N,
    win1_1.xsize (grid1.coords t) 0 = min 5120 (50000 - 5120 * (5 * (grid1.coords t 0).val + (grid1.coords t 1).val))
    ∧ win1_1.xsize (grid1.coords t) 1 = 256
    ∧ win1_2.xsize (grid1.coords t) 0 = 1
    ∧ win1_2.xsize (grid1.coords t) 1 = min 5120 (50000 - 5120 * (5 * (grid1.coords t 0).val + (grid1.coords t 1).val)) := by
  decide +kernel

theorem mask1_core (t : Fin cfg1.N) (v3 : Vec Ideal S256x256 .f32)
    (b1 : (win1_1.xblock (grid1.coords t)).Idx → Elt Ideal .f32) (b2 : (win1_2.xblock (grid1.coords t)).Idx → Elt Ideal .f32)
    (d1 d1' : S5120x256.Idx → Elt Ideal .f32) (d2 d2' : S1x5120.Idx → Elt Ideal .f32) :
    k1_pay7 (F := Ideal) (grid1.coords t) v3 (win1_1.fill (grid1.coords t) d1 b1) (win1_2.fill (grid1.coords t) d2 b2)
      = k1_pay7 (F := Ideal) (grid1.coords t) v3 (win1_1.fill (grid1.coords t) d1' b1) (win1_2.fill (grid1.coords t) d2' b2) := by
  funext j
  obtain ⟨b, q, rfl⟩ : ∃ (b : Fin 256) (q : Fin 5120), j = ix2 b q := ⟨j 0, j 1, eq_ix2 j⟩
  rw [k1_pay7_apply, k1_pay7_apply]
  obtain ⟨hx10, hx11, hx20, hx21⟩ := xsizes1 t
  by_cases hc : 5120 * (5 * (grid1.coords t 0).val + (grid1.coords t 1).val) + q.val < 50000
  · rw [if_pos hc, if_pos hc]
    have hq : q.val < 5120 := q.isLt
    have m2 : win1_2.moved (grid1.coords t) (ix2 (0 : Fin 1) q) = true :=
      (win1_2.moved_iff _ _).mpr fun a => by
        match a with
        | ⟨0, _⟩ => show (0 : ℕ) < win1_2.xsize (grid1.coords t) 0; rw [hx20]; omega
        | ⟨1, _⟩ => show q.val < win1_2.xsize (grid1.coords t) 1; rw [hx21]; omega
    rw [fill_eq_of_moved win1_2 _ d2 d2' b2 _ m2]
    congr 1
    refine Finset.sum_congr rfl fun d _ => ?_
    have m1 : win1_1.moved (grid1.coords t) (ix2 q d) = true :=
      (win1_1.moved_iff _ _).mpr fun a => by
        match a with
        | ⟨0, _⟩ => show q.val < win1_1.xsize (grid1.coords t) 0; rw [hx10]; omega
        | ⟨1, _⟩ => show d.val < win1_1.xsize (grid1.coords t) 1; rw [hx11]; exact d.isLt
    rw [fill_eq_of_moved win1_1 _ d1 d1' b1 _ m1]
  · rw [if_neg hc, if_neg hc]

section Columns
variable (Z : S256x256.Idx → EReal) (Wt : S50000x256.Idx → EReal) (Bs : S1x50000.Idx → EReal)

def lg (b : Fin 256) (v : Fin 50000) : EReal := (∑ d : Fin 256, Z (ix2 b d) * Wt (ix2 v d)) + Bs (ix2 (0 : Fin 1) v)

def xc (b : Fin 256) (n : ℕ) : EReal := if h : n < 50000 then lg Z Wt Bs b ⟨n, h⟩ else ⊥

def tileCols (T : ℕ) : Finset ℕ := Finset.Ico (5120 * T) (5120 * T + 5120)

theorem tileCols_eq_image (T : ℕ) : tileCols T = Finset.univ.image (fun q : Fin 5120 => 5120 * T + q.val) := by
  ext n
  simp only [tileCols, Finset.mem_Ico, Finset.mem_image, Finset.mem_univ, true_and]
  constructor
  · intro h
    exact ⟨⟨n - 5120 * T, by omega⟩, by show 5120 * T + (n - 5120 * T) = n; omega⟩
  · rintro ⟨q, rfl⟩
    have := q.isLt
    omega

theorem sup_tile (f : ℕ → EReal) (T : ℕ) :
    (Finset.univ.sup fun q : Fin 5120 => f (5120 * T + q.val)) = (tileCols T).sup f := by
  rw [tileCols_eq_image, Finset.sup_image]
  rfl

theorem sum_tile (f : ℕ → EReal) (T : ℕ) :
    (∑ q : Fin 5120, f (5120 * T + q.val)) = ∑ n ∈ tileCols T, f n := by
  rw [tileCols_eq_image, Finset.sum_image]
  intro a _ b _ h
  exact Fin.ext (by have : 5120 * T + a.val = 5120 * T + b.val := h; omega)

def HoldsTile (T : ℕ) (v6 : Vec Ideal S5120x256 .f32) (v10 : Vec Ideal S1x5120 .f32) : Prop :=
  ∀ (q : Fin 5120) (h : 5120 * T + q.val < 50000),
    (∀ d : Fin 256, v6 (ix2 q d) = Wt (ix2 (⟨5120 * T + q.val, h⟩ : Fin 50000) d))
      ∧ v10 (ix2 (0 : Fin 1) q) = Bs (ix2 (0 : Fin 1) (⟨5120 * T + q.val, h⟩ : Fin 50000))

variable {Wt Bs}
variable (i : grid1.Coords) {v6 : Vec Ideal S5120x256 .f32} {v10 : Vec Ideal S1x5120 .f32}
  (hT : HoldsTile Wt Bs (5 * (i 0).val + (i 1).val) v6 v10)
include hT

theorem tile_eq (b : Fin 256) (q : Fin 5120) :
    k1_pay7 (F := Ideal) i Z v6 v10 (ix2 b q) = xc Z Wt Bs b (5120 * (5 * (i 0).val + (i 1).val) + q.val) := by
  rw [k1_pay7_apply]
  unfold xc
  by_cases hc : 5120 * (5 * (i 0).val + (i 1).val) + q.val < 50000
  · rw [if_pos hc, dif_pos hc]
    unfold lg
    obtain ⟨h6, h10⟩ := hT q hc
    rw [h10]
    congr 1
    exact Finset.sum_congr rfl fun d _ => by rw [h6 d]
  · rw [if_neg hc, dif_neg hc]

theorem step_m (m : Vec Ideal S256x1 .f32) (b : Fin 256) :
    k1_pay8 (F := Ideal) i Z v6 v10 m (ix2 b (0 : Fin 1))
      = max (m (ix2 b (0 : Fin 1))) ((tileCols (5 * (i 0).val + (i 1).val)).sup (xc Z Wt Bs b)) := by
  rw [k1_pay8_apply, ← sup_tile]
  congr 1
  exact Finset.sup_congr rfl fun q _ => tile_eq Z i hT b q

theorem step_l (m l : Vec Ideal S256x1 .f32) (b : Fin 256) :
    k1_pay1 (F := Ideal) (k1_pay9 (F := Ideal) i Z v6 v10 m) (k1_pay10 (F := Ideal) i Z v6 v10 m m l) (ix2 b (0 : Fin 1))
      = Ideal.exp (m (ix2 b (0 : Fin 1)) - max (m (ix2 b (0 : Fin 1))) ((tileCols (5 * (i 0).val + (i 1).val)).sup (xc Z Wt Bs b)))
            * l (ix2 b (0 : Fin 1))
          + ∑ n ∈ tileCols (5 * (i 0).val + (i 1).val),
              Ideal.exp (xc Z Wt Bs b n - max (m (ix2 b (0 : Fin 1))) ((tileCols (5 * (i 0).val + (i 1).val)).sup (xc Z Wt Bs b))) := by
  rw [k1_pay1_apply, k1_pay10_apply, step_m Z i hT, ← sum_tile]
  congr 1
  refine Finset.sum_congr rfl fun q _ => ?_
  rw [k1_pay9_apply, step_m Z i hT, tile_eq Z i hT]

end Columns

section Core
open Cert.Math
variable (Z : S256x256.Idx → EReal) (Wt : S50000x256.Idx → EReal) (Bs : S1x50000.Idx → EReal)

def cols (p : Fin 2) : Finset (Fin 50000) := Finset.univ.filter (fun v : Fin 50000 => v.val / 25600 = p.val)

def coreTile (p : ℕ) (k : ℕ) : Finset ℕ := tileCols (5 * p + k)

theorem coreTile_disjoint (p : ℕ) : ∀ j k, j ≠ k → Disjoint (coreTile p j) (coreTile p k) := by
  intro j k hjk
  rw [Finset.disjoint_left]
  intro n hj hk
  simp only [coreTile, tileCols, Finset.mem_Ico] at hj hk
  omega

theorem core_union (p : ℕ) : (Finset.range 5).biUnion (coreTile p) = Finset.Ico (25600 * p) (25600 * p + 25600) := by
  ext n
  simp only [Finset.mem_biUnion, Finset.mem_range, coreTile, tileCols, Finset.mem_Ico]
  constructor
  · rintro ⟨k, hk, h1, h2⟩
    omega
  · intro h
    exact ⟨(n - 25600 * p) / 5120, by omega, by omega, by omega⟩

variable (hZ : ∀ j, ∃ r : ℝ, Z j = r) (hW : ∀ j, ∃ r : ℝ, Wt j = r) (hB : ∀ j, ∃ r : ℝ, Bs j = r)
include hZ hW hB

theorem lg_real (b : Fin 256) (v : Fin 50000) : ∃ r : ℝ, lg Z Wt Bs b v = r := by
  choose zr hzr using hZ
  choose wr hwr using hW
  choose br hbr using hB
  refine ⟨(∑ d : Fin 256, zr (ix2 b d) * wr (ix2 v d)) + br (ix2 (0 : Fin 1) v), ?_⟩
  unfold lg
  rw [EReal.coe_add, ereal_coe_sum, hbr]
  congr 1
  exact Finset.sum_congr rfl fun d _ => by rw [hzr, hwr, EReal.coe_mul]

theorem xc_ne_top (b : Fin 256) (n : ℕ) : xc Z Wt Bs b n ≠ ⊤ := by
  unfold xc
  split
  · next h =>
    obtain ⟨r, hr⟩ := lg_real Z Wt Bs hZ hW hB b ⟨n, h⟩
    rw [hr]
    exact EReal.coe_ne_top r
  · exact bot_ne_top

theorem core_lse (p : Fin 2) (b : Fin 256) :
    IsLSE (lg Z Wt Bs b) (cols p) (online (xc Z Wt Bs b) (coreTile p.val) 5).1 (online (xc Z Wt Bs b) (coreTile p.val) 5).2 := by
  have h := isLSE_online (xc Z Wt Bs b) (coreTile p.val) (coreTile_disjoint p.val) 5
    (fun k _ n _ => xc_ne_top Z Wt Bs hZ hW hB b n)
  rw [core_union] at h
  have hp : p.val < 2 := p.isLt
  have hSS : (cols p).map Fin.valEmbedding ⊆ Finset.Ico (25600 * p.val) (25600 * p.val + 25600) := by
    intro n hn
    rw [Finset.mem_map] at hn
    obtain ⟨v, hv, rfl⟩ := hn
    rw [cols, Finset.mem_filter] at hv
    rw [Finset.mem_Ico]
    show 25600 * p.val ≤ v.val ∧ v.val < 25600 * p.val + 25600
    have := hv.2
    omega
  have hmask : ∀ n ∈ Finset.Ico (25600 * p.val) (25600 * p.val + 25600), n ∉ (cols p).map Fin.valEmbedding → xc Z Wt Bs b n = ⊥ := by
    intro n hn hnot
    rw [Finset.mem_Ico] at hn
    unfold xc
    split
    · next hlt =>
      exfalso
      apply hnot
      rw [Finset.mem_map]
      refine ⟨⟨n, hlt⟩, ?_, rfl⟩
      rw [cols, Finset.mem_filter]
      refine ⟨Finset.mem_univ _, ?_⟩
      show n / 25600 = p.val
      omega
    · rfl
  have h2 := (IsLSE.masked_iff hSS hmask).mp h
  have h3 := (IsLSE.map_iff Fin.valEmbedding (xc Z Wt Bs b) (cols p) _ _).mp h2
  refine h3.congr fun v _ => ?_
  show xc Z Wt Bs b v.val = lg Z Wt Bs b v
  unfold xc
  rw [dif_pos v.isLt]

omit hZ hW hB in
theorem step_online (p k : ℕ) (i : grid1.Coords) (hi0 : (i 0).val = p) (hi1 : (i 1).val = k)
    {v6 : Vec Ideal S5120x256 .f32} {v10 : Vec Ideal S1x5120 .f32} (hT : HoldsTile Wt Bs (5 * (i 0).val + (i 1).val) v6 v10)
    (m l : Vec Ideal S256x1 .f32)
    (hm : ∀ b : Fin 256, m (ix2 b (0 : Fin 1)) = (online (xc Z Wt Bs b) (coreTile p) k).1)
    (hl : ∀ b : Fin 256, l (ix2 b (0 : Fin 1)) = (online (xc Z Wt Bs b) (coreTile p) k).2) :
    (∀ b : Fin 256, k1_pay8 (F := Ideal) i Z v6 v10 m (ix2 b (0 : Fin 1)) = (online (xc Z Wt Bs b) (coreTile p) (k + 1)).1)
    ∧ (∀ b : Fin 256, k1_pay1 (F := Ideal) (k1_pay9 (F := Ideal) i Z v6 v10 m) (k1_pay10 (F := Ideal) i Z v6 v10 m m l) (ix2 b (0 : Fin 1))
        = (online (xc Z Wt Bs b) (coreTile p) (k + 1)).2) := by
  have hTk : 5 * (i 0).val + (i 1).val = 5 * p + k := by rw [hi0, hi1]
  constructor
  · intro b
    rw [step_m Z i hT, online_succ, hm b, hTk]
    rfl
  · intro b
    rw [step_l Z i hT, online_succ, hm b, hl b, hTk]
    rfl

omit hZ hW hB in
theorem reset_online (p : ℕ) (b : Fin 256) :
    k1_pay5 (F := Ideal) (ix2 b (0 : Fin 1)) = (online (xc Z Wt Bs b) (coreTile p) 0).1
    ∧ k1_pay6 (F := Ideal) (ix2 b (0 : Fin 1)) = (online (xc Z Wt Bs b) (coreTile p) 0).2 := by
  rw [online_zero, k1_pay5_apply, k1_pay6_apply]
  exact ⟨rfl, rfl⟩

end Core

section Blocks
open Idealize.ShloMosaic.TcCoe
variable (V : (c : Dev nD) → (b : Ref sig .tc) → Buf (Elt Ideal) ((c : Thread nD τ).loc b))

theorem index1 : ∀ t : Fin cfg1.N,
    win1_1.index t 0 = 5 * (grid1.coords t 0).val + (grid1.coords t 1).val ∧ win1_1.index t 1 = 0
    ∧ win1_2.index t 0 = 0 ∧ win1_2.index t 1 = 5 * (grid1.coords t 0).val + (grid1.coords t 1).val := by
  decide +kernel

theorem holdsTile1 (c : Dev nD) (t : Fin cfg1.N) (d1 : S5120x256.Idx → Elt Ideal .f32) (d2 : S1x5120.Idx → Elt Ideal .f32) :
    HoldsTile (V c main_arg11) (V c main_v31) (5 * (grid1.coords t 0).val + (grid1.coords t 1).val)
      (x1At V c t d1) (x2At V c t d2) := by
  intro q h
  obtain ⟨hx10, hx11, hx20, hx21⟩ := xsizes1 t
  obtain ⟨hi10, hi11, hi20, hi21⟩ := index1 t
  have hq : q.val < 5120 := q.isLt
  constructor
  · intro dd
    have m1 : win1_1.moved (grid1.coords t) (ix2 q dd) = true :=
      (win1_1.moved_iff _ _).mpr fun a => by
        match a with
        | ⟨0, _⟩ => show q.val < win1_1.xsize (grid1.coords t) 0; rw [hx10]; omega
        | ⟨1, _⟩ => show dd.val < win1_1.xsize (grid1.coords t) 1; rw [hx11]; exact dd.isLt
    show win1_1.fill (grid1.coords t) d1 (iblk1 V c 1 t) (ix2 q dd) = _
    unfold Pipeline.Window.fill
    rw [dif_pos m1]
    unfold iblk1
    rw [View.read_apply]
    show V c main_arg11 _ = V c main_arg11 _
    congr 1
    funext a
    apply Fin.ext
    match a with
    | ⟨0, _⟩ =>
      show win1_1.index t 0 * 5120 + 1 * q.val = 5120 * (5 * (grid1.coords t 0).val + (grid1.coords t 1).val) + q.val
      rw [hi10]; omega
    | ⟨1, _⟩ =>
      show win1_1.index t 1 * 256 + 1 * dd.val = dd.val
      rw [hi11]; omega
  · have m2 : win1_2.moved (grid1.coords t) (ix2 (0 : Fin 1) q) = true :=
      (win1_2.moved_iff _ _).mpr fun a => by
        match a with
        | ⟨0, _⟩ => show (0 : ℕ) < win1_2.xsize (grid1.coords t) 0; rw [hx20]; omega
        | ⟨1, _⟩ => show q.val < win1_2.xsize (grid1.coords t) 1; rw [hx21]; omega
    show win1_2.fill (grid1.coords t) d2 (iblk1 V c 2 t) (ix2 (0 : Fin 1) q) = _
    unfold Pipeline.Window.fill
    rw [dif_pos m2]
    unfold iblk1
    rw [View.read_apply]
    show V c main_v31 _ = V c main_v31 _
    congr 1
    funext a
    apply Fin.ext
    match a with
    | ⟨0, _⟩ =>
      show win1_2.index t 0 * 1 + 1 * 0 = 0
      rw [hi20]
    | ⟨1, _⟩ =>
      show win1_2.index t 1 * 5120 + 1 * q.val = 5120 * (5 * (grid1.coords t 0).val + (grid1.coords t 1).val) + q.val
      rw [hi21]; omega

end Blocks

section Induct
open Idealize.ShloMosaic.TcCoe Cert.Math
variable (V : (c : Dev nD) → (b : Ref sig .tc) → Buf (Elt Ideal) ((c : Thread nD τ).loc b))

theorem coords1 : ∀ t : Fin cfg1.N, (grid1.coords t 0).val = t.val / 5 ∧ (grid1.coords t 1).val = t.val % 5 := by
  decide +kernel

theorem index0 : ∀ t : Fin cfg1.N, win1_0.index t 0 = 0 ∧ win1_0.index t 1 = 0 := by
  decide +kernel

theorem in0_eq (c : Dev nD) (t : Fin cfg1.N) : (in0 V c t : Vec Ideal S256x256 .f32) = V c main_v29_0 := by
  funext x
  show iblk1 V c 0 t x = _
  unfold iblk1
  rw [View.read_apply]
  show V c main_v29_0 _ = V c main_v29_0 _
  congr 1
  funext a
  apply Fin.ext
  match a with
  | ⟨0, _⟩ =>
    show win1_0.index t 0 * 256 + 1 * (x 0).val = (x 0).val
    rw [(index0 t).1]; omega
  | ⟨1, _⟩ =>
    show win1_0.index t 1 * 256 + 1 * (x 1).val = (x 1).val
    rw [(index0 t).2]; omega

theorem point_step (c : Dev nD) (t : Fin cfg1.N) (k : ℕ) (hk : t.val % 5 = k) (m l : Vec Ideal S256x1 .f32)
    (hm : ∀ b : Fin 256, m (ix2 b (0 : Fin 1)) = (online (xc (V c main_v29_0) (V c main_arg11) (V c main_v31) b) (coreTile (t.val / 5)) k).1)
    (hl : ∀ b : Fin 256, l (ix2 b (0 : Fin 1)) = (online (xc (V c main_v29_0) (V c main_arg11) (V c main_v31) b) (coreTile (t.val / 5)) k).2)
    (b : Fin 256) :
    k1_pay2 (F := Ideal) (k1_pay8 (F := Ideal) (grid1.coords t) (in0 V c t) (in1 V c t) (in2 V c t) m) (ix2 b (0 : Fin 1))
        = (online (xc (V c main_v29_0) (V c main_arg11) (V c main_v31) b) (coreTile (t.val / 5)) (k + 1)).1
    ∧ k1_pay1 (F := Ideal) (k1_pay9 (F := Ideal) (grid1.coords t) (in0 V c t) (in1 V c t) (in2 V c t) m)
          (k1_pay10 (F := Ideal) (grid1.coords t) (in0 V c t) (in1 V c t) (in2 V c t) m m l) (ix2 b (0 : Fin 1))
        = (online (xc (V c main_v29_0) (V c main_arg11) (V c main_v31) b) (coreTile (t.val / 5)) (k + 1)).2 := by
  obtain ⟨hc0, hc1⟩ := coords1 t
  have hT := holdsTile1 V c t (zf1 (F := Ideal) (S := S5120x256)) (zf1 (F := Ideal) (S := S1x5120))
  have hs := step_online (V c main_v29_0) (V c main_arg11) (V c main_v31) (t.val / 5) k (grid1.coords t) hc0 (hc1.trans hk) hT m l hm hl
  rw [k1_pay2_eq, in0_eq]
  exact ⟨hs.1 b, hs.2 b⟩

theorem scratch_online (c : Dev nD) : ∀ (n : ℕ) (hn : n < cfg1.N) (b : Fin 256),
    (outsAt1 V c n hn).2.2.1 (ix2 b (0 : Fin 1))
        = (online (xc (V c main_v29_0) (V c main_arg11) (V c main_v31) b) (coreTile (n / 5)) (n % 5 + 1)).1
    ∧ (outsAt1 V c n hn).2.2.2 (ix2 b (0 : Fin 1))
        = (online (xc (V c main_v29_0) (V c main_arg11) (V c main_v31) b) (coreTile (n / 5)) (n % 5 + 1)).2 := by
  intro n
  induction n with
  | zero =>
    intro hn b
    rw [outsAt1_A V c ⟨0, hn⟩ (Nat.zero_mod _)]
    unfold atA1
    dsimp only
    rw [sout1_A_0_eq, sout1_A_1_eq]
    exact point_step V c ⟨0, hn⟩ 0 (Nat.zero_mod _) _ _
      (fun b => (reset_online (V c main_v29_0) (V c main_arg11) (V c main_v31) _ b).1)
      (fun b => (reset_online (V c main_v29_0) (V c main_arg11) (V c main_v31) _ b).2) b
  | succ n ih =>
    intro hn b
    by_cases h0 : (n + 1) % 5 = 0
    · rw [outsAt1_A V c ⟨n + 1, hn⟩ h0]
      unfold atA1
      dsimp only
      rw [sout1_A_0_eq, sout1_A_1_eq, h0]
      exact point_step V c ⟨n + 1, hn⟩ 0 h0 _ _
        (fun b => (reset_online (V c main_v29_0) (V c main_arg11) (V c main_v31) _ b).1)
        (fun b => (reset_online (V c main_v29_0) (V c main_arg11) (V c main_v31) _ b).2) b
    · have e1 : (n + 1) / 5 = n / 5 := by omega
      have e2 : (n + 1) % 5 = n % 5 + 1 := by omega
      have hm : ∀ b : Fin 256, (outsAt1 V c n (Nat.lt_of_succ_lt hn)).2.2.1 (ix2 b (0 : Fin 1))
          = (online (xc (V c main_v29_0) (V c main_arg11) (V c main_v31) b) (coreTile ((n + 1) / 5)) (n % 5 + 1)).1 := fun b => by
        rw [e1]; exact (ih (Nat.lt_of_succ_lt hn) b).1
      have hl : ∀ b : Fin 256, (outsAt1 V c n (Nat.lt_of_succ_lt hn)).2.2.2 (ix2 b (0 : Fin 1))
          = (online (xc (V c main_v29_0) (V c main_arg11) (V c main_v31) b) (coreTile ((n + 1) / 5)) (n % 5 + 1)).2 := fun b => by
        rw [e1]; exact (ih (Nat.lt_of_succ_lt hn) b).2
      by_cases h1 : (n + 1) % 5 = 4
      · rw [outsAt1_C V c ⟨n + 1, hn⟩ h0 h1]
        unfold atC1
        dsimp only
        rw [sout1_C_0_eq, sout1_C_1_eq, e2]
        exact point_step V c ⟨n + 1, hn⟩ (n % 5 + 1) e2 _ _ hm hl b
      · rw [outsAt1_B V c ⟨n + 1, hn⟩ h0 h1]
        unfold atB1
        dsimp only
        rw [sout1_B_0_eq, sout1_B_1_eq, e2]
        exact point_step V c ⟨n + 1, hn⟩ (n % 5 + 1) e2 _ _ hm hl b

end Induct

section Arrays
open Idealize.ShloMosaic.TcCoe Cert.Math
variable (V : (c : Dev nD) → (b : Ref sig .tc) → Buf (Elt Ideal) ((c : Thread nD τ).loc b))

theorem flush1_34 : ∀ t : Fin cfg1.N, ((cfg1.win 3).flush t = true ↔ t.val % 5 = 4) ∧ ((cfg1.win 4).flush t = true ↔ t.val % 5 = 4) := by
  decide +kernel

theorem index34 : ∀ t : Fin cfg1.N,
    win1_3.index t 0 = t.val / 5 ∧ win1_3.index t 1 = 0 ∧ win1_3.index t 2 = 0
    ∧ win1_4.index t 0 = t.val / 5 ∧ win1_4.index t 1 = 0 ∧ win1_4.index t 2 = 0
    ∧ win1_3.xsize (grid1.coords t) 0 = 1 ∧ win1_3.xsize (grid1.coords t) 1 = 256 ∧ win1_3.xsize (grid1.coords t) 2 = 1
    ∧ win1_4.xsize (grid1.coords t) 0 = 1 ∧ win1_4.xsize (grid1.coords t) 1 = 256 ∧ win1_4.xsize (grid1.coords t) 2 = 1 := by
  decide +kernel

theorem N1 : cfg1.N = 10 := by decide

theorem out_eq_scratch (c : Dev nD) (t : Fin cfg1.N) (h1 : t.val % 5 = 4) :
    (outsAt1 V c t.val t.isLt).1 = k1_pay3 (F := Ideal) (outsAt1 V c t.val t.isLt).2.2.1
    ∧ (outsAt1 V c t.val t.isLt).2.1 = k1_pay4 (F := Ideal) (outsAt1 V c t.val t.isLt).2.2.2 := by
  have h0 : ¬t.val % 5 = 0 := by omega
  rw [outsAt1_C V c t h0 h1]
  unfold atC1
  dsimp only
  rw [out1_C_3_eq, out1_C_4_eq, sout1_C_0_eq, sout1_C_1_eq]
  exact ⟨rfl, rfl⟩

def G3 (c : Dev nD) : S2x256x1.Idx → EReal := fun j =>
  (online (xc (V c main_v29_0) (V c main_arg11) (V c main_v31) (j 1)) (coreTile (j 0).val) 5).1
def G4 (c : Dev nD) : S2x256x1.Idx → EReal := fun j =>
  (online (xc (V c main_v29_0) (V c main_arg11) (V c main_v31) (j 1)) (coreTile (j 0).val) 5).2

theorem flushed3 (c : Dev nD) (t : Fin cfg1.N) (hf : (cfg1.win 3).flush t = true) :
    (dat1 V c).flushed 3 t = ((cfg1.win 3).blk t).view.read (Elt Ideal) (G3 V c) := by
  have h1 : t.val % 5 = 4 := (flush1_34 t).1.mp hf
  have hN := N1
  have hlt := t.isLt
  obtain ⟨i30, i31, i32, -, -, -, s30, s31, s32, -, -, -⟩ := index34 t
  funext x
  have hx0 : (x 0).val < win1_3.xsize (grid1.coords t) 0 := (x 0).isLt
  have hx2 : (x 2).val < win1_3.xsize (grid1.coords t) 2 := (x 2).isLt
  rw [s30] at hx0
  rw [s32] at hx2
  show (dat1 V c).after 3 t ((cfg1.win 3).xinj (grid1.coords t) x) = _
  rw [after1_3, (out_eq_scratch V c t h1).1, View.read_apply]
  obtain ⟨u, b, w, hx⟩ : ∃ (u : Fin 1) (b : Fin 256) (w : Fin 1), ((cfg1.win 3).xinj (grid1.coords t) x : S1x256x1.Idx) = ix3 u b w :=
    ⟨_, _, _, eq_ix3 _⟩
  have hb : (x 1).val = b.val := congrArg Fin.val (congrFun hx 1)
  have hw : w = 0 := Subsingleton.elim _ _
  rw [hx, k1_pay3_apply, hw, (scratch_online V c t.val t.isLt b).1]
  have he : (((cfg1.win 3).blk t).view.emb x : S2x256x1.Idx) = ix3 (⟨t.val / 5, by omega⟩ : Fin 2) b (0 : Fin 1) :=
    funext fun a => Fin.ext (by
      match a with
      | ⟨0, _⟩ => show win1_3.index t 0 * 1 + 1 * (x 0).val = t.val / 5; rw [i30]; omega
      | ⟨1, _⟩ => show win1_3.index t 1 * 256 + 1 * (x 1).val = b.val; rw [i31]; omega
      | ⟨2, _⟩ => show win1_3.index t 2 * 1 + 1 * (x 2).val = 0; rw [i32]; omega)
  show _ = G3 V c (((cfg1.win 3).blk t).view.emb x)
  rw [he]
  unfold G3
  rw [h1]

theorem flushed4 (c : Dev nD) (t : Fin cfg1.N) (hf : (cfg1.win 4).flush t = true) :
    (dat1 V c).flushed 4 t = ((cfg1.win 4).blk t).view.read (Elt Ideal) (G4 V c) := by
  have h1 : t.val % 5 = 4 := (flush1_34 t).2.mp hf
  have hN := N1
  have hlt := t.isLt
  obtain ⟨-, -, -, i40, i41, i42, -, -, -, s40, s41, s42⟩ := index34 t
  funext x
  have hx0 : (x 0).val < win1_4.xsize (grid1.coords t) 0 := (x 0).isLt
  have hx2 : (x 2).val < win1_4.xsize (grid1.coords t) 2 := (x 2).isLt
  rw [s40] at hx0
  rw [s42] at hx2
  show (dat1 V c).after 4 t ((cfg1.win 4).xinj (grid1.coords t) x) = _
  rw [after1_4, (out_eq_scratch V c t h1).2, View.read_apply]
  obtain ⟨u, b, w, hx⟩ : ∃ (u : Fin 1) (b : Fin 256) (w : Fin 1), ((cfg1.win 4).xinj (grid1.coords t) x : S1x256x1.Idx) = ix3 u b w :=
    ⟨_, _, _, eq_ix3 _⟩
  have hb : (x 1).val = b.val := congrArg Fin.val (congrFun hx 1)
  have hw : w = 0 := Subsingleton.elim _ _
  rw [hx, k1_pay4_apply, hw, (scratch_online V c t.val t.isLt b).2]
  have he : (((cfg1.win 4).blk t).view.emb x : S2x256x1.Idx) = ix3 (⟨t.val / 5, by omega⟩ : Fin 2) b (0 : Fin 1) :=
    funext fun a => Fin.ext (by
      match a with
      | ⟨0, _⟩ => show win1_4.index t 0 * 1 + 1 * (x 0).val = t.val / 5; rw [i40]; omega
      | ⟨1, _⟩ => show win1_4.index t 1 * 256 + 1 * (x 1).val = b.val; rw [i41]; omega
      | ⟨2, _⟩ => show win1_4.index t 2 * 1 + 1 * (x 2).val = 0; rw [i42]; omega)
  show _ = G4 V c (((cfg1.win 4).blk t).view.emb x)
  rw [he]
  unfold G4
  rw [h1]

theorem mem_blk3 (t : Fin cfg1.N) (i : S2x256x1.Idx) :
    i ∈ ((cfg1.win 3).blk t).view.set ↔ ∀ a : Fin 3, win1_3.index t a * S1x256x1.size a ≤ (i a).val ∧ (i a).val < win1_3.index t a * S1x256x1.size a + win1_3.xsize (grid1.coords t) a := by
  show i ∈ ((View.whole main_v32_0).slice (win1_3.rect t)).set ↔ _
  rw [View.set_slice_whole, Rect.mem_set_unit]
  exact Iff.rfl

theorem mem_blk4 (t : Fin cfg1.N) (i : S2x256x1.Idx) :
    i ∈ ((cfg1.win 4).blk t).view.set ↔ ∀ a : Fin 3, win1_4.index t a * S1x256x1.size a ≤ (i a).val ∧ (i a).val < win1_4.index t a * S1x256x1.size a + win1_4.xsize (grid1.coords t) a := by
  show i ∈ ((View.whole main_v32_1).slice (win1_4.rect t)).set ↔ _
  rw [View.set_slice_whole, Rect.mem_set_unit]
  exact Iff.rfl

theorem cover3 (i : S2x256x1.Idx) : ∃ t : Fin cfg1.N, (cfg1.win 3).flush t = true ∧ i ∈ ((cfg1.win 3).blk t).view.set := by
  have h0 : (i 0).val < 2 := (i 0).isLt
  have h1 : (i 1).val < 256 := (i 1).isLt
  have h2 : (i 2).val < 1 := (i 2).isLt
  have hlt : 5 * (i 0).val + 4 < cfg1.N := by rw [N1]; omega
  refine ⟨⟨5 * (i 0).val + 4, hlt⟩, (flush1_34 _).1.mpr (by show (5 * (i 0).val + 4) % 5 = 4; omega), ?_⟩
  obtain ⟨i30, i31, i32, -, -, -, s30, s31, s32, -, -, -⟩ := index34 ⟨5 * (i 0).val + 4, hlt⟩
  have e : (5 * (i 0).val + 4) / 5 = (i 0).val := by omega
  rw [mem_blk3]
  intro a
  match a with
  | ⟨0, _⟩ =>
    show win1_3.index _ 0 * 1 ≤ (i 0).val ∧ (i 0).val < win1_3.index _ 0 * 1 + win1_3.xsize _ 0
    rw [i30, s30]
    show (5 * (i 0).val + 4) / 5 * 1 ≤ (i 0).val ∧ (i 0).val < (5 * (i 0).val + 4) / 5 * 1 + 1
    omega
  | ⟨1, _⟩ =>
    show win1_3.index _ 1 * 256 ≤ (i 1).val ∧ (i 1).val < win1_3.index _ 1 * 256 + win1_3.xsize _ 1
    rw [i31, s31]; omega
  | ⟨2, _⟩ =>
    show win1_3.index _ 2 * 1 ≤ (i 2).val ∧ (i 2).val < win1_3.index _ 2 * 1 + win1_3.xsize _ 2
    rw [i32, s32]; omega

theorem cover4 (i : S2x256x1.Idx) : ∃ t : Fin cfg1.N, (cfg1.win 4).flush t = true ∧ i ∈ ((cfg1.win 4).blk t).view.set := by
  have h0 : (i 0).val < 2 := (i 0).isLt
  have h1 : (i 1).val < 256 := (i 1).isLt
  have h2 : (i 2).val < 1 := (i 2).isLt
  have hlt : 5 * (i 0).val + 4 < cfg1.N := by rw [N1]; omega
  refine ⟨⟨5 * (i 0).val + 4, hlt⟩, (flush1_34 _).2.mpr (by show (5 * (i 0).val + 4) % 5 = 4; omega), ?_⟩
  obtain ⟨-, -, -, i40, i41, i42, -, -, -, s40, s41, s42⟩ := index34 ⟨5 * (i 0).val + 4, hlt⟩
  rw [mem_blk4]
  intro a
  match a with
  | ⟨0, _⟩ =>
    show win1_4.index _ 0 * 1 ≤ (i 0).val ∧ (i 0).val < win1_4.index _ 0 * 1 + win1_4.xsize _ 0
    rw [i40, s40]
    show (5 * (i 0).val + 4) / 5 * 1 ≤ (i 0).val ∧ (i 0).val < (5 * (i 0).val + 4) / 5 * 1 + 1
    omega
  | ⟨1, _⟩ =>
    show win1_4.index _ 1 * 256 ≤ (i 1).val ∧ (i 1).val < win1_4.index _ 1 * 256 + win1_4.xsize _ 1
    rw [i41, s41]; omega
  | ⟨2, _⟩ =>
    show win1_4.index _ 2 * 1 ≤ (i 2).val ∧ (i 2).val < win1_4.index _ 2 * 1 + win1_4.xsize _ 2
    rw [i42, s42]; omega

theorem arr3 (c : Dev nD) : (dat1 V c).arrAt 3 cfg1.N = G3 V c :=
  (dat1 V c).arrAt_eq_of_cover 3 (G3 V c) (flushed3 V c) cover3

theorem arr4 (c : Dev nD) : (dat1 V c).arrAt 4 cfg1.N = G4 V c :=
  (dat1 V c).arrAt_eq_of_cover 4 (G4 V c) (flushed4 V c) cover4

end Arrays

end Cert.KernelIdeal.Hand.Val1

namespace Cert.KernelIdeal.Hand

open Cert.KernelIdeal Cert.KernelIdeal.Gen
open Idealize.ShloMosaic Idealize.ShloMosaic.ValueIdx Idealize.ShloMosaic.TcCoe

theorem mask1_ideal : Mask1 Ideal :=
  fun t v3 b1 b2 d1 d1' d2 d2' => Val1.mask1_core t v3 b1 b2 d1 d1' d2 d2'

section
variable (V : (c : Dev nD) → (b : Ref sig .tc) → Buf (Elt Ideal) ((c : Thread nD τ).loc b)) (c : Dev nD)
  (hZ : ∀ j : S256x256.Idx, ∃ r : ℝ, @Eq EReal (V c main_v29_0 j) (r : EReal))
  (hW : ∀ j : S50000x256.Idx, ∃ r : ℝ, @Eq EReal (V c main_arg11 j) (r : EReal))
  (hB : ∀ j : S1x50000.Idx, ∃ r : ℝ, @Eq EReal (V c main_v31 j) (r : EReal))
include hZ hW hB

theorem mpart : ∀ (p : Fin 2) (b : Fin 256),
    @Eq EReal ((dat1 V c).arrAt 3 cfg1.N (ix3 p b (0 : Fin 1)))
      ((Val1.cols p).sup (Val1.lg (V c main_v29_0) (V c main_arg11) (V c main_v31) b)) := by
  intro p b
  rw [Val1.arr3]
  exact (Val1.core_lse (V c main_v29_0) (V c main_arg11) (V c main_v31) hZ hW hB p b).max_eq

theorem lpart : ∀ (p : Fin 2) (b : Fin 256),
    @Eq EReal ((dat1 V c).arrAt 4 cfg1.N (ix3 p b (0 : Fin 1)))
      (∑ v ∈ Val1.cols p, Ideal.exp (Val1.lg (V c main_v29_0) (V c main_arg11) (V c main_v31) b v
          - (Val1.cols p).sup (Val1.lg (V c main_v29_0) (V c main_arg11) (V c main_v31) b))) := by
  intro p b
  rw [Val1.arr4]
  have h := Val1.core_lse (V c main_v29_0) (V c main_arg11) (V c main_v31) hZ hW hB p b
  exact h.sum_eq.trans (congrArg (fun m => ∑ v ∈ Val1.cols p, Ideal.exp (Val1.lg (V c main_v29_0) (V c main_arg11) (V c main_v31) b v - m)) h.max_eq)

end

end Cert.KernelIdeal.Hand

end
-- ==== Proof.KI.Plumb.lean ====
/- A buffer no item writes keeps its contents from boundary to boundary. -/
import proofs.«402386_j49916109914289_3_alg».proof.Proof.KI.Run
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable {F : FTy → Type} [FloatOps F] [Named F]
variable (m : (ℓ : Loc nD τ sig) → Buf (Elt F) ℓ) (ρ : Dev nD → PrngReg)

theorem V2_of_unwritten (c : Dev nD) (r : Ref sig .tc) (h0 : r ∉ hostOps0_W) (h01 : r ∉ hostOps0_1_W) :
    V2 m ρ c r = m ((c : Thread nD τ).loc r) := by
  have e2 : W2 m ρ c (Proc.devRef .tc r) = W1 m ρ c (Proc.devRef .tc r) :=
    StableHlo.after_of_writes_sub hostOps0_1 _ hostOps0_1_writes h01
  have e1 : W1 m ρ c (Proc.devRef .tc r) = W0 m ρ c (Proc.devRef .tc r) :=
    StableHlo.after_of_writes_sub hostOps0 _ hostOps0_writes h0
  exact e2.trans e1

theorem V2_at_main_arg5 (c : Dev nD) : V2 m ρ c main_arg5 = m ((c : Thread nD τ).loc main_arg5) :=
  V2_of_unwritten m ρ c main_arg5 (by decide) (by decide)
theorem V2_at_main_arg6 (c : Dev nD) : V2 m ρ c main_arg6 = m ((c : Thread nD τ).loc main_arg6) :=
  V2_of_unwritten m ρ c main_arg6 (by decide) (by decide)
theorem V2_at_main_arg7 (c : Dev nD) : V2 m ρ c main_arg7 = m ((c : Thread nD τ).loc main_arg7) :=
  V2_of_unwritten m ρ c main_arg7 (by decide) (by decide)
theorem V2_at_main_arg8 (c : Dev nD) : V2 m ρ c main_arg8 = m ((c : Thread nD τ).loc main_arg8) :=
  V2_of_unwritten m ρ c main_arg8 (by decide) (by decide)
theorem V2_at_main_arg9 (c : Dev nD) : V2 m ρ c main_arg9 = m ((c : Thread nD τ).loc main_arg9) :=
  V2_of_unwritten m ρ c main_arg9 (by decide) (by decide)
theorem V2_at_main_arg10 (c : Dev nD) : V2 m ρ c main_arg10 = m ((c : Thread nD τ).loc main_arg10) :=
  V2_of_unwritten m ρ c main_arg10 (by decide) (by decide)
theorem V2_at_main_arg13 (c : Dev nD) : V2 m ρ c main_arg13 = m ((c : Thread nD τ).loc main_arg13) :=
  V2_of_unwritten m ρ c main_arg13 (by decide) (by decide)

theorem V4_of_unwritten (c : Dev nD) (r : Ref sig .tc) (h0 : r ∉ hostOps0_W) (h01 : r ∉ hostOps0_1_W) (h1 : r ∉ hostOps1_W)
    (hr0 : W3 m ρ c (Proc.devRef .tc r) = W2 m ρ c (Proc.devRef .tc r)) :
    V4 m ρ c r = m ((c : Thread nD τ).loc r) := by
  have e4 : W4 m ρ c (Proc.devRef .tc r) = W3 m ρ c (Proc.devRef .tc r) :=
    StableHlo.after_of_writes_sub hostOps1 _ hostOps1_writes h1
  exact e4.trans (hr0.trans (V2_of_unwritten m ρ c r h0 h01))

theorem V4_at_main_v29_0 (c : Dev nD) : V4 m ρ c main_v29_0 = (dat0 (V2 m ρ) c).arrAt 11 cfg0.N := by
  have e4 : W4 m ρ c (Proc.devRef .tc main_v29_0) = W3 m ρ c (Proc.devRef .tc main_v29_0) :=
    StableHlo.after_of_writes_sub hostOps1 _ hostOps1_writes (by decide)
  exact e4.trans (W3_arr m ρ c 11)

theorem V4_at_main_arg11 (c : Dev nD) : V4 m ρ c main_arg11 = m ((c : Thread nD τ).loc main_arg11) :=
  V4_of_unwritten m ρ c main_arg11 (by decide) (by decide) (by decide) (W3_of_ne m ρ c main_arg11 (by decide))

theorem V4_at_main_v30 (c : Dev nD) (b : Fin 256) :
    V4 m ρ c main_v30 (ix1 b) = (dat0 (V2 m ρ) c).arrAt 12 cfg0.N (ix2 b (0 : Fin 1)) := by
  have h : W3 m ρ c (Proc.devRef .tc main_v29_1) = (dat0 (V2 m ρ) c).arrAt 12 cfg0.N := W3_arr m ρ c 12
  show StableHlo.after hostOps1 (W3 m ρ c) (Proc.devRef .tc main_v30) (ix1 b) = _
  generalize W3 m ρ c = X at h ⊢
  after_results
  rw [h]
  exact shapeCast_apply _ shapeCasts_S256x1_S256 (ix1 b) (ix2 b (0 : Fin 1)) (by
    rw [Shape.rowMajor_val_two, Shape.rowMajor_val_one]
    show b.val * 1 + (0 : Fin 1).val = b.val
    simp)

theorem V4_at_main_v31 (c : Dev nD) (v : Fin 50000) :
    V4 m ρ c main_v31 (ix2 (0 : Fin 1) v) = m ((c : Thread nD τ).loc main_arg12) (ix1 v) := by
  have h : W3 m ρ c (Proc.devRef .tc main_arg12) = m ((c : Thread nD τ).loc main_arg12) :=
    (W3_of_ne m ρ c main_arg12 (by decide)).trans (V2_of_unwritten m ρ c main_arg12 (by decide) (by decide))
  show StableHlo.after hostOps1 (W3 m ρ c) (Proc.devRef .tc main_v31) (ix2 (0 : Fin 1) v) = _
  generalize W3 m ρ c = X at h ⊢
  after_results
  rw [h]
  exact shapeCast_apply _ shapeCasts_S50000_S1x50000 (ix2 (0 : Fin 1) v) (ix1 v) (by
    rw [Shape.rowMajor_val_one, Shape.rowMajor_val_two]
    show v.val = (0 : Fin 1).val * 50000 + v.val
    simp)

variable (d1 : (c : Dev nD) → Dat τ (Elt F) Unit ℕ (UR sig nD τ) ℕ cfg1 c)

theorem W5Of_of_unwritten (c : Dev nD) (r : Ref sig .tc) (h0 : r ∉ hostOps0_W) (h01 : r ∉ hostOps0_1_W) (h1 : r ∉ hostOps1_W)
    (hr0 : W3 m ρ c (Proc.devRef .tc r) = W2 m ρ c (Proc.devRef .tc r))
    (hr1 : W5Of m ρ d1 c (Proc.devRef .tc r) = W4 m ρ c (Proc.devRef .tc r)) :
    W5Of m ρ d1 c (Proc.devRef .tc r) = m ((c : Thread nD τ).loc r) :=
  hr1.trans (V4_of_unwritten m ρ c r h0 h01 h1 hr0)

theorem W5Of_in_of_A (hA : ∀ c w, (d1 c).A w = V4 m ρ c (Pipeline.arrRef spec1 w)) (c : Dev nD) (w : Fin cfg1.W)
    (hw : (cfg1.win w).isOut = false) :
    W5Of m ρ d1 c (Proc.devRef .tc (Pipeline.arrRef spec1 w)) = W4 m ρ c (Proc.devRef .tc (Pipeline.arrRef spec1 w)) :=
  (W5Of_arr m ρ d1 c w).trans (((d1 c).arrAt_in w hw _).trans (hA c w))

theorem W5Of_at_main_v30 (c : Dev nD) (b : Fin 256) :
    W5Of m ρ d1 c (Proc.devRef .tc main_v30) (ix1 b) = (dat0 (V2 m ρ) c).arrAt 12 cfg0.N (ix2 b (0 : Fin 1)) := by
  rw [W5Of_of_ne m ρ d1 c main_v30 (by decide)]
  exact V4_at_main_v30 m ρ c b

theorem W5Of_at_main_arg1 (c : Dev nD) : W5Of m ρ d1 c (Proc.devRef .tc main_arg1) = m ((c : Thread nD τ).loc main_arg1) :=
  W5Of_of_unwritten m ρ d1 c main_arg1 (by decide) (by decide) (by decide) (W3_of_ne m ρ c main_arg1 (by decide)) (W5Of_of_ne m ρ d1 c main_arg1 (by decide))

theorem W5Of_at_main_arg12 (c : Dev nD) : W5Of m ρ d1 c (Proc.devRef .tc main_arg12) = m ((c : Thread nD τ).loc main_arg12) :=
  W5Of_of_unwritten m ρ d1 c main_arg12 (by decide) (by decide) (by decide) (W3_of_ne m ρ c main_arg12 (by decide)) (W5Of_of_ne m ρ d1 c main_arg12 (by decide))

theorem W5Of_at_main_v32_0 (c : Dev nD) : W5Of m ρ d1 c (Proc.devRef .tc main_v32_0) = (d1 c).arrAt 3 cfg1.N :=
  W5Of_arr m ρ d1 c 3
theorem W5Of_at_main_v32_1 (c : Dev nD) : W5Of m ρ d1 c (Proc.devRef .tc main_v32_1) = (d1 c).arrAt 4 cfg1.N :=
  W5Of_arr m ρ d1 c 4

theorem W5_at_main_v29_0 (c : Dev nD) : W5 m ρ c (Proc.devRef .tc main_v29_0) = (dat0 (V2 m ρ) c).arrAt 11 cfg0.N :=
  (W5Of_in_of_A m ρ (d1x m ρ) (fun c w => A_eq1 (V4 m ρ) c w) c 0 rfl).trans (V4_at_main_v29_0 m ρ c)
theorem W5_at_main_v30 (c : Dev nD) (b : Fin 256) :
    W5 m ρ c (Proc.devRef .tc main_v30) (ix1 b) = (dat0 (V2 m ρ) c).arrAt 12 cfg0.N (ix2 b (0 : Fin 1)) :=
  W5Of_at_main_v30 m ρ (d1x m ρ) c b
theorem W5_at_main_arg1 (c : Dev nD) : W5 m ρ c (Proc.devRef .tc main_arg1) = m ((c : Thread nD τ).loc main_arg1) :=
  W5Of_at_main_arg1 m ρ (d1x m ρ) c
theorem W5_at_main_arg11 (c : Dev nD) : W5 m ρ c (Proc.devRef .tc main_arg11) = m ((c : Thread nD τ).loc main_arg11) :=
  W5Of_of_unwritten m ρ (d1x m ρ) c main_arg11 (by decide) (by decide) (by decide) (W3_of_ne m ρ c main_arg11 (by decide))
    (W5Of_in_of_A m ρ (d1x m ρ) (fun c w => A_eq1 (V4 m ρ) c w) c 1 rfl)
theorem W5_at_main_arg12 (c : Dev nD) : W5 m ρ c (Proc.devRef .tc main_arg12) = m ((c : Thread nD τ).loc main_arg12) :=
  W5Of_at_main_arg12 m ρ (d1x m ρ) c
theorem W5_at_main_v32_0 (c : Dev nD) : W5 m ρ c (Proc.devRef .tc main_v32_0) = (dat1 (V4 m ρ) c).arrAt 3 cfg1.N :=
  W5Of_at_main_v32_0 m ρ (d1x m ρ) c
theorem W5_at_main_v32_1 (c : Dev nD) : W5 m ρ c (Proc.devRef .tc main_v32_1) = (dat1 (V4 m ρ) c).arrAt 4 cfg1.N :=
  W5Of_at_main_v32_1 m ρ (d1x m ρ) c

end Cert.KernelIdeal.Hand

end
-- ==== Proof.KI.Gathers.lean ====
/- The kernel program's gathered arrays are the reference's gather stages of the same arguments. -/
import proofs.«402386_j49916109914289_3_alg».proof.Proof.Gen.KernelIdeal.Regions
import proofs.«402386_j49916109914289_3_alg».proof.Proof.RefRead

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] [Named F]
variable (m : (ℓ : Loc nD τ sig) → Buf (Elt F) ℓ) (c : Dev nD)

theorem v6_eq : V2 m c (Proc.devRef .tc main_v6)
    = Cert.ReferenceIdeal.Read.val_main_v6 (F := F) (m ((c : Thread nD τ).loc main_arg0)) (m ((c : Thread nD τ).loc main_arg2)) := by
  rw [V2_of m c main_v6 (by decide)]
  show StableHlo.after hostOps0 (fun b => m (c, b)) (Proc.devRef .tc main_v6) = _
  after_results_simp
  rfl

theorem v13_eq : V2 m c (Proc.devRef .tc main_v13)
    = Cert.ReferenceIdeal.Read.val_main_v13 (F := F) (m ((c : Thread nD τ).loc main_arg1)) (m ((c : Thread nD τ).loc main_arg2)) := by
  rw [V2_of m c main_v13 (by decide)]
  show StableHlo.after hostOps0 (fun b => m (c, b)) (Proc.devRef .tc main_v13) = _
  after_results_simp
  rfl

theorem v20_eq : V2 m c (Proc.devRef .tc main_v20)
    = Cert.ReferenceIdeal.Read.val_main_v53 (F := F) (m ((c : Thread nD τ).loc main_arg0)) (m ((c : Thread nD τ).loc main_arg3)) := by
  rw [V2_of m c main_v20 (by decide)]
  show StableHlo.after hostOps0 (fun b => m (c, b)) (Proc.devRef .tc main_v20) = _
  after_results_simp
  rfl

theorem v27_eq : V1 m c (Proc.devRef .tc main_v27)
    = Cert.ReferenceIdeal.Read.val_main_v60 (F := F) (m ((c : Thread nD τ).loc main_arg0)) (m ((c : Thread nD τ).loc main_arg4)) := by
  show StableHlo.after hostOps0 (fun b => m (c, b)) (Proc.devRef .tc main_v27) = _
  after_results_simp
  rfl

theorem v28_eq : V2 m c (Proc.devRef .tc main_v28)
    = Cert.ReferenceIdeal.Read.val_main_v61 (F := F) (m ((c : Thread nD τ).loc main_arg0)) (m ((c : Thread nD τ).loc main_arg4)) := by
  show StableHlo.after hostOps0_1 (V1 m c) (Proc.devRef .tc main_v28) = _
  have h27 := v27_eq m c
  generalize V1 m c = W at h27 ⊢
  after_results_simp
  rw [h27]
  rfl

end Cert.KernelIdeal.Hand
-- ==== Proof.Spec.lean ====
/- The loss as one function of the gathered inputs: the encoder's sums, the sample z and the divergence kl of each example, the logits over the vocabulary with their row maximum and shifted exponential sum, and per example the context logits minus ten times the log-sum-exp minus kl, summed. -/
import Idealize.ShloMosaic.PureOps.Ideal
import Mathlib.Algebra.BigOperators.Fin
import Mathlib.Order.CompleteLattice.Finset

noncomputable section

namespace Cert.Hand.Spec

open Idealize.ShloMosaic

def c2 : EReal := Ideal.ofBits .f32 0x40000000#32
def c256 : EReal := Ideal.ofBits .f32 0x43800000#32
def chalf : EReal := Ideal.ofBits .f32 0x3F000000#32
def c10 : EReal := Ideal.ofBits .f32 0x41200000#32

def sp (x : EReal) : EReal := max x 0 + Ideal.log1p (Ideal.exp (-(max x (-x))))

structure Inp where
  cen : Fin 256 → Fin 256 → EReal
  ctx : Fin 256 → Fin 10 → Fin 256 → EReal
  pm : Fin 256 → Fin 256 → EReal
  pv : Fin 256 → Fin 256 → EReal
  encW : Fin 512 → Fin 512 → EReal
  encb : Fin 512 → EReal
  meanW : Fin 256 → Fin 512 → EReal
  meanb : Fin 256 → EReal
  varW : Fin 256 → Fin 512 → EReal
  varb : Fin 256 → EReal
  eps : Fin 256 → EReal
  vW : Fin 50000 → Fin 256 → EReal
  vb : Fin 50000 → EReal
  k : Fin 256 → Fin 10 → Fin 50000

variable (I : Inp)

def pre (b : Fin 256) (c : Fin 10) (e : Fin 512) : EReal :=
  (∑ d : Fin 256, I.cen b d * I.encW e (Fin.castAdd 256 d)) + (∑ d : Fin 256, I.ctx b c d * I.encW e (Fin.natAdd 256 d)) + I.encb e

def h (b : Fin 256) (e : Fin 512) : EReal := ∑ c : Fin 10, max (pre I b c e) 0

def mean (b j : Fin 256) : EReal := (∑ e : Fin 512, h I b e * I.meanW j e) + I.meanb j

def var (b j : Fin 256) : EReal := sp ((∑ e : Fin 512, h I b e * I.varW j e) + I.varb j)

def z (b j : Fin 256) : EReal := mean I b j + Ideal.exp (Ideal.div (var I b j) c2) * I.eps j

def kl (b : Fin 256) : EReal :=
  chalf * ((((∑ j : Fin 256, Ideal.div (var I b j) (I.pv b j))
        + (∑ j : Fin 256, Ideal.div ((I.pm b j - mean I b j) * (I.pm b j - mean I b j)) (I.pv b j)))
      - c256)
    + ∑ j : Fin 256, (Ideal.log (I.pv b j) - Ideal.log (var I b j)))

def logit (b : Fin 256) (v : Fin 50000) : EReal := (∑ d : Fin 256, z I b d * I.vW v d) + I.vb v

def rowMax (b : Fin 256) : EReal := Finset.univ.sup (logit I b)

def rowSum (b : Fin 256) : EReal := ∑ v : Fin 50000, Ideal.exp (logit I b v - rowMax I b)

def lse (b : Fin 256) : EReal := rowMax I b + Ideal.log (rowSum I b)

def racc (b : Fin 256) : EReal := ∑ c : Fin 10, logit I b (I.k b c)

def result : EReal := ∑ b : Fin 256, ((racc I b - c10 * lse I b) - kl I b)

structure Inp.Finite (I : Inp) : Prop where
  cen : ∀ b d, ∃ r : ℝ, I.cen b d = r
  ctx : ∀ b c d, ∃ r : ℝ, I.ctx b c d = r
  pm : ∀ b j, ∃ r : ℝ, I.pm b j = r
  pv : ∀ b j, ∃ r : ℝ, 0 < r ∧ I.pv b j = r
  encW : ∀ e d, ∃ r : ℝ, I.encW e d = r
  encb : ∀ e, ∃ r : ℝ, I.encb e = r
  meanW : ∀ j e, ∃ r : ℝ, I.meanW j e = r
  meanb : ∀ j, ∃ r : ℝ, I.meanb j = r
  varW : ∀ j e, ∃ r : ℝ, I.varW j e = r
  varb : ∀ j, ∃ r : ℝ, I.varb j = r
  eps : ∀ j, ∃ r : ℝ, I.eps j = r
  vW : ∀ v d, ∃ r : ℝ, I.vW v d = r
  vb : ∀ v, ∃ r : ℝ, I.vb v = r

end Cert.Hand.Spec

end
-- ==== Proof.Inputs.lean ====
/- Arrays read by coordinates, the table row an index word denotes, and the specification's inputs assembled from the gathered arrays. -/
import proofs.«402386_j49916109914289_3_alg».proof.Proof.Spec
import Idealize.ShloMosaic.Lib.ValueIdx

noncomputable section

namespace Cert.Hand

open Idealize.ShloMosaic Idealize.ShloMosaic.ValueIdx

def at1 {α : Type} {n0 : Nat} (x : (⟨1, ![n0]⟩ : Shape).Idx → α) (a : Fin n0) : α := x (ix1 a)
def at2 {α : Type} {n0 n1 : Nat} (x : (⟨2, ![n0, n1]⟩ : Shape).Idx → α) (a : Fin n0) (b : Fin n1) : α := x (ix2 a b)
def at3 {α : Type} {n0 n1 n2 : Nat} (x : (⟨3, ![n0, n1, n2]⟩ : Shape).Idx → α) (a : Fin n0) (b : Fin n1) (c : Fin n2) : α :=
  x (ix3 a b c)

def rowOf (w : BitVec 32) : Fin 50000 := ⟨min w.toInt.toNat 49999, by omega⟩

def kOf (ids : (⟨2, ![256, 10]⟩ : Shape).Idx → BitVec 32) (b : Fin 256) (c : Fin 10) : Fin 50000 := rowOf (ids (ix2 b c))

def inpOf (cen : (⟨2, ![256, 256]⟩ : Shape).Idx → EReal) (ctx : (⟨3, ![256, 10, 256]⟩ : Shape).Idx → EReal)
    (pm pv : (⟨2, ![256, 256]⟩ : Shape).Idx → EReal)
    (encW : (⟨2, ![512, 512]⟩ : Shape).Idx → EReal) (encb : (⟨1, ![512]⟩ : Shape).Idx → EReal)
    (meanW : (⟨2, ![256, 512]⟩ : Shape).Idx → EReal) (meanb : (⟨1, ![256]⟩ : Shape).Idx → EReal)
    (varW : (⟨2, ![256, 512]⟩ : Shape).Idx → EReal) (varb : (⟨1, ![256]⟩ : Shape).Idx → EReal)
    (vW : (⟨2, ![50000, 256]⟩ : Shape).Idx → EReal) (vb : (⟨1, ![50000]⟩ : Shape).Idx → EReal)
    (eps : (⟨1, ![256]⟩ : Shape).Idx → EReal) (ids : (⟨2, ![256, 10]⟩ : Shape).Idx → BitVec 32) : Spec.Inp where
  cen := at2 cen
  ctx := at3 ctx
  pm := at2 pm
  pv := at2 pv
  encW := at2 encW
  encb := at1 encb
  meanW := at2 meanW
  meanb := at1 meanb
  varW := at2 varW
  varb := at1 varb
  eps := at1 eps
  vW := at2 vW
  vb := at1 vb
  k := kOf ids

end Cert.Hand

end
-- ==== Proof.KI.Tail.lean ====
/- The last host stretch at an index: the two cores' pairs joined into each row's log-sum-exp, the context logits, and the loss. -/
import proofs.«402386_j49916109914289_3_alg».proof.Proof.Gen.KernelIdeal.Launch
import proofs.«402386_j49916109914289_3_alg».proof.Proof.Inputs
import Idealize.ShloMosaic.Lib.StableHlo.Run
import Idealize.ShloMosaic.Lib.Pipeline.Value
import Idealize.ShloMosaic.Lib.ValueIdx
import Idealize.ShloMosaic.Lib.ValueIdxRank1
import Idealize.ShloMosaic.PureOps.Ideal.Laws

noncomputable section

namespace Cert.KernelIdeal.Hand

open Cert.KernelIdeal Cert.KernelIdeal.Gen Cert.Hand
open Idealize.ShloMosaic Idealize.ShloMosaic.TcCoe Idealize.ShloMosaic.ValueIdx Idealize.SL.Sem Idealize.ShloMosaic.StableHlo

namespace Tail

variable {F : FTy → Type} [FloatOps F]

def half0 (x : (⟨S2x256x1, .f32⟩ : BufTy).Contents (Elt F)) : (⟨S256, .f32⟩ : BufTy).Contents (Elt F) :=
  shapeCast S256 (extractStridedSlice S1x256x1 ![0, 0, 0] x slices_S2x256x1_S1x256x1_0_0_0) shapeCasts_S1x256x1_S256
def half1 (x : (⟨S2x256x1, .f32⟩ : BufTy).Contents (Elt F)) : (⟨S256, .f32⟩ : BufTy).Contents (Elt F) :=
  shapeCast S256 (extractStridedSlice S1x256x1 ![1, 0, 0] x slices_S2x256x1_S1x256x1_1_0_0) shapeCasts_S1x256x1_S256

def vM (M : (⟨S2x256x1, .f32⟩ : BufTy).Contents (Elt F)) : (⟨S256, .f32⟩ : BufTy).Contents (Elt F) :=
  maximumf (half0 M) (half1 M)

def vS (M L : (⟨S2x256x1, .f32⟩ : BufTy).Contents (Elt F)) : (⟨S256, .f32⟩ : BufTy).Contents (Elt F) :=
  addf (mulf (Host.exp (subf (half0 M) (vM M))) (half0 L)) (mulf (Host.exp (subf (half1 M) (vM M))) (half1 L))

def vLse (M L : (⟨S2x256x1, .f32⟩ : BufTy).Contents (Elt F)) : (⟨S256, .f32⟩ : BufTy).Contents (Elt F) :=
  addf (vM M) (Host.log (vS M L))

def vNorm (ids : (⟨S256x10, .i32⟩ : BufTy).Contents (Elt F)) : (⟨S256x10, .i32⟩ : BufTy).Contents (Elt F) :=
  select (cmpi .slt ids (broadcastInDim S256x10 ![] bcast_S_S256x10 (constantI S_ 32 0#32)))
    (addi ids (broadcastInDim S256x10 ![] bcast_S_S256x10 (constantI S_ 32 50000#32))) ids

def vStart (ids : (⟨S256x10, .i32⟩ : BufTy).Contents (Elt F)) : (⟨S256x10x1, .i32⟩ : BufTy).Contents (Elt F) :=
  broadcastInDim S256x10x1 ![0, 1] bcast_S256x10_S256x10x1_0_1 (vNorm (F := F) ids)

def vRows (vW : (⟨S50000x256, .f32⟩ : BufTy).Contents (Elt F)) (ids : (⟨S256x10, .i32⟩ : BufTy).Contents (Elt F)) :
    (⟨S256x10x256, .f32⟩ : BufTy).Contents (Elt F) :=
  Host.gather gather_S50000x256_S256x10x1_S256x10x256_2_0_n_n_0_2_1256 vW (vStart (F := F) ids)

def vBias (vb : (⟨S50000, .f32⟩ : BufTy).Contents (Elt F)) (ids : (⟨S256x10, .i32⟩ : BufTy).Contents (Elt F)) :
    (⟨S256x10, .f32⟩ : BufTy).Contents (Elt F) :=
  Host.gather gather_S50000_S256x10x1_S256x10_n_0_n_n_0_2_1 vb (vStart (F := F) ids)

def vZ3 (Z : (⟨S256x256, .f32⟩ : BufTy).Contents (Elt F)) : (⟨S256x10x256, .f32⟩ : BufTy).Contents (Elt F) :=
  broadcastInDim S256x10x256 ![0, 1, 2] bcast_S256x1x256_S256x10x256_0_1_2
    (broadcastInDim S256x1x256 ![0, 2] bcast_S256x256_S256x1x256_0_2 Z)

def vLogit (Z : (⟨S256x256, .f32⟩ : BufTy).Contents (Elt F)) (vW : (⟨S50000x256, .f32⟩ : BufTy).Contents (Elt F))
    (vb : (⟨S50000, .f32⟩ : BufTy).Contents (Elt F)) (ids : (⟨S256x10, .i32⟩ : BufTy).Contents (Elt F)) :
    (⟨S256x10, .f32⟩ : BufTy).Contents (Elt F) :=
  addf (Host.reduceAdd (mulf (vZ3 Z) (vRows vW ids)) (constant S_ .f32 0x00000000#32) reducesTo_S256x10x256_S256x10_d2 h_S_)
    (vBias vb ids)

def vRacc (Z : (⟨S256x256, .f32⟩ : BufTy).Contents (Elt F)) (vW : (⟨S50000x256, .f32⟩ : BufTy).Contents (Elt F))
    (vb : (⟨S50000, .f32⟩ : BufTy).Contents (Elt F)) (ids : (⟨S256x10, .i32⟩ : BufTy).Contents (Elt F)) :
    (⟨S256, .f32⟩ : BufTy).Contents (Elt F) :=
  Host.reduceAdd (vLogit Z vW vb ids) (constant S_ .f32 0x00000000#32) reducesTo_S256x10_S256_d1 h_S_

def vTerm (M L : (⟨S2x256x1, .f32⟩ : BufTy).Contents (Elt F)) (Z : (⟨S256x256, .f32⟩ : BufTy).Contents (Elt F))
    (vW : (⟨S50000x256, .f32⟩ : BufTy).Contents (Elt F)) (vb : (⟨S50000, .f32⟩ : BufTy).Contents (Elt F))
    (ids : (⟨S256x10, .i32⟩ : BufTy).Contents (Elt F)) (KL : (⟨S256, .f32⟩ : BufTy).Contents (Elt F)) :
    (⟨S256, .f32⟩ : BufTy).Contents (Elt F) :=
  subf (subf (vRacc Z vW vb ids)
    (mulf (broadcastInDim S256 ![] bcast_S_S256 (constant S_ .f32 0x41200000#32)) (vLse M L))) KL

def vLoss (M L : (⟨S2x256x1, .f32⟩ : BufTy).Contents (Elt F)) (Z : (⟨S256x256, .f32⟩ : BufTy).Contents (Elt F))
    (vW : (⟨S50000x256, .f32⟩ : BufTy).Contents (Elt F)) (vb : (⟨S50000, .f32⟩ : BufTy).Contents (Elt F))
    (ids : (⟨S256x10, .i32⟩ : BufTy).Contents (Elt F)) (KL : (⟨S256, .f32⟩ : BufTy).Contents (Elt F)) :
    (⟨S_, .f32⟩ : BufTy).Contents (Elt F) :=
  Host.reduceAdd (vTerm M L Z vW vb ids KL) (constant S_ .f32 0x00000000#32) reducesTo_S256_S_d0 h_S_

set_option maxRecDepth 8192 in
set_option maxHeartbeats 4000000 in
theorem after_eq (W0 : Valuation τ sig (Elt F)) :
    StableHlo.after (hostOps2 (F := F)) W0 (Proc.devRef .tc main_v75)
      = vLoss (F := F) (W0 (Proc.devRef .tc main_v32_0)) (W0 (Proc.devRef .tc main_v32_1)) (W0 (Proc.devRef .tc main_v29_0))
          (W0 (Proc.devRef .tc main_arg11)) (W0 (Proc.devRef .tc main_arg12)) (W0 (Proc.devRef .tc main_arg1))
          (W0 (Proc.devRef .tc main_v30)) := by
  after_results_simp <;> rfl

section Read

local notation "G" => gather_S50000x256_S256x10x1_S256x10x256_2_0_n_n_0_2_1256

theorem half0_apply (x : (⟨S2x256x1, .f32⟩ : BufTy).Contents (Elt Ideal)) (b : Fin 256) :
    half0 (F := Ideal) x (ix1 b) = x (ix3 0 b 0) := by
  unfold half0
  refine (shapeCast_apply _ shapeCasts_S1x256x1_S256 (ix1 b) (ix3 0 b 0) ?_).trans ?_
  · rw [Shape.rowMajor_val_three, Shape.rowMajor_val_one]
    show ((0 : Fin 1).val * 256 + b.val) * 1 + (0 : Fin 1).val = b.val
    simp
  · exact extractStridedSlice_apply _ x slices_S2x256x1_S1x256x1_0_0_0 (ix3 0 b 0) (ix3 0 b 0)
      (fun a => by match a with | ⟨0, _⟩ => rfl | ⟨1, _⟩ => (show b.val = 0 + b.val; omega) | ⟨2, _⟩ => rfl)

theorem half1_apply (x : (⟨S2x256x1, .f32⟩ : BufTy).Contents (Elt Ideal)) (b : Fin 256) :
    half1 (F := Ideal) x (ix1 b) = x (ix3 1 b 0) := by
  unfold half1
  refine (shapeCast_apply _ shapeCasts_S1x256x1_S256 (ix1 b) (ix3 0 b 0) ?_).trans ?_
  · rw [Shape.rowMajor_val_three, Shape.rowMajor_val_one]
    show ((0 : Fin 1).val * 256 + b.val) * 1 + (0 : Fin 1).val = b.val
    simp
  · exact extractStridedSlice_apply _ x slices_S2x256x1_S1x256x1_1_0_0 (ix3 0 b 0) (ix3 1 b 0)
      (fun a => by match a with | ⟨0, _⟩ => rfl | ⟨1, _⟩ => (show b.val = 0 + b.val; omega) | ⟨2, _⟩ => rfl)

theorem vLse_apply (M L : (⟨S2x256x1, .f32⟩ : BufTy).Contents (Elt Ideal)) (b : Fin 256) :
    vLse (F := Ideal) M L (ix1 b)
      = max (M (ix3 0 b 0)) (M (ix3 1 b 0))
        + Ideal.log (Ideal.exp (M (ix3 0 b 0) - max (M (ix3 0 b 0)) (M (ix3 1 b 0))) * L (ix3 0 b 0)
          + Ideal.exp (M (ix3 1 b 0) - max (M (ix3 0 b 0)) (M (ix3 1 b 0))) * L (ix3 1 b 0)) := by
  rw [← half0_apply M b, ← half1_apply M b, ← half0_apply L b, ← half1_apply L b]
  rfl

theorem vNorm_of_nonneg (ids : (⟨S256x10, .i32⟩ : BufTy).Contents (Elt Ideal)) (i : S256x10.Idx)
    (h : 0 ≤ (ids i : BitVec 32).toInt) : vNorm (F := Ideal) ids i = ids i := by
  show Scalar.select (IntOp.cmpi .slt (ids i) 0#32) (IntOp.addi (ids i) 50000#32) (ids i) = ids i
  have h0 : IntOp.cmpi .slt (ids i : BitVec 32) 0#32 = 0#1 := by
    unfold IntOp.cmpi
    have hs : (ids i : BitVec 32).slt 0#32 = false := by
      rw [BitVec.slt]; simp only [BitVec.toInt_zero, decide_eq_false_iff_not, not_lt]; exact h
    rw [hs]; rfl
  rw [h0, select_zero]

theorem vStart_apply (ids : (⟨S256x10, .i32⟩ : BufTy).Contents (Elt Ideal)) (b : Fin 256) (c : Fin 10) :
    vStart (F := Ideal) ids (ix3 b c 0) = vNorm (F := Ideal) ids (ix2 b c) := by
  unfold vStart
  exact broadcastInDim_apply _ bcast_S256x10_S256x10x1_0_1 _ (ix3 b c 0) (ix2 b c)
    (fun a => by match a with | ⟨0, _⟩ => rfl | ⟨1, _⟩ => rfl)

theorem vBias_apply (vb : (⟨S50000, .f32⟩ : BufTy).Contents (Elt Ideal)) (ids : (⟨S256x10, .i32⟩ : BufTy).Contents (Elt Ideal))
    (b : Fin 256) (c : Fin 10) :
    vBias (F := Ideal) vb ids (ix2 b c) = vb (ix1 (rowOf (vNorm (F := Ideal) ids (ix2 b c)))) := by
  unfold vBias
  refine (gather_take_apply (N := 50000) (R := 256) (C := 10) (by decide) gather_S50000_S256x10x1_S256x10_n_0_n_n_0_2_1_wf
    vb (vStart (F := Ideal) ids) (ix2 b c)).trans ?_
  have e : takeIdx (ix2 b c) = (ix3 b c 0 : (⟨3, ![256, 10, 1]⟩ : Shape).Idx) := by
    funext a; match a with | ⟨0, _⟩ => rfl | ⟨1, _⟩ => rfl | ⟨2, _⟩ => rfl
  refine congrArg vb (congrArg ix1 (Fin.ext ?_))
  show min (vStart (F := Ideal) ids (takeIdx (ix2 b c)) : BitVec 32).toInt.toNat (50000 - 1) = min (vNorm (F := Ideal) ids (ix2 b c) : BitVec 32).toInt.toNat 49999
  rw [e, vStart_apply]

theorem vRows_apply (vW : (⟨S50000x256, .f32⟩ : BufTy).Contents (Elt Ideal)) (ids : (⟨S256x10, .i32⟩ : BufTy).Contents (Elt Ideal))
    (b : Fin 256) (c : Fin 10) (d : Fin 256) :
    vRows (F := Ideal) vW ids (ix3 b c d) = vW (ix2 (rowOf (vNorm (F := Ideal) ids (ix2 b c))) d) := by
  unfold vRows Host.gather
  refine congrArg vW (funext fun a => Fin.ext ?_)
  match a with
  | ⟨0, _⟩ =>
    show GatherDims.start G (ix3 b c d) (vStart (F := Ideal) ids) 0 + GatherDims.batchCoord G (ix3 b c d) 0 + GatherDims.offCoord G (ix3 b c d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap G from List.mem_singleton.mpr rfl)]
    have hsi : GatherDims.siIdx G (ix3 b c d) ⟨List.idxOf (0 : Fin 2) (GatherDims.startIndexMap G),
        List.idxOf_lt_length_iff.2 (List.mem_singleton.mpr rfl)⟩ = (ix3 b c 0 : (⟨3, ![256, 10, 1]⟩ : Shape).Idx) := by
      funext k; refine Fin.ext ?_
      match k with
      | ⟨0, _⟩ => rfl
      | ⟨1, _⟩ => rfl
      | ⟨2, _⟩ => rfl
    rw [hsi, vStart_apply]
    rfl
  | ⟨1, _⟩ =>
    show GatherDims.start G (ix3 b c d) (vStart (F := Ideal) ids) 1 + GatherDims.batchCoord G (ix3 b c d) 1 + GatherDims.offCoord G (ix3 b c d) 1 = d.val
    rw [GatherDims.batchCoord_eq_zero _ _ _ List.not_mem_nil]
    unfold GatherDims.start
    rw [dif_neg (show (1 : Fin 2) ∉ GatherDims.startIndexMap G by decide)]
    unfold GatherDims.offCoord
    rw [dif_pos (show (1 : Fin 2) ∈ GatherDims.sKept G by decide)]
    simp only [Nat.zero_add, Nat.add_zero]
    rfl

theorem vZ3_apply (Z : (⟨S256x256, .f32⟩ : BufTy).Contents (Elt Ideal)) (b : Fin 256) (c : Fin 10) (d : Fin 256) :
    vZ3 (F := Ideal) Z (ix3 b c d) = Z (ix2 b d) := by
  unfold vZ3
  refine (broadcastInDim_apply _ bcast_S256x1x256_S256x10x256_0_1_2 _ (ix3 b c d) (ix3 b 0 d)
    (fun a => by match a with | ⟨0, _⟩ => rfl | ⟨1, _⟩ => rfl | ⟨2, _⟩ => rfl)).trans ?_
  exact broadcastInDim_apply _ bcast_S256x256_S256x1x256_0_2 Z (ix3 b 0 d) (ix2 b d)
    (fun a => by match a with | ⟨0, _⟩ => rfl | ⟨1, _⟩ => rfl)

theorem vLogit_apply (Z : (⟨S256x256, .f32⟩ : BufTy).Contents (Elt Ideal)) (vW : (⟨S50000x256, .f32⟩ : BufTy).Contents (Elt Ideal))
    (vb : (⟨S50000, .f32⟩ : BufTy).Contents (Elt Ideal)) (ids : (⟨S256x10, .i32⟩ : BufTy).Contents (Elt Ideal))
    (b : Fin 256) (c : Fin 10) :
    vLogit (F := Ideal) Z vW vb ids (ix2 b c)
      = (∑ d : Fin 256, Z (ix2 b d) * vW (ix2 (rowOf (vNorm (F := Ideal) ids (ix2 b c))) d))
        + vb (ix1 (rowOf (vNorm (F := Ideal) ids (ix2 b c)))) := by
  unfold vLogit
  rw [addf_apply, vBias_apply]
  refine congrArg (· + _) ?_
  simp only [Host.reduceAdd, Ideal.hostReduceAdd_def]
  rw [Ideal.hostReduceAdd_single reducesTo_S256x10x256_S256x10_d2 (by decide), constant_apply, Ideal.ofBits_zero_f32, zero_add]
  refine Finset.sum_congr rfl fun (d : Fin 256) _ => ?_
  have e : ∀ h : S256x10x256.Reduces [2] S256x10, h.lift (ix2 b c) d = ix3 b c d := fun h =>
    funext fun a => Fin.ext (by match a with | ⟨0, _⟩ => rfl | ⟨1, _⟩ => rfl | ⟨2, _⟩ => rfl)
  rw [e, mulf_apply, vZ3_apply, vRows_apply]

theorem vRacc_apply (Z : (⟨S256x256, .f32⟩ : BufTy).Contents (Elt Ideal)) (vW : (⟨S50000x256, .f32⟩ : BufTy).Contents (Elt Ideal))
    (vb : (⟨S50000, .f32⟩ : BufTy).Contents (Elt Ideal)) (ids : (⟨S256x10, .i32⟩ : BufTy).Contents (Elt Ideal)) (b : Fin 256) :
    vRacc (F := Ideal) Z vW vb ids (ix1 b) = ∑ c : Fin 10, vLogit (F := Ideal) Z vW vb ids (ix2 b c) := by
  unfold vRacc
  simp only [Host.reduceAdd, Ideal.hostReduceAdd_def]
  rw [Ideal.hostReduceAdd_single reducesTo_S256x10_S256_d1 (by decide), constant_apply, Ideal.ofBits_zero_f32, zero_add]
  refine Finset.sum_congr rfl fun (c : Fin 10) _ => ?_
  have e : ∀ h : S256x10.Reduces [1] S256, h.lift (ix1 b) c = ix2 b c := fun h =>
    funext fun a => Fin.ext (by match a with | ⟨0, _⟩ => rfl | ⟨1, _⟩ => rfl)
  rw [e]

theorem vTerm_apply (M L : (⟨S2x256x1, .f32⟩ : BufTy).Contents (Elt Ideal)) (Z : (⟨S256x256, .f32⟩ : BufTy).Contents (Elt Ideal))
    (vW : (⟨S50000x256, .f32⟩ : BufTy).Contents (Elt Ideal)) (vb : (⟨S50000, .f32⟩ : BufTy).Contents (Elt Ideal))
    (ids : (⟨S256x10, .i32⟩ : BufTy).Contents (Elt Ideal)) (KL : (⟨S256, .f32⟩ : BufTy).Contents (Elt Ideal)) (b : Fin 256) :
    vTerm (F := Ideal) M L Z vW vb ids KL (ix1 b)
      = (vRacc (F := Ideal) Z vW vb ids (ix1 b) - Spec.c10 * vLse (F := Ideal) M L (ix1 b)) - KL (ix1 b) := rfl

theorem vLoss_apply (M L : (⟨S2x256x1, .f32⟩ : BufTy).Contents (Elt Ideal)) (Z : (⟨S256x256, .f32⟩ : BufTy).Contents (Elt Ideal))
    (vW : (⟨S50000x256, .f32⟩ : BufTy).Contents (Elt Ideal)) (vb : (⟨S50000, .f32⟩ : BufTy).Contents (Elt Ideal))
    (ids : (⟨S256x10, .i32⟩ : BufTy).Contents (Elt Ideal)) (KL : (⟨S256, .f32⟩ : BufTy).Contents (Elt Ideal)) :
    vLoss (F := Ideal) M L Z vW vb ids KL ix0 = ∑ b : Fin 256, vTerm (F := Ideal) M L Z vW vb ids KL (ix1 b) := by
  unfold vLoss
  simp only [Host.reduceAdd, Ideal.hostReduceAdd_def]
  rw [Ideal.hostReduceAdd_total reducesTo_S256_S_d0 (fun b => b.elim0), constant_apply, Ideal.ofBits_zero_f32, zero_add]
  exact (Equiv.sum_comp (idxEquiv1 (n := 256)).symm (vTerm (F := Ideal) M L Z vW vb ids KL)).symm

end Read

theorem vLoss_value_wrapped (M L : (⟨S2x256x1, .f32⟩ : BufTy).Contents (Elt Ideal)) (Z : (⟨S256x256, .f32⟩ : BufTy).Contents (Elt Ideal))
    (vW : (⟨S50000x256, .f32⟩ : BufTy).Contents (Elt Ideal)) (vb : (⟨S50000, .f32⟩ : BufTy).Contents (Elt Ideal))
    (ids : (⟨S256x10, .i32⟩ : BufTy).Contents (Elt Ideal)) (KL : (⟨S256, .f32⟩ : BufTy).Contents (Elt Ideal)) :
    vLoss (F := Ideal) M L Z vW vb ids KL ix0
      = ∑ b : Fin 256, (((∑ c : Fin 10, ((∑ d : Fin 256, Z (ix2 b d) * vW (ix2 (rowOf (vNorm (F := Ideal) ids (ix2 b c))) d))
              + vb (ix1 (rowOf (vNorm (F := Ideal) ids (ix2 b c))))))
          - Spec.c10 * (max (M (ix3 0 b 0)) (M (ix3 1 b 0))
              + Ideal.log (Ideal.exp (M (ix3 0 b 0) - max (M (ix3 0 b 0)) (M (ix3 1 b 0))) * L (ix3 0 b 0)
                  + Ideal.exp (M (ix3 1 b 0) - max (M (ix3 0 b 0)) (M (ix3 1 b 0))) * L (ix3 1 b 0))))
          - KL (ix1 b)) := by
  rw [vLoss_apply]
  refine Finset.sum_congr rfl fun b _ => ?_
  rw [vTerm_apply, vRacc_apply, vLse_apply]
  exact congrArg (fun x => (x - _) - _) (Finset.sum_congr rfl fun c _ => vLogit_apply Z vW vb ids b c)

theorem vLoss_value (M L : (⟨S2x256x1, .f32⟩ : BufTy).Contents (Elt Ideal)) (Z : (⟨S256x256, .f32⟩ : BufTy).Contents (Elt Ideal))
    (vW : (⟨S50000x256, .f32⟩ : BufTy).Contents (Elt Ideal)) (vb : (⟨S50000, .f32⟩ : BufTy).Contents (Elt Ideal))
    (ids : (⟨S256x10, .i32⟩ : BufTy).Contents (Elt Ideal)) (KL : (⟨S256, .f32⟩ : BufTy).Contents (Elt Ideal))
    (hids : ∀ (b : Fin 256) (c : Fin 10), 0 ≤ (ids (ix2 b c) : BitVec 32).toInt) :
    vLoss (F := Ideal) M L Z vW vb ids KL ix0
      = ∑ b : Fin 256, (((∑ c : Fin 10, ((∑ d : Fin 256, Z (ix2 b d) * vW (ix2 (kOf ids b c) d)) + vb (ix1 (kOf ids b c))))
          - Spec.c10 * (max (M (ix3 0 b 0)) (M (ix3 1 b 0))
              + Ideal.log (Ideal.exp (M (ix3 0 b 0) - max (M (ix3 0 b 0)) (M (ix3 1 b 0))) * L (ix3 0 b 0)
                  + Ideal.exp (M (ix3 1 b 0) - max (M (ix3 0 b 0)) (M (ix3 1 b 0))) * L (ix3 1 b 0))))
          - KL (ix1 b)) := by
  rw [vLoss_value_wrapped]
  have hk : ∀ (b : Fin 256) (c : Fin 10), rowOf (vNorm (F := Ideal) ids (ix2 b c)) = kOf ids b c := fun b c => by
    rw [vNorm_of_nonneg ids (ix2 b c) (hids b c)]; rfl
  simp only [hk]

section Result

abbrev aZ (W0 : Valuation τ sig (Elt F)) : (⟨S256x256, .f32⟩ : BufTy).Contents (Elt F) := W0 (Proc.devRef .tc main_v29_0)
abbrev aW (W0 : Valuation τ sig (Elt F)) : (⟨S50000x256, .f32⟩ : BufTy).Contents (Elt F) := W0 (Proc.devRef .tc main_arg11)
abbrev aB (W0 : Valuation τ sig (Elt F)) : (⟨S50000, .f32⟩ : BufTy).Contents (Elt F) := W0 (Proc.devRef .tc main_arg12)
abbrev aIds (W0 : Valuation τ sig (Elt F)) : (⟨S256x10, .i32⟩ : BufTy).Contents (Elt F) := W0 (Proc.devRef .tc main_arg1)
abbrev aKL (W0 : Valuation τ sig (Elt F)) : (⟨S256, .f32⟩ : BufTy).Contents (Elt F) := W0 (Proc.devRef .tc main_v30)
abbrev aM (W0 : Valuation τ sig (Elt F)) : (⟨S2x256x1, .f32⟩ : BufTy).Contents (Elt F) := W0 (Proc.devRef .tc main_v32_0)
abbrev aL (W0 : Valuation τ sig (Elt F)) : (⟨S2x256x1, .f32⟩ : BufTy).Contents (Elt F) := W0 (Proc.devRef .tc main_v32_1)

variable (W0 : Valuation τ sig (Elt Ideal))

theorem tail_value
    (hids : ∀ (b : Fin 256) (c : Fin 10), 0 ≤ (aIds W0 (ix2 b c) : BitVec 32).toInt ∧ (aIds W0 (ix2 b c) : BitVec 32).toInt < 50000) :
    StableHlo.after (hostOps2 (F := Ideal)) W0 (Proc.devRef .tc main_v75) ix0
      = ∑ b : Fin 256, (((∑ c : Fin 10, ((∑ d : Fin 256, aZ W0 (ix2 b d) * aW W0 (ix2 (kOf (aIds W0) b c) d)) + aB W0 (ix1 (kOf (aIds W0) b c))))
          - Spec.c10 * (max (aM W0 (ix3 0 b 0)) (aM W0 (ix3 1 b 0))
              + Ideal.log (Ideal.exp (aM W0 (ix3 0 b 0) - max (aM W0 (ix3 0 b 0)) (aM W0 (ix3 1 b 0))) * aL W0 (ix3 0 b 0)
                  + Ideal.exp (aM W0 (ix3 1 b 0) - max (aM W0 (ix3 0 b 0)) (aM W0 (ix3 1 b 0))) * aL W0 (ix3 1 b 0))))
          - aKL W0 (ix1 b)) :=
  (congrFun (after_eq (F := Ideal) W0) ix0).trans
    (vLoss_value (aM W0) (aL W0) (aZ W0) (aW W0) (aB W0) (aIds W0) (aKL W0) (fun b c => (hids b c).1))

end Result

end Tail

end Cert.KernelIdeal.Hand

end
-- ==== Proof.KI.Val0.lean ====
/- Region 0's payloads at an index: its two outputs are the specification's sample and divergence. -/
import proofs.«402386_j49916109914289_3_alg».proof.Proof.KI.Reg0
import proofs.«402386_j49916109914289_3_alg».proof.Proof.Inputs
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand.Val0

open Cert.KernelIdeal Cert.KernelIdeal.Gen
open Idealize.ShloMosaic Idealize.ShloMosaic.ValueIdx Idealize.ShloMosaic.TcCoe Idealize.SL.Sem
open Idealize.ShloMosaic.Pipeline (Dat)
open Cert.Hand

section Layout
variable {α : Type}

theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem rowBroadcast_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

end Layout

theorem laneSum_apply (src : FVec Ideal S128x256 .f32) (h : S128x256.Reduces [1] S128) (hφ : FKind.Formats .f32)
    (hacc : (0x00000000#32 : BitVec 32) = 0x00000000#32) (hc : S128.ShapeCasts S128x1) (r : Fin 128) (u : Fin 1) :
    shapeCast S128x1 (multiReduction .add [1] S128 src 0x00000000#32 h hφ hacc) hc (ix2 r u) = ∑ j : Fin 256, src (ix2 r j) := by
  refine (shapeCast_a_a1_apply _ hc r u).trans ?_
  refine (Ideal.multiReduction_add_single src 0x00000000#32 h hφ hacc (ix1 r)).trans ?_
  refine Finset.sum_congr rfl fun k _ => congrArg src ?_
  funext c
  apply Fin.ext
  rw [Shape.Reduces.lift_val]
  match c with
  | ⟨0, _⟩ => simp [Shape.Reduces.liftVal]
  | ⟨1, _⟩ => simp [Shape.Reduces.liftVal]

theorem lhs_mmA_0 (i : S128x512.Idx) (q : dot_S128x256_S256x512_S128x512_1_0_0_1_n_n.contr.Idx) :
    (dot_S128x256_S256x512_S128x512_1_0_0_1_n_n.lhsIdx i q 0).val = (i 0).val := by
  unfold DotDims.lhsIdx
  rw [dif_neg (show ¬(0 : Fin S128x256.rank) ∈ dot_S128x256_S256x512_S128x512_1_0_0_1_n_n.lhsBatch by decide), dif_pos (show (0 : Fin S128x256.rank) ∈ dot_S128x256_S256x512_S128x512_1_0_0_1_n_n.lhsNonContracting by decide)]
  rfl
theorem lhs_mmA_1 (i : S128x512.Idx) (q : dot_S128x256_S256x512_S128x512_1_0_0_1_n_n.contr.Idx) :
    (dot_S128x256_S256x512_S128x512_1_0_0_1_n_n.lhsIdx i q 1).val = (q ⟨0, by decide⟩).val :=
  dot_S128x256_S256x512_S128x512_1_0_0_1_n_n.lhsIdx_val_of_single rfl i q
theorem rhs_mmA_0 (i : S128x512.Idx) (q : dot_S128x256_S256x512_S128x512_1_0_0_1_n_n.contr.Idx) :
    (dot_S128x256_S256x512_S128x512_1_0_0_1_n_n.rhsIdx i q 0).val = (q ⟨0, by decide⟩).val :=
  dot_S128x256_S256x512_S128x512_1_0_0_1_n_n.rhsIdx_val_of_single rfl i q
theorem rhs_mmA_1 (i : S128x512.Idx) (q : dot_S128x256_S256x512_S128x512_1_0_0_1_n_n.contr.Idx) :
    (dot_S128x256_S256x512_S128x512_1_0_0_1_n_n.rhsIdx i q 1).val = (i 1).val := by
  unfold DotDims.rhsIdx
  rw [dif_neg (show ¬(1 : Fin S256x512.rank) ∈ dot_S128x256_S256x512_S128x512_1_0_0_1_n_n.rhsBatch by decide), dif_pos (show (1 : Fin S256x512.rank) ∈ dot_S128x256_S256x512_S128x512_1_0_0_1_n_n.rhsNonContracting by decide)]
  rfl

theorem mmA_apply {φ₁ φ₂ : FTy} (lhs : FVec Ideal S128x256 φ₁) (rhs : FVec Ideal S256x512 φ₂) (r : Fin 128) (e : Fin 512) :
    matmul dot_S128x256_S256x512_S128x512_1_0_0_1_n_n none lhs rhs (constant (F := Ideal) S128x512 .f32 0x00000000#32) (ix2 r e)
      = ∑ d : Fin 256, lhs (ix2 r d) * rhs (ix2 d e) := by
  simp only [matmul]
  rw [Ideal.matmul_constant_zero_apply, ← Equiv.sum_comp (ValueIdx.contrEquiv1 dot_S128x256_S256x512_S128x512_1_0_0_1_n_n 256 rfl rfl).symm]
  refine Finset.sum_congr rfl fun k _ => ?_
  have hk := ValueIdx.contrEquiv1_symm_val dot_S128x256_S256x512_S128x512_1_0_0_1_n_n 256 rfl rfl k
  have el : dot_S128x256_S256x512_S128x512_1_0_0_1_n_n.lhsIdx (ix2 r e) ((ValueIdx.contrEquiv1 dot_S128x256_S256x512_S128x512_1_0_0_1_n_n 256 rfl rfl).symm k) = ix2 r k := funext fun a => Fin.ext (by
    match a with
    | ⟨0, _⟩ => exact lhs_mmA_0 _ _
    | ⟨1, _⟩ => exact (lhs_mmA_1 _ _).trans hk)
  have er : dot_S128x256_S256x512_S128x512_1_0_0_1_n_n.rhsIdx (ix2 r e) ((ValueIdx.contrEquiv1 dot_S128x256_S256x512_S128x512_1_0_0_1_n_n 256 rfl rfl).symm k) = ix2 k e := funext fun a => Fin.ext (by
    match a with
    | ⟨0, _⟩ => exact (rhs_mmA_0 _ _).trans hk
    | ⟨1, _⟩ => exact rhs_mmA_1 _ _)
  rw [el, er]

theorem lhs_mmB_0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide), dif_pos (show (0 : Fin S128x512.rank) ∈ dot_S128x512_S512x256_S128x256_1_0_0_1_n_n.lhsNonContracting by decide)]
  rfl
theorem lhs_mmB_1 (i : S128x256.Idx) (q : dot_S128x512_S512x256_S128x256_1_0_0_1_n_n.contr.Idx) :
    (dot_S128x512_S512x256_S128x256_1_0_0_1_n_n.lhsIdx i q 1).val = (q ⟨0, by decide⟩).val :=
  dot_S128x512_S512x256_S128x256_1_0_0_1_n_n.lhsIdx_val_of_single rfl i q
theorem rhs_mmB_0 (i : S128x256.Idx) (q : dot_S128x512_S512x256_S128x256_1_0_0_1_n_n.contr.Idx) :
    (dot_S128x512_S512x256_S128x256_1_0_0_1_n_n.rhsIdx i q 0).val = (q ⟨0, by decide⟩).val :=
  dot_S128x512_S512x256_S128x256_1_0_0_1_n_n.rhsIdx_val_of_single rfl i q
theorem rhs_mmB_1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide), dif_pos (show (1 : Fin S512x256.rank) ∈ dot_S128x512_S512x256_S128x256_1_0_0_1_n_n.rhsNonContracting by decide)]
  rfl

theorem mmB_apply {φ₁ φ₂ : FTy} (lhs : FVec Ideal S128x512 φ₁) (rhs : FVec Ideal S512x256 φ₂) (r : Fin 128) (e : Fin 256) :
    matmul dot_S128x512_S512x256_S128x256_1_0_0_1_n_n none lhs rhs (constant (F := Ideal) S128x256 .f32 0x00000000#32) (ix2 r e)
      = ∑ d : Fin 512, lhs (ix2 r d) * rhs (ix2 d e) := by
  simp only [matmul]
  rw [Ideal.matmul_constant_zero_apply, ← Equiv.sum_comp (ValueIdx.contrEquiv1 dot_S128x512_S512x256_S128x256_1_0_0_1_n_n 512 rfl rfl).symm]
  refine Finset.sum_congr rfl fun k _ => ?_
  have hk := ValueIdx.contrEquiv1_symm_val dot_S128x512_S512x256_S128x256_1_0_0_1_n_n 512 rfl rfl k
  have el : dot_S128x512_S512x256_S128x256_1_0_0_1_n_n.lhsIdx (ix2 r e) ((ValueIdx.contrEquiv1 dot_S128x512_S512x256_S128x256_1_0_0_1_n_n 512 rfl rfl).symm k) = ix2 r k := funext fun a => Fin.ext (by
    match a with
    | ⟨0, _⟩ => exact lhs_mmB_0 _ _
    | ⟨1, _⟩ => exact (lhs_mmB_1 _ _).trans hk)
  have er : dot_S128x512_S512x256_S128x256_1_0_0_1_n_n.rhsIdx (ix2 r e) ((ValueIdx.contrEquiv1 dot_S128x512_S512x256_S128x256_1_0_0_1_n_n 512 rfl rfl).symm k) = ix2 k e := funext fun a => Fin.ext (by
    match a with
    | ⟨0, _⟩ => exact (rhs_mmB_0 _ _).trans hk
    | ⟨1, _⟩ => exact rhs_mmB_1 _ _)
  rw [el, er]

theorem zeroSplat_apply (s : Shape) (i : s.Idx) : broadcast s (Scalar.ofBits (F := Ideal) .f32 0x00000000#32) i = (0 : EReal) :=
  Ideal.ofBits_zero_f32

theorem pay2_apply (v5 : Vec Ideal S512x256 .f32) (i : S512x256.Idx) : k0_pay2 v5 i = v5 i := rfl

theorem pay4_apply (v10 : Vec Ideal S128x10x256 .f32) (i : S128x10x256.Idx) : k0_pay4 v10 i = v10 i := by
  unfold k0_pay4
  rw [truncf_apply, shapeCast_self]

theorem pay3_apply (v0 : Vec Ideal S128x256 .f32) (v3 : Vec Ideal S512x256 .f32) (r : Fin 128) (e : Fin 512) :
    k0_pay3 v0 v3 (ix2 r e) = ∑ d : Fin 256, v0 (ix2 r d) * v3 (ix2 e d) := by
  unfold k0_pay3
  rw [mmA_apply]
  refine Finset.sum_congr rfl fun d _ => ?_
  rw [truncf_apply, shapeCast_self, transpose_ix2_apply, truncf_apply]

theorem ctxProd_apply (v12 : FVec Ideal S128x10x256 .bf16) (v6 : FVec Ideal S512x256 .bf16) (o : ℕ)
    (hs : S128x10x256.Slices ![0, o, 0] S128x1x256) (hc : S128x1x256.ShapeCasts S128x256) (ht : S512x256.Transposes [1, 0] S256x512)
    (k : Fin 10) (hk : k.val = o) (r : Fin 128) (e : Fin 512) :
    matmul dot_S128x256_S256x512_S128x512_1_0_0_1_n_n none (shapeCast S128x256 (extractStridedSlice S128x1x256 ![0, o, 0] v12 hs) hc)
        (transpose S256x512 [1, 0] v6 ht) (constant (F := Ideal) S128x512 .f32 0x00000000#32) (ix2 r e)
      = ∑ d : Fin 256, v12 (ix3 r k d) * v6 (ix2 e d) := by
  rw [mmA_apply]
  refine Finset.sum_congr rfl fun d _ => ?_
  rw [shapeCast_a1b_ab_apply, slice3_axis1_apply o v12 hs r 0 d k (by rw [hk]; rfl), transpose_ix2_apply]

def term (v8 : FVec Ideal S128x512 .f32) (v9 : Vec Ideal S512 .f32) (v12 : FVec Ideal S128x10x256 .bf16) (v6 : FVec Ideal S512x256 .bf16)
    (k : Fin 10) (r : Fin 128) (e : Fin 512) : EReal :=
  max ((v8 (ix2 r e) + ∑ d : Fin 256, v12 (ix3 r k d) * v6 (ix2 e d)) + v9 (ix1 e)) 0

theorem reluTerm_apply (v8 : FVec Ideal S128x512 .f32) (v9 : Vec Ideal S512 .f32) (v12 : FVec Ideal S128x10x256 .bf16) (v6 : FVec Ideal S512x256 .bf16)
    (o : ℕ) (hs : S128x10x256.Slices ![0, o, 0] S128x1x256) (hc : S128x1x256.ShapeCasts S128x256) (ht : S512x256.Transposes [1, 0] S256x512)
    (h1 : S512.ShapeCasts S1x512) (h2 : S1x512.Broadcasts S128x512)
    (k : Fin 10) (hk : k.val = o) (r : Fin 128) (e : Fin 512) :
    maximumf (addf (addf v8 (matmul dot_S128x256_S256x512_S128x512_1_0_0_1_n_n none (shapeCast S128x256 (extractStridedSlice S128x1x256 ![0, o, 0] v12 hs) hc)
        (transpose S256x512 [1, 0] v6 ht) (constant (F := Ideal) S128x512 .f32 0x00000000#32))) (broadcastTo S128x512 (shapeCast S1x512 v9 h1) h2))
      (broadcast S128x512 (Scalar.ofBits (F := Ideal) .f32 0x00000000#32)) (ix2 r e) = term v8 v9 v12 v6 k r e := by
  rw [maximumf_apply, addf_apply, addf_apply, ctxProd_apply v12 v6 o hs hc ht k hk, rowBroadcast_apply, zeroSplat_apply]
  rfl

theorem pay5_apply (v0 : Vec Ideal S128x256 .f32) (v3 v5 : Vec Ideal S512x256 .f32) (v9 : Vec Ideal S512 .f32) (v10 : Vec Ideal S128x10x256 .f32)
    (r : Fin 128) (e : Fin 512) :
    k0_pay5 v0 v3 v5 v9 v10 (ix2 r e)
      = (0 + term (k0_pay3 v0 v3) v9 (k0_pay4 v10) (k0_pay2 v5) 0 r e) + term (k0_pay3 v0 v3) v9 (k0_pay4 v10) (k0_pay2 v5) 1 r e := by
  unfold k0_pay5
  simp only [addf_apply]
  rw [reluTerm_apply (o := 0) (k := 0) (hk := rfl), reluTerm_apply (o := 1) (k := 1) (hk := rfl), zeroSplat_apply]

theorem pay6_apply (v0 : Vec Ideal S128x256 .f32) (v3 v5 : Vec Ideal S512x256 .f32) (v10 : Vec Ideal S128x10x256 .f32)
    (r : Fin 128) (e : Fin 512) :
    k0_pay6 v0 v3 v5 v10 (ix2 r e)
      = k0_pay3 v0 v3 (ix2 r e) + ∑ d : Fin 256, k0_pay4 v10 (ix3 r 2 d) * k0_pay2 v5 (ix2 e d) := by
  unfold k0_pay6
  rw [addf_apply, ctxProd_apply (o := 2) (k := 2) (hk := rfl)]

theorem pay7_apply (v9 : Vec Ideal S512 .f32) (u : Fin 1) (e : Fin 512) : k0_pay7 v9 (ix2 u e) = v9 (ix1 e) := by
  unfold k0_pay7
  rw [shapeCast_a_1a_apply]

theorem pay8_apply (v6 : FVec Ideal S512x256 .bf16) (v8 : FVec Ideal S128x512 .f32) (v9 : Vec Ideal S512 .f32) (v12 : FVec Ideal S128x10x256 .bf16)
    (v35 v40 : FVec Ideal S128x512 .f32) (v41 : FVec Ideal S1x512 .f32) (r : Fin 128) (e : Fin 512) :
    k0_pay8 v6 v8 v9 v12 v35 v40 v41 (ix2 r e)
      = ((((v35 (ix2 r e) + max (v40 (ix2 r e) + v41 (ix2 (0 : Fin 1) e)) 0) + term v8 v9 v12 v6 3 r e) + term v8 v9 v12 v6 4 r e)
          + term v8 v9 v12 v6 5 r e) + term v8 v9 v12 v6 6 r e := by
  unfold k0_pay8
  simp only [addf_apply]
  rw [reluTerm_apply (o := 3) (k := 3) (hk := rfl), reluTerm_apply (o := 4) (k := 4) (hk := rfl),
    reluTerm_apply (o := 5) (k := 5) (hk := rfl), reluTerm_apply (o := 6) (k := 6) (hk := rfl),
    maximumf_apply, addf_apply, broadcastTo_1b_ab_apply, zeroSplat_apply]

theorem pay9_apply (v12 : FVec Ideal S128x10x256 .bf16) (r : Fin 128) (d : Fin 256) : k0_pay9 v12 (ix2 r d) = v12 (ix3 r 7 d) := by
  unfold k0_pay9
  rw [shapeCast_a1b_ab_apply, slice3_axis1_apply 7 v12 _ r 0 d 7 rfl]

theorem pay10_apply (v6 : FVec Ideal S512x256 .bf16) (v8 : FVec Ideal S128x512 .f32) (v9 : Vec Ideal S512 .f32) (v12 : FVec Ideal S128x10x256 .bf16)
    (v90 : FVec Ideal S128x512 .f32) (v92 : FVec Ideal S128x256 .bf16) (r : Fin 128) (e : Fin 512) :
    k0_pay10 v6 v8 v9 v12 v90 v92 (ix2 r e)
      = ((v90 (ix2 r e) + max ((v8 (ix2 r e) + ∑ d : Fin 256, v92 (ix2 r d) * v6 (ix2 e d)) + v9 (ix1 e)) 0) + term v8 v9 v12 v6 8 r e)
          + term v8 v9 v12 v6 9 r e := by
  unfold k0_pay10
  rw [truncf_apply]
  simp only [addf_apply]
  rw [reluTerm_apply (o := 8) (k := 8) (hk := rfl), reluTerm_apply (o := 9) (k := 9) (hk := rfl),
    maximumf_apply, addf_apply, addf_apply, mmA_apply, rowBroadcast_apply, zeroSplat_apply]
  refine congrArg (fun x => ((v90 (ix2 r e) + max ((v8 (ix2 r e) + x) + v9 (ix1 e)) 0) + term v8 v9 v12 v6 8 r e) + term v8 v9 v12 v6 9 r e) ?_
  exact Finset.sum_congr rfl fun d _ => by rw [transpose_ix2_apply]

theorem sum_fin10 {M : Type*} [AddCommMonoid M] (f : Fin 10 → M) :
    ∑ c, f c = (((((((((0 + f 0) + f 1) + f 2) + f 3) + f 4) + f 5) + f 6) + f 7) + f 8) + f 9 := by
  have h : ∑ c, f c = f 0 + (f 1 + (f 2 + (f 3 + (f 4 + (f 5 + (f 6 + (f 7 + (f 8 + (f 9 + 0))))))))) := by
    simp only [Fin.sum_univ_succ, Fin.sum_univ_zero]; rfl
  rw [h]
  simp only [zero_add, add_zero, add_assoc]

theorem hidden_apply (v0 : Vec Ideal S128x256 .f32) (v3 v5 : Vec Ideal S512x256 .f32) (v9 : Vec Ideal S512 .f32) (v10 : Vec Ideal S128x10x256 .f32)
    (r : Fin 128) (e : Fin 512) :
    k0_pay10 (k0_pay2 v5) (k0_pay3 v0 v3) v9 (k0_pay4 v10)
        (k0_pay8 (k0_pay2 v5) (k0_pay3 v0 v3) v9 (k0_pay4 v10) (k0_pay5 v0 v3 v5 v9 v10) (k0_pay6 v0 v3 v5 v10) (k0_pay7 v9))
        (k0_pay9 (k0_pay4 v10)) (ix2 r e)
      = ∑ c : Fin 10, max (((∑ d : Fin 256, v0 (ix2 r d) * v3 (ix2 e d)) + ∑ d : Fin 256, v10 (ix3 r c d) * v5 (ix2 e d)) + v9 (ix1 e)) 0 := by
  rw [pay10_apply, pay8_apply, pay5_apply, pay6_apply, pay7_apply, sum_fin10]
  simp only [pay9_apply, term, pay3_apply, pay4_apply, pay2_apply]

section Pointwise
variable {s : Shape} {φ : FTy}
theorem exp_apply (a : FVec Ideal s φ) (i : s.Idx) : exp a i = Ideal.exp (a i) := rfl
theorem log_apply (a : FVec Ideal s φ) (i : s.Idx) : log a i = Ideal.log (a i) := rfl
theorem log1p_apply (a : FVec Ideal s φ) (i : s.Idx) : log1p a i = Ideal.log1p (a i) := rfl
theorem absf_apply (a : FVec Ideal s φ) (i : s.Idx) : absf a i = max (a i) (-(a i)) := rfl
end Pointwise

theorem cmp_one_self (x : EReal) : Ideal.cmp .one x x = 0#1 := by simp [Ideal.cmp]

theorem pay11_apply (v6 : FVec Ideal S512x256 .bf16) (v8 : FVec Ideal S128x512 .f32) (v9 : Vec Ideal S512 .f32) (v12 : FVec Ideal S128x10x256 .bf16)
    (v90 : FVec Ideal S128x512 .f32) (v92 : FVec Ideal S128x256 .bf16) (v125 : Vec Ideal S256x512 .f32) (v129 : Vec Ideal S256 .f32)
    (r : Fin 128) (j : Fin 256) :
    k0_pay11 v6 v8 v9 v12 v90 v92 v125 v129 (ix2 r j)
      = (∑ e : Fin 512, k0_pay10 v6 v8 v9 v12 v90 v92 (ix2 r e) * v125 (ix2 j e)) + v129 (ix1 j) := by
  unfold k0_pay11
  rw [addf_apply, mmB_apply, rowBroadcast_apply]
  refine congrArg (· + v129 (ix1 j)) ?_
  exact Finset.sum_congr rfl fun e _ => by rw [transpose_ix2_apply, truncf_apply]

theorem pay12_apply (v6 : FVec Ideal S512x256 .bf16) (v8 : FVec Ideal S128x512 .f32) (v9 : Vec Ideal S512 .f32) (v12 : FVec Ideal S128x10x256 .bf16)
    (v90 : FVec Ideal S128x512 .f32) (v92 : FVec Ideal S128x256 .bf16) (v133 : Vec Ideal S256x512 .f32)
    (r : Fin 128) (j : Fin 256) :
    k0_pay12 v6 v8 v9 v12 v90 v92 v133 (ix2 r j)
      = ∑ e : Fin 512, k0_pay10 v6 v8 v9 v12 v90 v92 (ix2 r e) * v133 (ix2 j e) := by
  unfold k0_pay12
  rw [mmB_apply]
  exact Finset.sum_congr rfl fun e _ => by rw [transpose_ix2_apply, truncf_apply]

theorem pay13_apply (v137 : Vec Ideal S256 .f32) (u : Fin 1) (j : Fin 256) : k0_pay13 v137 (ix2 u j) = v137 (ix1 j) := by
  unfold k0_pay13
  rw [shapeCast_a_1a_apply]

theorem pay14_apply (v136 : FVec Ideal S128x256 .f32) (v138 : FVec Ideal S1x256 .f32) (r : Fin 128) (j : Fin 256) :
    k0_pay14 v136 v138 (ix2 r j) = Spec.sp (v136 (ix2 r j) + v138 (ix2 (0 : Fin 1) j)) := by
  unfold k0_pay14
  rw [select_apply, cmpf_apply, Ideal.cmpf_def, cmp_one_self, select_zero]
  simp only [addf_apply, maximumf_apply, log1p_apply, exp_apply, subf_apply, absf_apply, broadcastTo_1b_ab_apply, zeroSplat_apply,
    sub_zero, zero_sub]
  rfl

theorem pay15_apply (v132 v136 : FVec Ideal S128x256 .f32) (v138 : FVec Ideal S1x256 .f32) (v155 : Vec Ideal S256 .f32)
    (r : Fin 128) (j : Fin 256) :
    k0_pay15 v132 v136 v138 v155 (ix2 r j)
      = v132 (ix2 r j) + Ideal.exp (Ideal.div (k0_pay14 v136 v138 (ix2 r j)) Spec.c2) * v155 (ix1 j) := by
  unfold k0_pay15
  rw [addf_apply, mulf_apply, exp_apply, divf_apply, rowBroadcast_apply]
  rfl

theorem pay16_apply (v166 : Vec Ideal S128x256 .f32) (i : S128x256.Idx) : k0_pay16 v166 i = v166 i := by
  unfold k0_pay16
  rw [shapeCast_self]

theorem pay17_apply (v132 v136 : FVec Ideal S128x256 .f32) (v138 : FVec Ideal S1x256 .f32) (v164 v166 : Vec Ideal S128x256 .f32)
    (r : Fin 128) (u : Fin 1) :
    k0_pay17 v132 v136 v138 v164 v166 (ix2 r u)
      = ((∑ j : Fin 256, Ideal.div (k0_pay14 v136 v138 (ix2 r j)) (v166 (ix2 r j)))
          + ∑ j : Fin 256, Ideal.div ((v164 (ix2 r j) - v132 (ix2 r j)) * (v164 (ix2 r j) - v132 (ix2 r j))) (v166 (ix2 r j)))
        - Spec.c256 := by
  unfold k0_pay17
  rw [subf_apply, addf_apply, laneSum_apply, laneSum_apply]
  simp only [divf_apply, mulf_apply, subf_apply, pay16_apply, shapeCast_self]
  rfl

theorem pay18_apply (v136 : FVec Ideal S128x256 .f32) (v138 : FVec Ideal S1x256 .f32) (v166 : Vec Ideal S128x256 .f32)
    (r : Fin 128) (u : Fin 1) :
    k0_pay18 v136 v138 v166 (ix2 r u)
      = ∑ j : Fin 256, (Ideal.log (v166 (ix2 r j)) - Ideal.log (k0_pay14 v136 v138 (ix2 r j))) := by
  unfold k0_pay18
  rw [laneSum_apply]
  simp only [subf_apply, log_apply, pay16_apply]

theorem pay1_apply (v178 v183 : FVec Ideal S128x1 .f32) (i : S128x1.Idx) :
    k0_pay1 v178 v183 i = Spec.chalf * (v178 i + v183 i) := rfl

theorem hz1 : (![0] : Fin 1 → ℕ) = fun _ => 0 := funext fun a => match a with | ⟨0, _⟩ => rfl
theorem hz2 : (![0, 0] : Fin 2 → ℕ) = fun _ => 0 := funext fun a => match a with | ⟨0, _⟩ => rfl | ⟨1, _⟩ => rfl
theorem hz3 : (![0, 0, 0] : Fin 3 → ℕ) = fun _ => 0 := funext fun a => match a with | ⟨0, _⟩ => rfl | ⟨1, _⟩ => rfl | ⟨2, _⟩ => rfl

theorem ld0 (x : Vec Ideal S128x256 .f32) : View.ld x r0_0 = x := View.ld_unit_zero (S := S128x256) hz2 _ x
theorem ld3 (x : Vec Ideal S512 .f32) : View.ld x r0_3 = x := View.ld_unit_zero (S := S512) hz1 _ x
theorem ld4 (x : Vec Ideal S128x10x256 .f32) : View.ld x r0_4 = x := View.ld_unit_zero (S := S128x10x256) hz3 _ x
theorem ld5 (x : Vec Ideal S256x512 .f32) : View.ld x r0_5 = x := View.ld_unit_zero (S := S256x512) hz2 _ x
theorem ld6 (x : Vec Ideal S256 .f32) : View.ld x r0_6 = x := View.ld_unit_zero (S := S256) hz1 _ x

def encLo (x : Vec Ideal S512x512 .f32) : Vec Ideal S512x256 .f32 := View.ld x r0_1

def encHi (x : Vec Ideal S512x512 .f32) : Vec Ideal S512x256 .f32 := View.ld x r0_2

theorem encLo_apply (x : Vec Ideal S512x512 .f32) (e : Fin 512) (d : Fin 256) :
    encLo x (ix2 e d) = x (ix2 e (Fin.castAdd 256 d)) := by
  show x (r0_1.idx (ix2 e d)) = _
  refine congrArg x (funext fun a => Fin.ext ?_)
  match a with
  | ⟨0, _⟩ => show 0 + 1 * e.val = e.val; omega
  | ⟨1, _⟩ => show 0 + 1 * d.val = d.val; omega

theorem encHi_apply (x : Vec Ideal S512x512 .f32) (e : Fin 512) (d : Fin 256) :
    encHi x (ix2 e d) = x (ix2 e (Fin.natAdd 256 d)) := by
  show x (r0_2.idx (ix2 e d)) = _
  refine congrArg x (funext fun a => Fin.ext ?_)
  match a with
  | ⟨0, _⟩ => show 0 + 1 * e.val = e.val; omega
  | ⟨1, _⟩ => show 256 + 1 * d.val = 256 + d.val; omega

section Block
variable (I : Spec.Inp) (ρ : Fin 128 → Fin 256)
variable (x0 : Vec Ideal S128x256 .f32) (x1 : Vec Ideal S128x10x256 .f32) (x2 : Vec Ideal S512x512 .f32) (x3 : Vec Ideal S512 .f32)
  (x4 : Vec Ideal S256x512 .f32) (x5 : Vec Ideal S256 .f32) (x6 : Vec Ideal S256x512 .f32) (x7 : Vec Ideal S256 .f32) (x8 : Vec Ideal S256 .f32)
  (x9 x10 : Vec Ideal S128x256 .f32)
variable (h0 : ∀ r d, x0 (ix2 r d) = I.cen (ρ r) d) (h1 : ∀ r c d, x1 (ix3 r c d) = I.ctx (ρ r) c d)
  (h2 : ∀ e k, x2 (ix2 e k) = I.encW e k) (h3 : ∀ e, x3 (ix1 e) = I.encb e)
  (h4 : ∀ j e, x4 (ix2 j e) = I.meanW j e) (h5 : ∀ j, x5 (ix1 j) = I.meanb j)
  (h6 : ∀ j e, x6 (ix2 j e) = I.varW j e) (h7 : ∀ j, x7 (ix1 j) = I.varb j)
  (h8 : ∀ j, x8 (ix1 j) = I.eps j)
  (h9 : ∀ r j, x9 (ix2 r j) = I.pm (ρ r) j) (h10 : ∀ r j, x10 (ix2 r j) = I.pv (ρ r) j)

include h0 h1 h2 h3 in
theorem hidden_block (r : Fin 128) (e : Fin 512) :
    k0_pay10 (k0_pay2 (View.ld x2 r0_2)) (k0_pay3 (View.ld x0 r0_0) (View.ld x2 r0_1)) (View.ld x3 r0_3) (k0_pay4 (View.ld x1 r0_4))
      (k0_pay8 (k0_pay2 (View.ld x2 r0_2)) (k0_pay3 (View.ld x0 r0_0) (View.ld x2 r0_1)) (View.ld x3 r0_3) (k0_pay4 (View.ld x1 r0_4))
        (k0_pay5 (View.ld x0 r0_0) (View.ld x2 r0_1) (View.ld x2 r0_2) (View.ld x3 r0_3) (View.ld x1 r0_4))
        (k0_pay6 (View.ld x0 r0_0) (View.ld x2 r0_1) (View.ld x2 r0_2) (View.ld x1 r0_4)) (k0_pay7 (View.ld x3 r0_3)))
      (k0_pay9 (k0_pay4 (View.ld x1 r0_4))) (ix2 r e) = Spec.h I (ρ r) e := by
  rw [hidden_apply, ld0, ld3, ld4, show (View.ld x2 r0_1 : Vec Ideal S512x256 .f32) = encLo x2 from rfl,
    show (View.ld x2 r0_2 : Vec Ideal S512x256 .f32) = encHi x2 from rfl]
  unfold Spec.h Spec.pre
  simp only [encLo_apply, encHi_apply, h0, h1, h2, h3]

include h0 h1 h2 h3 h4 h5 in
theorem mean_block (r : Fin 128) (j : Fin 256) :
    k0_pay11 (k0_pay2 (View.ld x2 r0_2)) (k0_pay3 (View.ld x0 r0_0) (View.ld x2 r0_1)) (View.ld x3 r0_3) (k0_pay4 (View.ld x1 r0_4))
      (k0_pay8 (k0_pay2 (View.ld x2 r0_2)) (k0_pay3 (View.ld x0 r0_0) (View.ld x2 r0_1)) (View.ld x3 r0_3) (k0_pay4 (View.ld x1 r0_4))
        (k0_pay5 (View.ld x0 r0_0) (View.ld x2 r0_1) (View.ld x2 r0_2) (View.ld x3 r0_3) (View.ld x1 r0_4))
        (k0_pay6 (View.ld x0 r0_0) (View.ld x2 r0_1) (View.ld x2 r0_2) (View.ld x1 r0_4)) (k0_pay7 (View.ld x3 r0_3)))
      (k0_pay9 (k0_pay4 (View.ld x1 r0_4))) (View.ld x4 r0_5) (View.ld x5 r0_6) (ix2 r j) = Spec.mean I (ρ r) j := by
  rw [pay11_apply, ld5, ld6]
  unfold Spec.mean
  simp only [hidden_block I ρ x0 x1 x2 x3 h0 h1 h2 h3, h4, h5]

include h0 h1 h2 h3 h6 h7 in
theorem var_block (r : Fin 128) (j : Fin 256) :
    k0_pay14 (k0_pay12 (k0_pay2 (View.ld x2 r0_2)) (k0_pay3 (View.ld x0 r0_0) (View.ld x2 r0_1)) (View.ld x3 r0_3) (k0_pay4 (View.ld x1 r0_4))
      (k0_pay8 (k0_pay2 (View.ld x2 r0_2)) (k0_pay3 (View.ld x0 r0_0) (View.ld x2 r0_1)) (View.ld x3 r0_3) (k0_pay4 (View.ld x1 r0_4))
        (k0_pay5 (View.ld x0 r0_0) (View.ld x2 r0_1) (View.ld x2 r0_2) (View.ld x3 r0_3) (View.ld x1 r0_4))
        (k0_pay6 (View.ld x0 r0_0) (View.ld x2 r0_1) (View.ld x2 r0_2) (View.ld x1 r0_4)) (k0_pay7 (View.ld x3 r0_3)))
      (k0_pay9 (k0_pay4 (View.ld x1 r0_4))) (View.ld x6 r0_5)) (k0_pay13 (View.ld x7 r0_6)) (ix2 r j) = Spec.var I (ρ r) j := by
  rw [pay14_apply, pay12_apply, pay13_apply, ld5, ld6]
  unfold Spec.var
  simp only [hidden_block I ρ x0 x1 x2 x3 h0 h1 h2 h3, h6, h7]

include h0 h1 h2 h3 h4 h5 h6 h7 h8 in
theorem out11_block (r : Fin 128) (j : Fin 256) :
    out0_11 x0 x1 x2 x3 x4 x5 x6 x7 x8 x9 x10 (ix2 r j) = Spec.z I (ρ r) j := by
  unfold out0_11
  rw [View.canon_unit_zero hz2, pay15_apply, mean_block I ρ x0 x1 x2 x3 x4 x5 h0 h1 h2 h3 h4 h5,
    var_block I ρ x0 x1 x2 x3 x6 x7 h0 h1 h2 h3 h6 h7, ld6, h8]
  rfl

include h0 h1 h2 h3 h4 h5 h6 h7 h9 h10 in
theorem out12_block (r : Fin 128) (u : Fin 1) :
    out0_12 x0 x1 x2 x3 x4 x5 x6 x7 x8 x9 x10 (ix2 r u) = Spec.kl I (ρ r) := by
  unfold out0_12
  rw [View.canon_unit_zero hz2, pay1_apply, pay17_apply, pay18_apply, ld0 x9, ld0 x10]
  simp only [mean_block I ρ x0 x1 x2 x3 x4 x5 h0 h1 h2 h3 h4 h5, var_block I ρ x0 x1 x2 x3 x6 x7 h0 h1 h2 h3 h6 h7, h9, h10]
  rfl

end Block

section Arrays

variable (V : (c : Dev nD) → (b : Ref sig .tc) → Buf (Elt Ideal) ((c : Thread nD τ).loc b))
variable (c : Dev nD) (I : Spec.Inp)

theorem idx_facts0 : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 1) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

def rowAt (t : Fin cfg0.N) (r : Fin 128) : Fin 256 :=
  ⟨t.val * 128 + r.val, by
    have h : t.val < grid0.N := t.isLt
    rw [N_0] at h
    have := r.isLt
    omega⟩

def G11 : S256x256.Idx → EReal := fun i => Spec.z I (i 0) (i 1)

def G12 : S256x1.Idx → EReal := fun i => Spec.kl I (i 0)

variable (hcen : I.cen = at2 (V c main_v6)) (hctx : I.ctx = at3 (V c main_v13))
  (hencW : I.encW = at2 (V c main_arg5)) (hencb : I.encb = at1 (V c main_arg6))
  (hmeanW : I.meanW = at2 (V c main_arg7)) (hmeanb : I.meanb = at1 (V c main_arg8))
  (hvarW : I.varW = at2 (V c main_arg9)) (hvarb : I.varb = at1 (V c main_arg10))
  (heps : I.eps = at1 (V c main_arg13)) (hpm : I.pm = at2 (V c main_v20)) (hpv : I.pv = at2 (V c main_v28))

include hcen in
theorem blk0_eq (t : Fin cfg0.N) (r : Fin 128) (d : Fin 256) : iblk0 V c 0 t (ix2 r d) = I.cen (rowAt t r) d := by
  obtain ⟨e0, e1, e2, e3, e4, e5, e6, e7, e8, e9, e10, e11, e12, e13, e14, e15, e16, e17, e18, e19, e20, e21, e22⟩ := idx_facts0 t
  rw [hcen]
  show V c main_v6 (((cfg0.win 0).blk t).view.emb (ix2 r d)) = V c main_v6 (ix2 (rowAt t r) d)
  refine congrArg (V c main_v6) (funext fun a => Fin.ext ?_)
  match a with
  | ⟨0, _⟩ => show win0_0.index t (0 : Fin 2) * 128 + 1 * r.val = t.val * 128 + r.val; omega
  | ⟨1, _⟩ => show win0_0.index t (1 : Fin 2) * 256 + 1 * d.val = d.val; omega

include hctx in
theorem blk1_eq (t : Fin cfg0.N) (r : Fin 128) (k : Fin 10) (d : Fin 256) : iblk0 V c 1 t (ix3 r k d) = I.ctx (rowAt t r) k d := by
  obtain ⟨e0, e1, e2, e3, e4, e5, e6, e7, e8, e9, e10, e11, e12, e13, e14, e15, e16, e17, e18, e19, e20, e21, e22⟩ := idx_facts0 t
  rw [hctx]
  show V c main_v13 (((cfg0.win 1).blk t).view.emb (ix3 r k d)) = V c main_v13 (ix3 (rowAt t r) k d)
  refine congrArg (V c main_v13) (funext fun a => Fin.ext ?_)
  match a with
  | ⟨0, _⟩ => show win0_1.index t (0 : Fin 3) * 128 + 1 * r.val = t.val * 128 + r.val; omega
  | ⟨1, _⟩ => show win0_1.index t (1 : Fin 3) * 10 + 1 * k.val = k.val; omega
  | ⟨2, _⟩ => show win0_1.index t (2 : Fin 3) * 256 + 1 * d.val = d.val; omega

include hencW in
theorem blk2_eq (t : Fin cfg0.N) (a : Fin 512) (b : Fin 512) : iblk0 V c 2 t (ix2 a b) = I.encW a b := by
  obtain ⟨e0, e1, e2, e3, e4, e5, e6, e7, e8, e9, e10, e11, e12, e13, e14, e15, e16, e17, e18, e19, e20, e21, e22⟩ := idx_facts0 t
  rw [hencW]
  show V c main_arg5 (((cfg0.win 2).blk t).view.emb (ix2 a b)) = V c main_arg5 (ix2 a b)
  refine congrArg (V c main_arg5) (funext fun x => Fin.ext ?_)
  match x with
  | ⟨0, _⟩ => show win0_2.index t (0 : Fin 2) * 512 + 1 * a.val = a.val; omega
  | ⟨1, _⟩ => show win0_2.index t (1 : Fin 2) * 512 + 1 * b.val = b.val; omega

include hencb in
theorem blk3_eq (t : Fin cfg0.N) (a : Fin 512) : iblk0 V c 3 t (ix1 a) = I.encb a := by
  obtain ⟨e0, e1, e2, e3, e4, e5, e6, e7, e8, e9, e10, e11, e12, e13, e14, e15, e16, e17, e18, e19, e20, e21, e22⟩ := idx_facts0 t
  rw [hencb]
  show V c main_arg6 (((cfg0.win 3).blk t).view.emb (ix1 a)) = V c main_arg6 (ix1 a)
  refine congrArg (V c main_arg6) (funext fun x => Fin.ext ?_)
  match x with
  | ⟨0, _⟩ => show win0_3.index t (0 : Fin 1) * 512 + 1 * a.val = a.val; omega

include hmeanW in
theorem blk4_eq (t : Fin cfg0.N) (a : Fin 256) (b : Fin 512) : iblk0 V c 4 t (ix2 a b) = I.meanW a b := by
  obtain ⟨e0, e1, e2, e3, e4, e5, e6, e7, e8, e9, e10, e11, e12, e13, e14, e15, e16, e17, e18, e19, e20, e21, e22⟩ := idx_facts0 t
  rw [hmeanW]
  show V c main_arg7 (((cfg0.win 4).blk t).view.emb (ix2 a b)) = V c main_arg7 (ix2 a b)
  refine congrArg (V c main_arg7) (funext fun x => Fin.ext ?_)
  match x with
  | ⟨0, _⟩ => show win0_4.index t (0 : Fin 2) * 256 + 1 * a.val = a.val; omega
  | ⟨1, _⟩ => show win0_4.index t (1 : Fin 2) * 512 + 1 * b.val = b.val; omega

include hmeanb in
theorem blk5_eq (t : Fin cfg0.N) (a : Fin 256) : iblk0 V c 5 t (ix1 a) = I.meanb a := by
  obtain ⟨e0, e1, e2, e3, e4, e5, e6, e7, e8, e9, e10, e11, e12, e13, e14, e15, e16, e17, e18, e19, e20, e21, e22⟩ := idx_facts0 t
  rw [hmeanb]
  show V c main_arg8 (((cfg0.win 5).blk t).view.emb (ix1 a)) = V c main_arg8 (ix1 a)
  refine congrArg (V c main_arg8) (funext fun x => Fin.ext ?_)
  match x with
  | ⟨0, _⟩ => show win0_5.index t (0 : Fin 1) * 256 + 1 * a.val = a.val; omega

include hvarW in
theorem blk6_eq (t : Fin cfg0.N) (a : Fin 256) (b : Fin 512) : iblk0 V c 6 t (ix2 a b) = I.varW a b := by
  obtain ⟨e0, e1, e2, e3, e4, e5, e6, e7, e8, e9, e10, e11, e12, e13, e14, e15, e16, e17, e18, e19, e20, e21, e22⟩ := idx_facts0 t
  rw [hvarW]
  show V c main_arg9 (((cfg0.win 6).blk t).view.emb (ix2 a b)) = V c main_arg9 (ix2 a b)
  refine congrArg (V c main_arg9) (funext fun x => Fin.ext ?_)
  match x with
  | ⟨0, _⟩ => show win0_6.index t (0 : Fin 2) * 256 + 1 * a.val = a.val; omega
  | ⟨1, _⟩ => show win0_6.index t (1 : Fin 2) * 512 + 1 * b.val = b.val; omega

include hvarb in
theorem blk7_eq (t : Fin cfg0.N) (a : Fin 256) : iblk0 V c 7 t (ix1 a) = I.varb a := by
  obtain ⟨e0, e1, e2, e3, e4, e5, e6, e7, e8, e9, e10, e11, e12, e13, e14, e15, e16, e17, e18, e19, e20, e21, e22⟩ := idx_facts0 t
  rw [hvarb]
  show V c main_arg10 (((cfg0.win 7).blk t).view.emb (ix1 a)) = V c main_arg10 (ix1 a)
  refine congrArg (V c main_arg10) (funext fun x => Fin.ext ?_)
  match x with
  | ⟨0, _⟩ => show win0_7.index t (0 : Fin 1) * 256 + 1 * a.val = a.val; omega

include heps in
theorem blk8_eq (t : Fin cfg0.N) (a : Fin 256) : iblk0 V c 8 t (ix1 a) = I.eps a := by
  obtain ⟨e0, e1, e2, e3, e4, e5, e6, e7, e8, e9, e10, e11, e12, e13, e14, e15, e16, e17, e18, e19, e20, e21, e22⟩ := idx_facts0 t
  rw [heps]
  show V c main_arg13 (((cfg0.win 8).blk t).view.emb (ix1 a)) = V c main_arg13 (ix1 a)
  refine congrArg (V c main_arg13) (funext fun x => Fin.ext ?_)
  match x with
  | ⟨0, _⟩ => show win0_8.index t (0 : Fin 1) * 256 + 1 * a.val = a.val; omega

include hpm in
theorem blk9_eq (t : Fin cfg0.N) (r : Fin 128) (d : Fin 256) : iblk0 V c 9 t (ix2 r d) = I.pm (rowAt t r) d := by
  obtain ⟨e0, e1, e2, e3, e4, e5, e6, e7, e8, e9, e10, e11, e12, e13, e14, e15, e16, e17, e18, e19, e20, e21, e22⟩ := idx_facts0 t
  rw [hpm]
  show V c main_v20 (((cfg0.win 9).blk t).view.emb (ix2 r d)) = V c main_v20 (ix2 (rowAt t r) d)
  refine congrArg (V c main_v20) (funext fun a => Fin.ext ?_)
  match a with
  | ⟨0, _⟩ => show win0_9.index t (0 : Fin 2) * 128 + 1 * r.val = t.val * 128 + r.val; omega
  | ⟨1, _⟩ => show win0_9.index t (1 : Fin 2) * 256 + 1 * d.val = d.val; omega

include hpv in
theorem blk10_eq (t : Fin cfg0.N) (r : Fin 128) (d : Fin 256) : iblk0 V c 10 t (ix2 r d) = I.pv (rowAt t r) d := by
  obtain ⟨e0, e1, e2, e3, e4, e5, e6, e7, e8, e9, e10, e11, e12, e13, e14, e15, e16, e17, e18, e19, e20, e21, e22⟩ := idx_facts0 t
  rw [hpv]
  show V c main_v28 (((cfg0.win 10).blk t).view.emb (ix2 r d)) = V c main_v28 (ix2 (rowAt t r) d)
  refine congrArg (V c main_v28) (funext fun a => Fin.ext ?_)
  match a with
  | ⟨0, _⟩ => show win0_10.index t (0 : Fin 2) * 128 + 1 * r.val = t.val * 128 + r.val; omega
  | ⟨1, _⟩ => show win0_10.index t (1 : Fin 2) * 256 + 1 * d.val = d.val; omega

include hcen hctx hencW hencb hmeanW hmeanb hvarW hvarb heps hpm hpv in
theorem flushed11_eq (t : Fin cfg0.N) :
    (dat0 V c).flushed 11 t = ((cfg0.win 11).blk t).view.read (Elt Ideal) (G11 I) := by
  show (cfg0.win 11).cut (grid0.coords t) ((dat0 V c).after 11 t) = _
  rw [after0_11]
  funext y
  obtain ⟨r, j, rfl⟩ : ∃ (r : Fin 128) (j : Fin 256), y = ix2 r j := ⟨y 0, y 1, eq_ix2 y⟩
  obtain ⟨e0, e1, e2, e3, e4, e5, e6, e7, e8, e9, e10, e11, e12, e13, e14, e15, e16, e17, e18, e19, e20, e21, e22⟩ := idx_facts0 t
  have hemb : ((cfg0.win 11).blk t).view.emb (ix2 r j) = ix2 (rowAt t r) j := funext fun a => Fin.ext (by
    match a with
    | ⟨0, _⟩ => show win0_11.index t (0 : Fin 2) * 128 + 1 * r.val = t.val * 128 + r.val; omega
    | ⟨1, _⟩ => show win0_11.index t (1 : Fin 2) * 256 + 1 * j.val = j.val; omega)
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 r j) = G11 I (((cfg0.win 11).blk t).view.emb (ix2 r j))
  rw [hemb]
  exact out11_block I (rowAt t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (blk0_eq V c I hcen t) (blk1_eq V c I hctx t) (blk2_eq V c I hencW t) (blk3_eq V c I hencb t) (blk4_eq V c I hmeanW t) (blk5_eq V c I hmeanb t)
    (blk6_eq V c I hvarW t) (blk7_eq V c I hvarb t) (blk8_eq V c I heps t) r j

include hcen hctx hencW hencb hmeanW hmeanb hvarW hvarb heps hpm hpv in
theorem flushed12_eq (t : Fin cfg0.N) :
    (dat0 V c).flushed 12 t = ((cfg0.win 12).blk t).view.read (Elt Ideal) (G12 I) := by
  show (cfg0.win 12).cut (grid0.coords t) ((dat0 V c).after 12 t) = _
  rw [after0_12]
  funext y
  obtain ⟨r, u, rfl⟩ : ∃ (r : Fin 128) (u : Fin 1), y = ix2 r u := ⟨y 0, y 1, eq_ix2 y⟩
  obtain ⟨e0, e1, e2, e3, e4, e5, e6, e7, e8, e9, e10, e11, e12, e13, e14, e15, e16, e17, e18, e19, e20, e21, e22⟩ := idx_facts0 t
  have hemb : ((cfg0.win 12).blk t).view.emb (ix2 r u) = ix2 (rowAt t r) u := funext fun a => Fin.ext (by
    match a with
    | ⟨0, _⟩ => show win0_12.index t (0 : Fin 2) * 128 + 1 * r.val = t.val * 128 + r.val; omega
    | ⟨1, _⟩ => show win0_12.index t (1 : Fin 2) * 1 + 1 * u.val = u.val; omega)
  show out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 r u) = G12 I (((cfg0.win 12).blk t).view.emb (ix2 r u))
  rw [hemb]
  exact out12_block I (rowAt t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (blk0_eq V c I hcen t) (blk1_eq V c I hctx t) (blk2_eq V c I hencW t) (blk3_eq V c I hencb t) (blk4_eq V c I hmeanW t) (blk5_eq V c I hmeanb t)
    (blk6_eq V c I hvarW t) (blk7_eq V c I hvarb t) (blk9_eq V c I hpm t) (blk10_eq V c I hpv t) r u

theorem mem_blk11 (t : Fin cfg0.N) (i : S256x256.Idx) :
    i ∈ ((cfg0.win 11).blk t).view.set ↔ ∀ a : Fin 2, win0_11.index t a * S128x256.size a ≤ (i a).val ∧ (i a).val < win0_11.index t a * S128x256.size a + S128x256.size a := by
  show i ∈ ((View.whole main_v29_0).slice (win0_11.rect t)).set ↔ _
  rw [View.set_slice_whole, Rect.mem_set_unit]
  exact Iff.rfl

theorem mem_blk12 (t : Fin cfg0.N) (i : S256x1.Idx) :
    i ∈ ((cfg0.win 12).blk t).view.set ↔ ∀ a : Fin 2, win0_12.index t a * S128x1.size a ≤ (i a).val ∧ (i a).val < win0_12.index t a * S128x1.size a + S128x1.size a := by
  show i ∈ ((View.whole main_v29_1).slice (win0_12.rect t)).set ↔ _
  rw [View.set_slice_whole, Rect.mem_set_unit]
  exact Iff.rfl

def ptOf (n : ℕ) (hn : n < 256) : Fin cfg0.N := ⟨n / 128, by show n / 128 < grid0.N; rw [N_0]; omega⟩

theorem cover11 (i : S256x256.Idx) : ∃ t : Fin cfg0.N, (cfg0.win 11).flush t = true ∧ i ∈ ((cfg0.win 11).blk t).view.set := by
  have hi0 : (i 0).val < 256 := (i 0).isLt
  have hi1 : (i 1).val < 256 := (i 1).isLt
  refine ⟨ptOf (i 0).val hi0, flush0_11 _, ?_⟩
  obtain ⟨e0, e1, e2, e3, e4, e5, e6, e7, e8, e9, e10, e11, e12, e13, e14, e15, e16, e17, e18, e19, e20, e21, e22⟩ := idx_facts0 (ptOf (i 0).val hi0)
  have ht : (ptOf (i 0).val hi0).val = (i 0).val / 128 := rfl
  rw [mem_blk11]
  intro a
  match a with
  | ⟨0, _⟩ =>
    show win0_11.index (ptOf (i 0).val hi0) (0 : Fin 2) * 128 ≤ (i 0).val ∧ (i 0).val < win0_11.index (ptOf (i 0).val hi0) (0 : Fin 2) * 128 + 128
    omega
  | ⟨1, _⟩ =>
    show win0_11.index (ptOf (i 0).val hi0) (1 : Fin 2) * 256 ≤ (i 1).val ∧ (i 1).val < win0_11.index (ptOf (i 0).val hi0) (1 : Fin 2) * 256 + 256
    omega

theorem cover12 (i : S256x1.Idx) : ∃ t : Fin cfg0.N, (cfg0.win 12).flush t = true ∧ i ∈ ((cfg0.win 12).blk t).view.set := by
  have hi0 : (i 0).val < 256 := (i 0).isLt
  have hi1 : (i 1).val < 1 := (i 1).isLt
  refine ⟨ptOf (i 0).val hi0, flush0_12 _, ?_⟩
  obtain ⟨e0, e1, e2, e3, e4, e5, e6, e7, e8, e9, e10, e11, e12, e13, e14, e15, e16, e17, e18, e19, e20, e21, e22⟩ := idx_facts0 (ptOf (i 0).val hi0)
  have ht : (ptOf (i 0).val hi0).val = (i 0).val / 128 := rfl
  rw [mem_blk12]
  intro a
  match a with
  | ⟨0, _⟩ =>
    show win0_12.index (ptOf (i 0).val hi0) (0 : Fin 2) * 128 ≤ (i 0).val ∧ (i 0).val < win0_12.index (ptOf (i 0).val hi0) (0 : Fin 2) * 128 + 128
    omega
  | ⟨1, _⟩ =>
    show win0_12.index (ptOf (i 0).val hi0) (1 : Fin 2) * 1 ≤ (i 1).val ∧ (i 1).val < win0_12.index (ptOf (i 0).val hi0) (1 : Fin 2) * 1 + 1
    omega

include hcen hctx hencW hencb hmeanW hmeanb hvarW hvarb heps hpm hpv in
theorem z_arr (b j : Fin 256) : (dat0 V c).arrAt 11 cfg0.N (ix2 b j) = Spec.z I b j := by
  rw [(dat0 V c).arrAt_eq_of_cover 11 (G11 I)
    (fun t _ => flushed11_eq V c I hcen hctx hencW hencb hmeanW hmeanb hvarW hvarb heps hpm hpv t) cover11]
  rfl

include hcen hctx hencW hencb hmeanW hmeanb hvarW hvarb heps hpm hpv in
theorem kl_arr (b : Fin 256) : (dat0 V c).arrAt 12 cfg0.N (ix2 b (0 : Fin 1)) = Spec.kl I b := by
  rw [(dat0 V c).arrAt_eq_of_cover 12 (G12 I)
    (fun t _ => flushed12_eq V c I hcen hctx hencW hencb hmeanW hmeanb hvarW hvarb heps hpm hpv t) cover12]
  rfl

end Arrays

end Cert.KernelIdeal.Hand.Val0

end
-- ==== Proof.SpecFin.lean ====
/- On real inputs with positive prior variances every quantity of the specification is a real number, and a row's maximum is one of its logits. -/
import proofs.«402386_j49916109914289_3_alg».proof.Proof.Spec
import Mathlib.Data.EReal.Inv
import Mathlib.Analysis.SpecialFunctions.Log.Basic
import Mathlib.Analysis.SpecialFunctions.Exp
import Mathlib.Data.Finset.Lattice.Fold
import Mathlib.Algebra.Order.BigOperators.Group.Finset

noncomputable section

namespace Cert.Hand.Spec

open Idealize.ShloMosaic

theorem c2_eq : c2 = ((2 : ℝ) : EReal) := by
  simp [c2, Ideal.ofBits, Ideal.ieee, -EReal.coe_mul]; norm_num

theorem c10_eq : c10 = ((10 : ℝ) : EReal) := by
  simp [c10, Ideal.ofBits, Ideal.ieee, -EReal.coe_mul]; norm_num

theorem real_zero : ∃ r : ℝ, (0 : EReal) = r := ⟨0, rfl⟩

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_sub {x y : EReal} (hx : ∃ r : ℝ, x = r) (hy : ∃ r : ℝ, y = r) : ∃ r : ℝ, x - y = r := by
  obtain ⟨a, rfl⟩ := hx; obtain ⟨b, rfl⟩ := hy; exact ⟨a - b, (EReal.coe_sub a b).symm⟩

theorem coe_max (a b : ℝ) : ((max a b : ℝ) : EReal) = max (a : EReal) (b : EReal) :=
  Monotone.map_max (fun _ _ h => EReal.coe_le_coe_iff.2 h)

theorem real_max {x y : EReal} (hx : ∃ r : ℝ, x = r) (hy : ∃ r : ℝ, y = r) : ∃ r : ℝ, max x y = r := by
  obtain ⟨a, rfl⟩ := hx; obtain ⟨b, rfl⟩ := hy; exact ⟨max a b, (coe_max a b).symm⟩

theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem real_sum {ι : Type*} (s : Finset ι) (f : ι → EReal) (hf : ∀ i, ∃ r : ℝ, f i = r) :
    ∃ r : ℝ, ∑ i ∈ s, f i = r := by
  choose g hg using hf
  exact ⟨∑ i ∈ s, g i, by rw [← coe_sum]; exact Finset.sum_congr rfl fun i _ => hg i⟩

theorem real_sum_pos {ι : Type*} (s : Finset ι) (hs : s.Nonempty) (f : ι → EReal)
    (hf : ∀ i, ∃ r : ℝ, 0 < r ∧ f i = r) : ∃ r : ℝ, 0 < r ∧ ∑ i ∈ s, f i = r := by
  choose g hg using hf
  refine ⟨∑ i ∈ s, g i, Finset.sum_pos (fun i _ => (hg i).1) hs, ?_⟩
  rw [← coe_sum]; exact Finset.sum_congr rfl fun i _ => (hg i).2

theorem real_exp_pos {x : EReal} (hx : ∃ r : ℝ, x = r) : ∃ r : ℝ, 0 < r ∧ Ideal.exp x = r := by
  obtain ⟨a, rfl⟩ := hx; exact ⟨Real.exp a, Real.exp_pos a, Ideal.exp_coe a⟩

theorem real_exp {x : EReal} (hx : ∃ r : ℝ, x = r) : ∃ r : ℝ, Ideal.exp x = r := by
  obtain ⟨r, _, h⟩ := real_exp_pos hx; exact ⟨r, h⟩

theorem real_log {x : EReal} (hx : ∃ r : ℝ, 0 < r ∧ x = r) : ∃ r : ℝ, Ideal.log x = r := by
  obtain ⟨a, ha, rfl⟩ := hx
  exact ⟨Real.log a, by rw [Ideal.log_coe, if_neg (not_le.2 ha)]⟩

theorem real_div {x y : EReal} (hx : ∃ r : ℝ, x = r) (hy : ∃ r : ℝ, r ≠ 0 ∧ y = r) :
    ∃ r : ℝ, Ideal.div x y = r := by
  obtain ⟨b, hb, rfl⟩ := hy
  rw [Ideal.div_coe hb]; exact real_mul hx ⟨_, rfl⟩

theorem real_of_pos {x : EReal} (hx : ∃ r : ℝ, 0 < r ∧ x = r) : ∃ r : ℝ, x = r := by
  obtain ⟨r, _, h⟩ := hx; exact ⟨r, h⟩

theorem sp_real_pos {x : EReal} (hx : ∃ r : ℝ, x = r) : ∃ r : ℝ, 0 < r ∧ sp x = r := by
  obtain ⟨a, rfl⟩ := hx
  have he : 0 < Real.exp (-(max a (-a))) := Real.exp_pos _
  refine ⟨max a 0 + Real.log (1 + Real.exp (-(max a (-a)))), ?_, ?_⟩
  · have h1 : 0 ≤ max a 0 := le_max_right _ _
    have h2 : 0 < Real.log (1 + Real.exp (-(max a (-a)))) := Real.log_pos (by linarith)
    linarith
  · have h1 : (1 : EReal) + ((Real.exp (-(max a (-a))) : ℝ) : EReal)
        = ((1 + Real.exp (-(max a (-a))) : ℝ) : EReal) := by
      rw [EReal.coe_add, EReal.coe_one]
    rw [sp, Ideal.log1p, ← EReal.coe_neg, ← coe_max, ← EReal.coe_neg, Ideal.exp_coe, h1, Ideal.log_coe,
      if_neg (not_le.2 (by linarith)), ← EReal.coe_zero, ← coe_max, ← EReal.coe_add]

variable {I : Inp} (hI : Inp.Finite I)
include hI

theorem pre_real (b : Fin 256) (c : Fin 10) (e : Fin 512) : ∃ r : ℝ, pre I b c e = r :=
  real_add (real_add (real_sum _ _ fun d => real_mul (hI.cen b d) (hI.encW e _))
    (real_sum _ _ fun d => real_mul (hI.ctx b c d) (hI.encW e _))) (hI.encb e)

theorem h_real (b : Fin 256) (e : Fin 512) : ∃ r : ℝ, h I b e = r :=
  real_sum _ _ fun c => real_max (pre_real hI b c e) real_zero

theorem mean_real (b j : Fin 256) : ∃ r : ℝ, mean I b j = r :=
  real_add (real_sum _ _ fun e => real_mul (h_real hI b e) (hI.meanW j e)) (hI.meanb j)

theorem var_real (b j : Fin 256) : ∃ r : ℝ, 0 < r ∧ var I b j = r :=
  sp_real_pos (real_add (real_sum _ _ fun e => real_mul (h_real hI b e) (hI.varW j e)) (hI.varb j))

theorem var_real' (b j : Fin 256) : ∃ r : ℝ, var I b j = r := real_of_pos (var_real hI b j)

theorem z_real (b j : Fin 256) : ∃ r : ℝ, z I b j = r :=
  real_add (mean_real hI b j)
    (real_mul (real_exp (real_div (var_real' hI b j) ⟨2, two_ne_zero, c2_eq⟩)) (hI.eps j))

theorem logit_real (b : Fin 256) (v : Fin 50000) : ∃ r : ℝ, logit I b v = r :=
  real_add (real_sum _ _ fun d => real_mul (z_real hI b d) (hI.vW v d)) (hI.vb v)

omit hI in
theorem rowMax_eq_logit (I : Inp) (b : Fin 256) : ∃ v : Fin 50000, rowMax I b = logit I b v := by
  obtain ⟨v, _, hv⟩ := Finset.exists_mem_eq_sup (Finset.univ : Finset (Fin 50000))
    ⟨⟨0, by norm_num⟩, Finset.mem_univ _⟩ (logit I b)
  exact ⟨v, hv⟩

theorem rowMax_real (b : Fin 256) : ∃ r : ℝ, rowMax I b = r := by
  obtain ⟨v, hv⟩ := rowMax_eq_logit I b
  rw [hv]; exact logit_real hI b v

theorem rowSum_real_pos (b : Fin 256) : ∃ r : ℝ, 0 < r ∧ rowSum I b = r :=
  real_sum_pos _ ⟨⟨0, by norm_num⟩, Finset.mem_univ _⟩ _
    fun v => real_exp_pos (real_sub (logit_real hI b v) (rowMax_real hI b))

theorem logRowSum_real (b : Fin 256) : ∃ r : ℝ, Ideal.log (rowSum I b) = r :=
  real_log (rowSum_real_pos hI b)

end Cert.Hand.Spec

end
-- ==== Proof.Pre.lean ====
/- What the precondition gives: every float input is a real number, and every context index word lies in the table's range. -/
import proofs.«402386_j49916109914289_3_alg».proof.Pre_finite_inputs
import proofs.«402386_j49916109914289_3_alg».proof.Proof.Gen.Pre_finite_inputs
import proofs.«402386_j49916109914289_3_alg».proof.Defs
import Idealize.ShloMosaic.Lib.ReduceAll
import Idealize.ShloMosaic.Lib.ValueIdx
import Idealize.ShloMosaic.Lib.Affine
import Idealize.ShloMosaic.PureOps.Ideal

noncomputable section

namespace Cert.Hand.Pre

open Idealize.ShloMosaic Idealize.SL.Sem
open Cert.Pre_finite_inputs

instance : Subsingleton S_.Idx := ⟨fun a b => funext fun d => d.elim0⟩

def FinAt {F : FTy → Type} [FloatOps F] (x : F .f32) : Prop :=
  FloatOps.cmpf .olt (FloatOps.hostAbsf x) (FloatOps.ofBits (F := F) .f32 0x7F800000#32) = 1#1

theorem fin_of_all {F : FTy → Type} [FloatOps F] {s : Shape} {axes : List (Fin s.rank)}
    (x : FVec F s .f32) (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
          (constantI S_ 1 1#1) hr h0 ValueIdx.ix0 = 1#1) (i : s.Idx) : FinAt (x i) :=
  Host.reduce_andi_all _ _ hr h0 _ e i

theorem all_of_reduce {s : Shape} {axes : List (Fin s.rank)} (x : IVec s 1) (hr : s.ReducesTo axes S_) (h0 : 0 < S_.numel)
    (e : Host.reduce IntOp.andi x (constantI S_ 1 1#1) hr h0 ValueIdx.ix0 = 1#1) (i : s.Idx) : x i = 1#1 :=
  Host.reduce_andi_all _ _ hr h0 _ e i

structure Decoded {F : FTy → Type} [FloatOps F] (a1 : IVec S256x10 32)
    (a2 a3 a4 : FVec F S50000x256 .f32) (a5 : FVec F S512x512 .f32) (a6 : FVec F S512 .f32) (a7 : FVec F S256x512 .f32)
    (a8 : FVec F S256 .f32) (a9 : FVec F S256x512 .f32) (a10 : FVec F S256 .f32) (a11 : FVec F S50000x256 .f32)
    (a12 : FVec F S50000 .f32) (a13 : FVec F S256 .f32) : Prop where
  ids_ge : ∀ i, 0 ≤ (a1 i).toInt
  ids_lt : ∀ i, (a1 i).toInt < 50000
  fin2 : ∀ i, FinAt (a2 i)
  fin3 : ∀ i, FinAt (a3 i)
  fin4 : ∀ i, FinAt (a4 i)
  fin5 : ∀ i, FinAt (a5 i)
  fin6 : ∀ i, FinAt (a6 i)
  fin7 : ∀ i, FinAt (a7 i)
  fin8 : ∀ i, FinAt (a8 i)
  fin9 : ∀ i, FinAt (a9 i)
  fin10 : ∀ i, FinAt (a10 i)
  fin11 : ∀ i, FinAt (a11 i)
  fin12 : ∀ i, FinAt (a12 i)
  fin13 : ∀ i, FinAt (a13 i)

variable [Cert.Pre_finite_inputs.Facts]

theorem decode {F : FTy → Type} [FloatOps F] (a0 : IVec S256 32) (a1 : IVec S256x10 32)
    (a2 a3 a4 : FVec F S50000x256 .f32) (a5 : FVec F S512x512 .f32) (a6 : FVec F S512 .f32) (a7 : FVec F S256x512 .f32)
    (a8 : FVec F S256 .f32) (a9 : FVec F S256x512 .f32) (a10 : FVec F S256 .f32) (a11 : FVec F S50000x256 .f32)
    (a12 : FVec F S50000 .f32) (a13 : FVec F S256 .f32)
    (h : fn (F := F) a0 a1 a2 a3 a4 a5 a6 a7 a8 a9 a10 a11 a12 a13 = fun _ => 1#1) :
    Decoded a1 a2 a3 a4 a5 a6 a7 a8 a9 a10 a11 a12 a13 := by
  have e := congrFun h ValueIdx.ix0
  dsimp only [fn, fn_part1, fn_part2, fn_part3] at e
  simp only [andi, IntOp.andi_eq_one] at e
  obtain ⟨⟨⟨⟨⟨⟨⟨⟨⟨⟨⟨⟨⟨e2, e3⟩, e4⟩, e5⟩, e6⟩, e7⟩, e8⟩, e9⟩, e10⟩, e11⟩, e12⟩, e13⟩, ege⟩, elt⟩ := e
  exact
    { ids_ge := fun i => by
        have : (0#32).toInt ≤ (a1 i).toInt := IntOp.cmpi_sge.1 (all_of_reduce _ _ _ ege i)
        simpa using this
      ids_lt := fun i => by
        have : (a1 i).toInt < (50000#32).toInt := IntOp.cmpi_slt.1 (all_of_reduce _ _ _ elt i)
        simpa using this
      fin2 := fin_of_all a2 _ _ _ e2
      fin3 := fin_of_all a3 _ _ _ e3
      fin4 := fin_of_all a4 _ _ _ e4
      fin5 := fin_of_all a5 _ _ _ e5
      fin6 := fin_of_all a6 _ _ _ e6
      fin7 := fin_of_all a7 _ _ _ e7
      fin8 := fin_of_all a8 _ _ _ e8
      fin9 := fin_of_all a9 _ _ _ e9
      fin10 := fin_of_all a10 _ _ _ e10
      fin11 := fin_of_all a11 _ _ _ e11
      fin12 := fin_of_all a12 _ _ _ e12
      fin13 := fin_of_all a13 _ _ _ e13 }

theorem ofBool_eq_one (b : Bool) : BitVec.ofBool b = 1#1 ↔ b = true := by cases b <;> decide

theorem ofBits_inf : Ideal.ofBits .f32 0x7F800000#32 = (⊤ : EReal) := by simp [Ideal.ofBits, Ideal.ieee]

theorem real_of_finAt (x : Ideal .f32) (h : FinAt (F := Ideal) x) : ∃ r : ℝ, x = (r : EReal) := by
  have h' : Ideal.cmp .olt (max x (-x)) (Ideal.ofBits .f32 0x7F800000#32) = 1#1 := h
  rw [ofBits_inf] at h'
  simp only [Ideal.cmp, ofBool_eq_one, decide_eq_true_eq] at h'
  induction x using EReal.rec with
  | bot => simp at h'
  | coe r => exact ⟨r, rfl⟩
  | top => simp at h'

structure Reals (a1 : IVec S256x10 32)
    (a2 a3 a4 : FVec Ideal S50000x256 .f32) (a5 : FVec Ideal S512x512 .f32) (a6 : FVec Ideal S512 .f32)
    (a7 : FVec Ideal S256x512 .f32) (a8 : FVec Ideal S256 .f32) (a9 : FVec Ideal S256x512 .f32) (a10 : FVec Ideal S256 .f32)
    (a11 : FVec Ideal S50000x256 .f32) (a12 : FVec Ideal S50000 .f32) (a13 : FVec Ideal S256 .f32) : Prop where
  ids_ge : ∀ i, 0 ≤ (a1 i).toInt
  ids_lt : ∀ i, (a1 i).toInt < 50000
  real2 : ∀ i, ∃ r : ℝ, a2 i = (r : EReal)
  real3 : ∀ i, ∃ r : ℝ, a3 i = (r : EReal)
  real4 : ∀ i, ∃ r : ℝ, a4 i = (r : EReal)
  real5 : ∀ i, ∃ r : ℝ, a5 i = (r : EReal)
  real6 : ∀ i, ∃ r : ℝ, a6 i = (r : EReal)
  real7 : ∀ i, ∃ r : ℝ, a7 i = (r : EReal)
  real8 : ∀ i, ∃ r : ℝ, a8 i = (r : EReal)
  real9 : ∀ i, ∃ r : ℝ, a9 i = (r : EReal)
  real10 : ∀ i, ∃ r : ℝ, a10 i = (r : EReal)
  real11 : ∀ i, ∃ r : ℝ, a11 i = (r : EReal)
  real12 : ∀ i, ∃ r : ℝ, a12 i = (r : EReal)
  real13 : ∀ i, ∃ r : ℝ, a13 i = (r : EReal)

theorem reals_of_pre (a0 : IVec S256 32) (a1 : IVec S256x10 32)
    (a2 a3 a4 : FVec Ideal S50000x256 .f32) (a5 : FVec Ideal S512x512 .f32) (a6 : FVec Ideal S512 .f32)
    (a7 : FVec Ideal S256x512 .f32) (a8 : FVec Ideal S256 .f32) (a9 : FVec Ideal S256x512 .f32) (a10 : FVec Ideal S256 .f32)
    (a11 : FVec Ideal S50000x256 .f32) (a12 : FVec Ideal S50000 .f32) (a13 : FVec Ideal S256 .f32)
    (h : fn (F := Ideal) a0 a1 a2 a3 a4 a5 a6 a7 a8 a9 a10 a11 a12 a13 = fun _ => 1#1) :
    Reals a1 a2 a3 a4 a5 a6 a7 a8 a9 a10 a11 a12 a13 :=
  have d := decode a0 a1 a2 a3 a4 a5 a6 a7 a8 a9 a10 a11 a12 a13 h
  { ids_ge := d.ids_ge
    ids_lt := d.ids_lt
    real2 := fun i => real_of_finAt _ (d.fin2 i)
    real3 := fun i => real_of_finAt _ (d.fin3 i)
    real4 := fun i => real_of_finAt _ (d.fin4 i)
    real5 := fun i => real_of_finAt _ (d.fin5 i)
    real6 := fun i => real_of_finAt _ (d.fin6 i)
    real7 := fun i => real_of_finAt _ (d.fin7 i)
    real8 := fun i => real_of_finAt _ (d.fin8 i)
    real9 := fun i => real_of_finAt _ (d.fin9 i)
    real10 := fun i => real_of_finAt _ (d.fin10 i)
    real11 := fun i => real_of_finAt _ (d.fin11 i)
    real12 := fun i => real_of_finAt _ (d.fin12 i)
    real13 := fun i => real_of_finAt _ (d.fin13 i) }

section Kernel
open Cert.KernelIdeal

theorem reals_of_Pre_KernelIdeal (m : (ℓ : Loc nD τ sig) → Buf (Elt Ideal) ℓ) (h : Cert.Pre_KernelIdeal m) (c : Dev nD) :
    Reals (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) :=
  reals_of_pre _ _ _ _ _ _ _ _ _ _ _ _ _ _ (h c)

end Kernel

end Cert.Hand.Pre

end
-- ==== Proof.Ref.Enc.lean ====
/- The reference's encoder stages at an index: pre-activation, hidden sum, mean, variance, sample and divergence are the specification's. -/
import proofs.«402386_j49916109914289_3_alg».proof.Proof.RefRead
import proofs.«402386_j49916109914289_3_alg».proof.Proof.Inputs
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.Hand

open Cert.ReferenceIdeal Cert.ReferenceIdeal.Gen Cert.ReferenceIdeal.Read Idealize.ShloMosaic Idealize.ShloMosaic.ValueIdx
open Cert.Hand

structure Reads (I : Spec.Inp) (x0 : (⟨S256, .i32⟩ : BufTy).Contents (Elt Ideal)) (x1 : (⟨S256x10, .i32⟩ : BufTy).Contents (Elt Ideal))
    (x2 x3 x4 : (⟨S50000x256, .f32⟩ : BufTy).Contents (Elt Ideal)) (x5 : (⟨S512x512, .f32⟩ : BufTy).Contents (Elt Ideal))
    (x6 : (⟨S512, .f32⟩ : BufTy).Contents (Elt Ideal)) (x7 : (⟨S256x512, .f32⟩ : BufTy).Contents (Elt Ideal)) (x8 : (⟨S256, .f32⟩ : BufTy).Contents (Elt Ideal))
    (x9 : (⟨S256x512, .f32⟩ : BufTy).Contents (Elt Ideal)) (x10 x13 : (⟨S256, .f32⟩ : BufTy).Contents (Elt Ideal)) : Prop where
  cen : I.cen = at2 (val_main_v6 (F := Ideal) x0 x2)
  ctx : I.ctx = at3 (val_main_v13 (F := Ideal) x1 x2)
  pm : I.pm = at2 (val_main_v53 (F := Ideal) x0 x3)
  pv : I.pv = at2 (val_main_v61 (F := Ideal) x0 x4)
  encW : I.encW = at2 x5
  encb : I.encb = at1 x6
  meanW : I.meanW = at2 x7
  meanb : I.meanb = at1 x8
  varW : I.varW = at2 x9
  varb : I.varb = at1 x10
  eps : I.eps = at1 x13

theorem reads_inpOf (x0 : (⟨S256, .i32⟩ : BufTy).Contents (Elt Ideal)) (x1 : (⟨S256x10, .i32⟩ : BufTy).Contents (Elt Ideal))
    (x2 x3 x4 : (⟨S50000x256, .f32⟩ : BufTy).Contents (Elt Ideal)) (x5 : (⟨S512x512, .f32⟩ : BufTy).Contents (Elt Ideal))
    (x6 : (⟨S512, .f32⟩ : BufTy).Contents (Elt Ideal)) (x7 : (⟨S256x512, .f32⟩ : BufTy).Contents (Elt Ideal)) (x8 : (⟨S256, .f32⟩ : BufTy).Contents (Elt Ideal))
    (x9 : (⟨S256x512, .f32⟩ : BufTy).Contents (Elt Ideal)) (x10 : (⟨S256, .f32⟩ : BufTy).Contents (Elt Ideal))
    (x11 : (⟨S50000x256, .f32⟩ : BufTy).Contents (Elt Ideal)) (x12 : (⟨S50000, .f32⟩ : BufTy).Contents (Elt Ideal)) (x13 : (⟨S256, .f32⟩ : BufTy).Contents (Elt Ideal)) :
    Reads (inpOf (val_main_v6 (F := Ideal) x0 x2) (val_main_v13 (F := Ideal) x1 x2) (val_main_v53 (F := Ideal) x0 x3)
      (val_main_v61 (F := Ideal) x0 x4) x5 x6 x7 x8 x9 x10 x11 x12 x13 x1) x0 x1 x2 x3 x4 x5 x6 x7 x8 x9 x10 x13 :=
  ⟨rfl, rfl, rfl, rfl, rfl, rfl, rfl, rfl, rfl, rfl, rfl⟩

namespace Enc

theorem sum512 (f : Fin 512 → EReal) :
    ∑ k : Fin 512, f k = (∑ d : Fin 256, f (Fin.castAdd 256 d)) + ∑ d : Fin 256, f (Fin.natAdd 256 d) :=
  Fin.sum_univ_add (a := 256) (b := 256) f

theorem cmp_une_self (y : EReal) : FloatOps.cmpf (F := Ideal) (φ := .f32) .une y y = 0#1 := by
  show BitVec.ofBool (decide (y ≠ y)) = 0#1
  simp

theorem i_1415 (b : Fin 256) (c : Fin 10) (d : Fin 256) : idx_main_v14 (idx_main_v15 (ix3 b c d)) = ix2 b d :=
  funext fun a => by match a with | ⟨0, _⟩ => rfl | ⟨1, _⟩ => rfl
theorem i_l17 (b : Fin 256) (c : Fin 10) (e k : Fin 512) : lidx_main_v17 (ix3 b c e) k = ix3 b c k :=
  funext fun a => by match a with | ⟨0, _⟩ => rfl | ⟨1, _⟩ => rfl | ⟨2, _⟩ => rfl
theorem i_r17 (b : Fin 256) (c : Fin 10) (e k : Fin 512) : ridx_main_v17 (ix3 b c e) k = ix2 e k :=
  funext fun a => by match a with | ⟨0, _⟩ => rfl | ⟨1, _⟩ => rfl
theorem i_1819 (b : Fin 256) (c : Fin 10) (e : Fin 512) : idx_main_v18 (idx_main_v19 (ix3 b c e)) = ix1 e :=
  funext fun a => by match a with | ⟨0, _⟩ => rfl
theorem i_22 (b : Fin 256) (e : Fin 512) (c : Fin 10) : idx_main_v22 (ix2 b e) c = ix3 b c e :=
  funext fun a => by match a with | ⟨0, _⟩ => rfl | ⟨1, _⟩ => rfl | ⟨2, _⟩ => rfl
theorem i_l24 (b j : Fin 256) (k : Fin 512) : lidx_main_v24 (ix2 b j) k = ix2 b k :=
  funext fun a => by match a with | ⟨0, _⟩ => rfl | ⟨1, _⟩ => rfl
theorem i_r24 (b j : Fin 256) (k : Fin 512) : idx_main_v23 (ridx_main_v24 (ix2 b j) k) = ix2 j k :=
  funext fun a => by match a with | ⟨0, _⟩ => rfl | ⟨1, _⟩ => rfl
theorem i_2526 (b j : Fin 256) : idx_main_v25 (idx_main_v26 (ix2 b j)) = ix1 j :=
  funext fun a => by match a with | ⟨0, _⟩ => rfl
theorem i_l29 (b j : Fin 256) (k : Fin 512) : lidx_main_v29 (ix2 b j) k = ix2 b k :=
  funext fun a => by match a with | ⟨0, _⟩ => rfl | ⟨1, _⟩ => rfl
theorem i_r29 (b j : Fin 256) (k : Fin 512) : idx_main_v28 (ridx_main_v29 (ix2 b j) k) = ix2 j k :=
  funext fun a => by match a with | ⟨0, _⟩ => rfl | ⟨1, _⟩ => rfl
theorem i_3031 (b j : Fin 256) : idx_main_v30 (idx_main_v31 (ix2 b j)) = ix1 j :=
  funext fun a => by match a with | ⟨0, _⟩ => rfl
theorem i_3738 (b j : Fin 256) : idx_main_v37 (idx_main_v38 (ix2 b j)) = ix1 j :=
  funext fun a => by match a with | ⟨0, _⟩ => rfl
theorem i_63 (b j : Fin 256) : idx_main_v63 (ix1 b) j = ix2 b j :=
  funext fun a => by match a with | ⟨0, _⟩ => rfl | ⟨1, _⟩ => rfl
theorem i_67 (b j : Fin 256) : idx_main_v67 (ix1 b) j = ix2 b j :=
  funext fun a => by match a with | ⟨0, _⟩ => rfl | ⟨1, _⟩ => rfl
theorem i_74 (b j : Fin 256) : idx_main_v74 (ix1 b) j = ix2 b j :=
  funext fun a => by match a with | ⟨0, _⟩ => rfl | ⟨1, _⟩ => rfl

variable {I : Spec.Inp} {x0 : (⟨S256, .i32⟩ : BufTy).Contents (Elt Ideal)} {x1 : (⟨S256x10, .i32⟩ : BufTy).Contents (Elt Ideal)}
  {x2 x3 x4 : (⟨S50000x256, .f32⟩ : BufTy).Contents (Elt Ideal)} {x5 : (⟨S512x512, .f32⟩ : BufTy).Contents (Elt Ideal)}
  {x6 : (⟨S512, .f32⟩ : BufTy).Contents (Elt Ideal)} {x7 : (⟨S256x512, .f32⟩ : BufTy).Contents (Elt Ideal)} {x8 : (⟨S256, .f32⟩ : BufTy).Contents (Elt Ideal)}
  {x9 : (⟨S256x512, .f32⟩ : BufTy).Contents (Elt Ideal)} {x10 x13 : (⟨S256, .f32⟩ : BufTy).Contents (Elt Ideal)}

theorem v16_left (b : Fin 256) (c : Fin 10) (d : Fin 256) :
    val_main_v16 (F := Ideal) x0 x1 x2 (ix3 b c (Fin.castAdd 256 d)) = val_main_v6 (F := Ideal) x0 x2 (ix2 b d) := by
  unfold val_main_v16
  rw [concatenate_pair_apply_left (2 : Fin S256x10x512.rank) _ _ concatenates_S256x10x256_S256x10x256_S256x10x512_d2
    (ix3 b c (Fin.castAdd 256 d)) rfl (ix3 b c d)
    (fun a => by match a with | ⟨0, _⟩ => rfl | ⟨1, _⟩ => rfl | ⟨2, _⟩ => rfl),
    val_main_v15_apply, val_main_v14_apply, i_1415]

theorem v16_right (b : Fin 256) (c : Fin 10) (d : Fin 256) :
    val_main_v16 (F := Ideal) x0 x1 x2 (ix3 b c (Fin.natAdd 256 d)) = val_main_v13 (F := Ideal) x1 x2 (ix3 b c d) := by
  unfold val_main_v16
  exact concatenate_pair_apply_right (2 : Fin S256x10x512.rank) _ _ concatenates_S256x10x256_S256x10x256_S256x10x512_d2
    (ix3 b c (Fin.natAdd 256 d)) rfl rfl (ix3 b c d)
    (fun a ha => by match a with | ⟨0, _⟩ => rfl | ⟨1, _⟩ => rfl | ⟨2, _⟩ => exact absurd rfl ha)
    (by show d.val + 256 = 256 + d.val; omega)

variable (R : Reads I x0 x1 x2 x3 x4 x5 x6 x7 x8 x9 x10 x13)
include R

theorem ref_pre (b : Fin 256) (c : Fin 10) (e : Fin 512) :
    val_main_v20 (F := Ideal) x0 x1 x2 x5 x6 (ix3 b c e) = Spec.pre I b c e := by
  rw [val_main_v20_apply, val_main_v17_apply, val_main_v19_apply, val_main_v18_apply, i_1819, sum512]
  simp only [i_l17, i_r17, v16_left, v16_right]
  rw [Spec.pre, R.cen, R.ctx, R.encW, R.encb]
  rfl

theorem ref_h (b : Fin 256) (e : Fin 512) :
    val_main_v22 (F := Ideal) x0 x1 x2 x5 x6 (ix2 b e) = Spec.h I b e := by
  rw [val_main_v22_apply, val_main_cst_apply, Ideal.ofBits_def, Ideal.ofBits_zero_f32, zero_add, Spec.h]
  refine Finset.sum_congr rfl fun c _ => ?_
  rw [i_22, val_main_v21_apply, val_main_call0_v0_apply, val_main_call0_cst_apply, Ideal.ofBits_def,
    Ideal.ofBits_zero_f32, ref_pre R]
  rfl

theorem ref_mean (b j : Fin 256) :
    val_main_v27 (F := Ideal) x0 x1 x2 x5 x6 x7 x8 (ix2 b j) = Spec.mean I b j := by
  rw [val_main_v27_apply, val_main_v24_apply, val_main_v26_apply, val_main_v25_apply, i_2526, Spec.mean, R.meanW, R.meanb]
  simp only [i_l24, val_main_v23_apply, i_r24, ref_h R]
  rfl

theorem ref_varpre (b j : Fin 256) :
    val_main_v32 (F := Ideal) x0 x1 x2 x5 x6 x9 x10 (ix2 b j) = (∑ e : Fin 512, Spec.h I b e * I.varW j e) + I.varb j := by
  rw [val_main_v32_apply, val_main_v29_apply, val_main_v31_apply, val_main_v30_apply, i_3031, R.varW, R.varb]
  simp only [i_l29, val_main_v28_apply, i_r29, ref_h R]
  rfl

theorem ref_var (b j : Fin 256) :
    val_main_v33 (F := Ideal) x0 x1 x2 x5 x6 x9 x10 (ix2 b j) = Spec.var I b j := by
  rw [val_main_v33_apply, val_main_call1_v4_apply, cmp_une_self, select_zero, val_main_call1_v11_apply,
    val_main_call1_v1_apply, val_main_call1_v10_apply, val_main_call1_v9_apply, val_main_call1_v8_apply,
    val_main_call1_v7_apply, val_main_call1_v3_apply, val_main_call1_v0_apply, val_main_call1_v2_apply]
  simp only [val_main_call1_cst_apply, Ideal.ofBits_def, Ideal.ofBits_zero_f32, ref_varpre R, Ideal.subf_def, sub_zero]
  rfl

end Enc

open Enc

variable {I : Spec.Inp} {x0 : (⟨S256, .i32⟩ : BufTy).Contents (Elt Ideal)} {x1 : (⟨S256x10, .i32⟩ : BufTy).Contents (Elt Ideal)}
  {x2 x3 x4 : (⟨S50000x256, .f32⟩ : BufTy).Contents (Elt Ideal)} {x5 : (⟨S512x512, .f32⟩ : BufTy).Contents (Elt Ideal)}
  {x6 : (⟨S512, .f32⟩ : BufTy).Contents (Elt Ideal)} {x7 : (⟨S256x512, .f32⟩ : BufTy).Contents (Elt Ideal)} {x8 : (⟨S256, .f32⟩ : BufTy).Contents (Elt Ideal)}
  {x9 : (⟨S256x512, .f32⟩ : BufTy).Contents (Elt Ideal)} {x10 x13 : (⟨S256, .f32⟩ : BufTy).Contents (Elt Ideal)}
  (R : Reads I x0 x1 x2 x3 x4 x5 x6 x7 x8 x9 x10 x13)
include R

theorem ref_z (b j : Fin 256) :
    val_main_v40 (F := Ideal) x0 x1 x2 x5 x6 x7 x8 x9 x10 x13 (ix2 b j) = Spec.z I b j := by
  rw [val_main_v40_apply, val_main_v39_apply, val_main_v36_apply, val_main_v35_apply, val_main_v34_apply,
    val_main_cst_3_apply, val_main_v38_apply, val_main_v37_apply, i_3738, ref_mean R, ref_var R, Spec.z, R.eps]
  rfl

theorem ref_kl (b : Fin 256) :
    val_main_v77 (F := Ideal) x0 x1 x2 x3 x4 x5 x6 x7 x8 x9 x10 (ix1 b) = Spec.kl I b := by
  rw [val_main_v77_apply, val_main_v76_apply, val_main_cst_12_apply, val_main_v75_apply, val_main_v70_apply,
    val_main_v68_apply, val_main_v69_apply, val_main_cst_10_apply, val_main_v63_apply, val_main_v67_apply,
    val_main_v74_apply, val_main_cst_8_apply, val_main_cst_9_apply, val_main_cst_11_apply]
  simp only [Ideal.ofBits_def, Ideal.ofBits_zero_f32, Ideal.addf_def, zero_add, i_63, i_67, i_74, val_main_v62_apply,
    val_main_v66_apply, val_main_v65_apply, val_main_v64_apply, val_main_v73_apply, val_main_v71_apply,
    val_main_v72_apply, ref_mean R, ref_var R]
  rw [Spec.kl, R.pm, R.pv]
  rfl

end Cert.ReferenceIdeal.Hand

end
-- ==== Proof.Ref.Tail.lean ====
/- The reference's vocabulary stages at an index: logits, row maximum, shifted exponential sum, log-softmax, the entries picked by the context words, and the final sum are the specification's loss. -/
import proofs.«402386_j49916109914289_3_alg».proof.Proof.RefRead
import proofs.«402386_j49916109914289_3_alg».proof.Proof.Inputs
import proofs.«402386_j49916109914289_3_alg».proof.Proof.Math
import proofs.«402386_j49916109914289_3_alg».proof.Proof.SpecFin
import Idealize.ShloMosaic.Lib.ValueIdx
import Idealize.ShloMosaic.Lib.Affine
import Idealize.ShloMosaic.PureOps.Reduce
import Idealize.ShloMosaic.PureOps.Ideal.Laws
import Mathlib.Order.CompleteLattice.Finset

noncomputable section

namespace Cert.ReferenceIdeal.Hand

open Cert.ReferenceIdeal Cert.ReferenceIdeal.Gen Cert.ReferenceIdeal.Read Idealize.ShloMosaic Idealize.ShloMosaic.ValueIdx Cert.Hand

theorem lift_row (h : S256x50000.Reduces [1] S256) (b : Fin 256) (k : Fin (S256x50000.size 1)) :
    h.lift (ix1 b) k = ix2 b (⟨k.val, k.isLt⟩ : Fin 50000) := by
  funext c; apply Fin.ext
  fin_cases c <;> rfl

theorem neg_inf_word : Ideal.ofBits .f32 0xFF800000#32 = (⊥ : EReal) := by
  simp [Ideal.ofBits, Ideal.ieee]

theorem reduce_max_row (x : FVec Ideal S256x50000 .f32) (b : Fin 256) :
    Host.reduce FloatOps.maximumf x (constant (F := Ideal) S_ .f32 0xFF800000#32) reducesTo_S256x50000_S256_d1 h_S_ (ix1 b)
      = Finset.univ.sup (fun v : Fin 50000 => (x (ix2 b v) : EReal)) := by
  have h : S256x50000.Reduces [1] S256 := by decide
  rw [Host.reduce_eq_fold_single (FloatOps.maximumf (F := Ideal) (φ := .f32)) x _ reducesTo_S256x50000_S256_d1 h h_S_]
  have hf : (x ∘ h.lift (ix1 b)) = fun k : Fin 50000 => x (ix2 b k) := funext fun k => congrArg x (lift_row h b k)
  have hi : (constant (F := Ideal) S_ .f32 0xFF800000#32) (Shape.Idx.first h_S_) = (⊥ : EReal) := neg_inf_word
  rw [hi]
  show Finset.fold max (⊥ : EReal) (x ∘ h.lift (ix1 b)) (Finset.univ : Finset (Fin 50000)) = _
  rw [hf]
  rfl

theorem lift_last (h : S256x10x1.Reduces [2] S256x10) (b : Fin 256) (c : Fin 10) (k : Fin (S256x10x1.size 2)) :
    h.lift (ix2 b c) k = ix3 b c (0 : Fin 1) := by
  funext a; apply Fin.ext
  have hk : k.val = 0 := by have := k.isLt; have e : S256x10x1.size 2 = 1 := rfl; omega
  fin_cases a
  · rfl
  · rfl
  · exact hk

theorem fold_and_one {n : ℕ} (hn : n = 1) (g : Fin n → BitVec 1) (y : BitVec 1) (hg : ∀ k, g k = y) :
    Finset.fold IntOp.andi (1#1) g (Finset.univ : Finset (Fin n)) = y := by
  subst hn
  rw [Finset.univ_unique, Finset.fold_singleton, hg]
  have key : ∀ y : BitVec 1, IntOp.andi y 1#1 = y := by decide
  exact key y

theorem reduce_and_last (x : IVec S256x10x1 1) (b : Fin 256) (c : Fin 10) :
    Host.reduce IntOp.andi x (constantI S_ 1 1#1) reducesTo_S256x10x1_S256x10_d2 h_S_ (ix2 b c) = x (ix3 b c (0 : Fin 1)) := by
  have h : S256x10x1.Reduces [2] S256x10 := by decide
  rw [Host.reduce_eq_fold_single (IntOp.andi (w := 1)) x _ reducesTo_S256x10x1_S256x10_d2 h h_S_]
  exact fold_and_one rfl _ _ (fun k => congrArg x (lift_last h b c k))

theorem gather_pick {α : Type} (x : S256x50000.Idx → α) (idx : IVec S256x10x1 32) (b : Fin 256) (c : Fin 10) :
    Host.gather gather_S256x50000_S256x10x1_S256x10_n_1_0_0_1_2_11 x idx (ix2 b c)
      = x (ix2 b (⟨min (idx (ix3 b c (0 : Fin 1))).toInt.toNat 49999, by omega⟩ : Fin 50000)) := by
  unfold Host.gather
  congr 1
  funext a
  refine Fin.ext ?_
  show gather_S256x50000_S256x10x1_S256x10_n_1_0_0_1_2_11.start (ix2 b c) idx a
      + gather_S256x50000_S256x10x1_S256x10_n_1_0_0_1_2_11.batchCoord (ix2 b c) a
      + gather_S256x50000_S256x10x1_S256x10_n_1_0_0_1_2_11.offCoord (ix2 b c) a = _
  generalize hd : gather_S256x50000_S256x10x1_S256x10_n_1_0_0_1_2_11 = d
  have hob : d.operandBatchingDims = [0] := by rw [← hd]; rfl
  have hcs : d.collapsedSliceDims = [1] := by rw [← hd]; rfl
  have hsm : d.startIndexMap = [1] := by rw [← hd]; rfl
  match a with
  | ⟨0, _⟩ =>
    have h0 : (0 : Fin S256x50000.rank) ∈ d.operandBatchingDims := by rw [hob]; exact List.mem_singleton.mpr rfl
    rw [show (⟨0, by decide⟩ : Fin S256x50000.rank) = 0 from rfl, d.start_batching _ idx 0 h0,
      d.offCoord_eq_zero _ 0 (fun h => ((d.mem_sKept 0).1 h).2 h0)]
    subst hd
    unfold GatherDims.batchCoord
    rw [dif_pos h0, Nat.zero_add, Nat.add_zero]
    rfl
  | ⟨1, _⟩ =>
    have h1 : (1 : Fin S256x50000.rank) ∈ d.startIndexMap := by rw [hsm]; exact List.mem_singleton.mpr rfl
    have h1c : (1 : Fin S256x50000.rank) ∈ d.collapsedSliceDims := by rw [hcs]; exact List.mem_singleton.mpr rfl
    rw [show (⟨1, by decide⟩ : Fin S256x50000.rank) = 1 from rfl,
      d.batchCoord_eq_zero _ 1 (by rw [hob]; decide),
      d.offCoord_eq_zero _ 1 (fun h => ((d.mem_sKept 1).1 h).1 h1c)]
    subst hd
    unfold GatherDims.start
    rw [dif_pos h1]
    have hsi : gather_S256x50000_S256x10x1_S256x10_n_1_0_0_1_2_11.siIdx (ix2 b c)
        ⟨List.idxOf (1 : Fin S256x50000.rank) gather_S256x50000_S256x10x1_S256x10_n_1_0_0_1_2_11.startIndexMap,
          List.idxOf_lt_length_iff.2 h1⟩ = ix3 b c (0 : Fin 1) := by
      funext e; refine Fin.ext ?_
      match e with
      | ⟨0, _⟩ => rfl
      | ⟨1, _⟩ => rfl
      | ⟨2, _⟩ => rfl
    rw [hsi]
    rfl

theorem zero_word : Ideal.ofBits .f32 0x00000000#32 = (0 : EReal) := by
  simp [Ideal.ofBits, Ideal.ieee]

theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

theorem norm_word (w : BitVec 32) (h0 : 0 ≤ w.toInt) :
    Scalar.select (IntOp.cmpi .slt w 0#32) (IntOp.addi w 50000#32) w = w := by
  have hn : ¬ IntOp.cmpi .slt w 0#32 = 1#1 := fun h => by
    have h' : w.toInt < (0#32 : BitVec 32).toInt := IntOp.cmpi_slt.1 h
    have e : (0#32 : BitVec 32).toInt = 0 := by decide
    omega
  exact if_neg hn

theorem mask_word (w : BitVec 32) (h0 : 0 ≤ w.toInt) (h1 : w.toInt < 50000) :
    IntOp.andi (IntOp.cmpi .sge w 0#32) (IntOp.cmpi .sle w 49999#32) = 1#1 := by
  have e0 : (0#32 : BitVec 32).toInt = 0 := by decide
  have e1 : (49999#32 : BitVec 32).toInt = 49999 := by decide
  exact IntOp.andi_eq_one.2 ⟨IntOp.cmpi_sge.2 (by omega), IntOp.cmpi_sle.2 (by omega)⟩

theorem lidx42 (b : Fin 256) (v : Fin 50000) (k : Fin 256) : lidx_main_v42 (ix2 b v) k = ix2 b k := by
  funext a; match a with | ⟨0, _⟩ => rfl | ⟨1, _⟩ => rfl
theorem ridx42 (b : Fin 256) (v : Fin 50000) (k : Fin 256) : idx_main_v41 (ridx_main_v42 (ix2 b v) k) = ix2 v k := by
  funext a; match a with | ⟨0, _⟩ => rfl | ⟨1, _⟩ => rfl
theorem idx44 (b : Fin 256) (v : Fin 50000) : idx_main_v43 (idx_main_v44 (ix2 b v)) = ix1 v := by
  funext a; match a with | ⟨0, _⟩ => rfl
theorem idxc2v4 (b : Fin 256) (v : Fin 50000) : idx_main_call2_v3 (idx_main_call2_v4 (ix2 b v)) = ix1 b := by
  funext a; match a with | ⟨0, _⟩ => rfl
theorem idxc2v10 (b : Fin 256) (v : Fin 50000) : idx_main_call2_v8 (idx_main_call2_v10 (ix2 b v)) = ix1 b := by
  funext a; match a with | ⟨0, _⟩ => rfl
theorem idxc2v7 (b : Fin 256) (k : Fin 50000) : idx_main_call2_v7 (ix1 b) k = ix2 b k := by
  funext a; match a with | ⟨0, _⟩ => rfl | ⟨1, _⟩ => rfl
theorem idx79 (b : Fin 256) (k : Fin 10) : idx_main_v79 (ix1 b) k = ix2 b k := by
  funext a; match a with | ⟨0, _⟩ => rfl | ⟨1, _⟩ => rfl
theorem idxc4v5 (b : Fin 256) (c : Fin 10) : idx_main_call4_v5 (ix3 b c (0 : Fin 1)) = ix2 b c := by
  funext a; apply Fin.ext
  have hc := c.isLt
  match a with
  | ⟨0, _⟩ => show ((b.val * 10 + c.val) * 1 + 0) / 10 = b.val; omega
  | ⟨1, _⟩ => show ((b.val * 10 + c.val) * 1 + 0) % 10 = c.val; omega

theorem row_algebra (I : Spec.Inp) (hI : Spec.Inp.Finite I) (b : Fin 256) :
    ∑ c : Fin 10, ((Spec.logit I b (I.k b c) - Spec.rowMax I b) - Ideal.log (Spec.rowSum I b))
      = Spec.racc I b - Spec.c10 * Spec.lse I b := by
  choose y hy using fun c : Fin 10 => Spec.logit_real hI b (I.k b c)
  obtain ⟨m, hm⟩ := Spec.rowMax_real hI b
  obtain ⟨l, hl⟩ := Spec.logRowSum_real hI b
  unfold Spec.racc Spec.lse
  rw [hm, hl, Spec.c10_eq]
  simp only [hy]
  rw [Cert.Math.ereal_logsoftmax_sum y m l, ← Cert.Math.ereal_coe_sum, ← EReal.coe_add, ← EReal.coe_mul, ← EReal.coe_sub]
  norm_num

section Chain

variable (x0 : (⟨S256, .i32⟩ : BufTy).Contents (Elt Ideal)) (x1 : (⟨S256x10, .i32⟩ : BufTy).Contents (Elt Ideal))
  (x2 x3 x4 : (⟨S50000x256, .f32⟩ : BufTy).Contents (Elt Ideal)) (x5 : (⟨S512x512, .f32⟩ : BufTy).Contents (Elt Ideal))
  (x6 : (⟨S512, .f32⟩ : BufTy).Contents (Elt Ideal)) (x7 : (⟨S256x512, .f32⟩ : BufTy).Contents (Elt Ideal))
  (x8 : (⟨S256, .f32⟩ : BufTy).Contents (Elt Ideal)) (x9 : (⟨S256x512, .f32⟩ : BufTy).Contents (Elt Ideal))
  (x10 : (⟨S256, .f32⟩ : BufTy).Contents (Elt Ideal)) (x11 : (⟨S50000x256, .f32⟩ : BufTy).Contents (Elt Ideal))
  (x12 : (⟨S50000, .f32⟩ : BufTy).Contents (Elt Ideal)) (x13 : (⟨S256, .f32⟩ : BufTy).Contents (Elt Ideal))
  (I : Spec.Inp)

local notation "V40" => val_main_v40 (F := Ideal) x0 x1 x2 x5 x6 x7 x8 x9 x10 x13
local notation "V45" => val_main_v45 (F := Ideal) x0 x1 x2 x5 x6 x7 x8 x9 x10 x11 x12 x13
local notation "C2V2" => val_main_call2_v2 (F := Ideal) x0 x1 x2 x5 x6 x7 x8 x9 x10 x11 x12 x13
local notation "C2V4" => val_main_call2_v4 (F := Ideal) x0 x1 x2 x5 x6 x7 x8 x9 x10 x11 x12 x13
local notation "C2V5" => val_main_call2_v5 (F := Ideal) x0 x1 x2 x5 x6 x7 x8 x9 x10 x11 x12 x13
local notation "C2V7" => val_main_call2_v7 (F := Ideal) x0 x1 x2 x5 x6 x7 x8 x9 x10 x11 x12 x13
local notation "C2V10" => val_main_call2_v10 (F := Ideal) x0 x1 x2 x5 x6 x7 x8 x9 x10 x11 x12 x13
local notation "V46" => val_main_v46 (F := Ideal) x0 x1 x2 x5 x6 x7 x8 x9 x10 x11 x12 x13
local notation "V77" => val_main_v77 (F := Ideal) x0 x1 x2 x3 x4 x5 x6 x7 x8 x9 x10
local notation "C4V5" => val_main_call4_v5 (F := Ideal) x1
local notation "C4V11" => val_main_call4_v11 (F := Ideal) x1
local notation "C4V12" => val_main_call4_v12 (F := Ideal) x1
local notation "C4V13" => val_main_call4_v13 (F := Ideal) x0 x1 x2 x5 x6 x7 x8 x9 x10 x11 x12 x13
local notation "V78" => val_main_v78 (F := Ideal) x0 x1 x2 x5 x6 x7 x8 x9 x10 x11 x12 x13
local notation "V79" => val_main_v79 (F := Ideal) x0 x1 x2 x5 x6 x7 x8 x9 x10 x11 x12 x13
local notation "V80" => val_main_v80 (F := Ideal) x0 x1 x2 x3 x4 x5 x6 x7 x8 x9 x10 x11 x12 x13
local notation "V81" => val_main_v81 (F := Ideal) x0 x1 x2 x3 x4 x5 x6 x7 x8 x9 x10 x11 x12 x13

theorem read_logit (hvW : I.vW = at2 x11) (hvb : I.vb = at1 x12) (hz : ∀ (b j : Fin 256), V40 (ix2 b j) = Spec.z I b j)
    (b : Fin 256) (v : Fin 50000) : V45 (ix2 b v) = Spec.logit I b v := by
  rw [val_main_v45_apply, val_main_v42_apply, val_main_v44_apply, val_main_v43_apply, idx44, Ideal.addf_def]
  unfold Spec.logit
  rw [hvW, hvb]
  refine congrArg₂ (· + ·) (Finset.sum_congr rfl fun k _ => ?_) rfl
  rw [val_main_v41_apply, lidx42, ridx42, hz]
  rfl

theorem read_rowMax (hlog : ∀ (b : Fin 256) (v : Fin 50000), V45 (ix2 b v) = Spec.logit I b v) (b : Fin 256) : C2V2 (ix1 b) = Spec.rowMax I b := by
  rw [val_main_call2_v2_apply, val_main_call2_v1_apply, val_main_call2_cst_0_apply]
  unfold val_main_call2_v0 val_main_call2_cst
  rw [reduce_max_row, Ideal.maximumf_def, Ideal.ofBits_def, neg_inf_word, max_bot_left]
  unfold Spec.rowMax
  simp only [hlog]

theorem read_M (hlog : ∀ (b : Fin 256) (v : Fin 50000), V45 (ix2 b v) = Spec.logit I b v) (b : Fin 256) (v : Fin 50000) : C2V4 (ix2 b v) = Spec.rowMax I b := by
  rw [val_main_call2_v4_apply, val_main_call2_v3_apply, idxc2v4]
  exact read_rowMax x0 x1 x2 x5 x6 x7 x8 x9 x10 x11 x12 x13 I hlog b

theorem read_shift (hlog : ∀ (b : Fin 256) (v : Fin 50000), V45 (ix2 b v) = Spec.logit I b v) (b : Fin 256) (v : Fin 50000) : C2V5 (ix2 b v) = Spec.logit I b v - Spec.rowMax I b := by
  rw [val_main_call2_v5_apply, Ideal.subf_def, hlog, read_M x0 x1 x2 x5 x6 x7 x8 x9 x10 x11 x12 x13 I hlog]

theorem read_rowSum (hlog : ∀ (b : Fin 256) (v : Fin 50000), V45 (ix2 b v) = Spec.logit I b v) (b : Fin 256) : C2V7 (ix1 b) = Spec.rowSum I b := by
  rw [val_main_call2_v7_apply, val_main_call2_cst_1_apply, Ideal.ofBits_def, zero_word, zero_add]
  unfold Spec.rowSum
  refine Finset.sum_congr rfl fun k _ => ?_
  rw [idxc2v7, val_main_call2_v6_apply, Ideal.hostUnary_exp_def, read_shift x0 x1 x2 x5 x6 x7 x8 x9 x10 x11 x12 x13 I hlog]

theorem read_L (hlog : ∀ (b : Fin 256) (v : Fin 50000), V45 (ix2 b v) = Spec.logit I b v) (b : Fin 256) (v : Fin 50000) : C2V10 (ix2 b v) = Ideal.log (Spec.rowSum I b) := by
  rw [val_main_call2_v10_apply, val_main_call2_v9_apply, Ideal.hostUnary_log_def, val_main_call2_v8_apply, idxc2v10,
    read_rowSum x0 x1 x2 x5 x6 x7 x8 x9 x10 x11 x12 x13 I hlog]

theorem read_logsoftmax (hlog : ∀ (b : Fin 256) (v : Fin 50000), V45 (ix2 b v) = Spec.logit I b v)
    (b : Fin 256) (v : Fin 50000) :
    V46 (ix2 b v) = (Spec.logit I b v - Spec.rowMax I b) - Ideal.log (Spec.rowSum I b) := by
  rw [val_main_v46_apply, Ideal.subf_def, read_shift x0 x1 x2 x5 x6 x7 x8 x9 x10 x11 x12 x13 I hlog,
    read_L x0 x1 x2 x5 x6 x7 x8 x9 x10 x11 x12 x13 I hlog]

variable (hge : ∀ i : S256x10.Idx, 0 ≤ (x1 i).toInt) (hlt : ∀ i : S256x10.Idx, (x1 i).toInt < 50000)
include hge

theorem read_idx (b : Fin 256) (c : Fin 10) : C4V5 (ix3 b c (0 : Fin 1)) = x1 (ix2 b c) := by
  rw [val_main_call4_v5_apply, idxc4v5, val_main_call4_v4_apply, val_main_call4_v1_apply, val_main_call4_v3_apply,
    val_main_call4_v0_apply, val_main_call4_c_apply, val_main_call4_v2_apply, val_main_call4_c_0_apply]
  exact norm_word _ (hge _)

include hlt

theorem read_mask (b : Fin 256) (c : Fin 10) : C4V12 (ix2 b c) = 1#1 := by
  unfold val_main_call4_v12 val_main_call4_c_3
  rw [reduce_and_last, val_main_call4_v11_apply, val_main_call4_v7_apply, val_main_call4_v10_apply, val_main_call4_v6_apply,
    val_main_call4_c_2_apply, val_main_call4_v9_apply, val_main_call4_v8_apply, val_main_call4_c_1_apply,
    read_idx x1 hge]
  exact mask_word _ (hge _) (hlt _)

omit hlt

theorem read_pick (b : Fin 256) (c : Fin 10) : C4V13 (ix2 b c) = V46 (ix2 b (kOf x1 b c)) := by
  unfold val_main_call4_v13
  rw [gather_pick]
  exact congrArg (fun w => V46 (ix2 b (rowOf w))) (read_idx x1 hge b c)

include hlt

theorem read_take (b : Fin 256) (c : Fin 10) : V78 (ix2 b c) = V46 (ix2 b (kOf x1 b c)) := by
  rw [val_main_v78_apply, read_mask x1 hge hlt, select_one, read_pick x0 x1 x2 x5 x6 x7 x8 x9 x10 x11 x12 x13 hge]

theorem read_recon (hlog : ∀ (b : Fin 256) (v : Fin 50000), V45 (ix2 b v) = Spec.logit I b v)
    (hk : I.k = kOf x1) (b : Fin 256) :
    V79 (ix1 b) = ∑ c : Fin 10, ((Spec.logit I b (I.k b c) - Spec.rowMax I b) - Ideal.log (Spec.rowSum I b)) := by
  rw [val_main_v79_apply, val_main_cst_13_apply, Ideal.ofBits_def, zero_word, zero_add]
  refine Finset.sum_congr rfl fun c _ => ?_
  rw [idx79, read_take x0 x1 x2 x5 x6 x7 x8 x9 x10 x11 x12 x13 hge hlt,
    read_logsoftmax x0 x1 x2 x5 x6 x7 x8 x9 x10 x11 x12 x13 I hlog, hk]

theorem read_row (hlog : ∀ (b : Fin 256) (v : Fin 50000), V45 (ix2 b v) = Spec.logit I b v)
    (hI : Spec.Inp.Finite I) (hk : I.k = kOf x1) (hkl : ∀ b : Fin 256, V77 (ix1 b) = Spec.kl I b) (b : Fin 256) :
    V80 (ix1 b) = (Spec.racc I b - Spec.c10 * Spec.lse I b) - Spec.kl I b := by
  rw [val_main_v80_apply, Ideal.subf_def, read_recon x0 x1 x2 x5 x6 x7 x8 x9 x10 x11 x12 x13 I hge hlt hlog hk,
    row_algebra I hI, hkl]

omit hge hlt

theorem ref_result (hI : Spec.Inp.Finite I) (hvW : I.vW = at2 x11) (hvb : I.vb = at1 x12) (hk : I.k = kOf x1)
    (hge : ∀ i : S256x10.Idx, 0 ≤ (x1 i).toInt) (hlt : ∀ i : S256x10.Idx, (x1 i).toInt < 50000)
    (hz : ∀ (b j : Fin 256), V40 (ix2 b j) = Spec.z I b j) (hkl : ∀ b : Fin 256, V77 (ix1 b) = Spec.kl I b) :
    V81 ix0 = Spec.result I := by
  have hlog := read_logit x0 x1 x2 x5 x6 x7 x8 x9 x10 x11 x12 x13 I hvW hvb hz
  rw [val_main_v81_apply, val_main_cst_14_apply, Ideal.ofBits_def, zero_word, zero_add, sum_idx1]
  unfold Spec.result
  exact Finset.sum_congr rfl fun b _ =>
    read_row x0 x1 x2 x3 x4 x5 x6 x7 x8 x9 x10 x11 x12 x13 I hge hlt hlog hI hk hkl b

end Chain

end Cert.ReferenceIdeal.Hand

end
-- ==== Proof.Ref.Value.lean ====
/- The reference's last stage is the specification's loss of the inputs read off its launch memory. -/
import proofs.«402386_j49916109914289_3_alg».proof.Proof.Ref.Enc
import proofs.«402386_j49916109914289_3_alg».proof.Proof.Ref.Tail
import proofs.«402386_j49916109914289_3_alg».proof.Proof.Pre
import proofs.«402386_j49916109914289_3_alg».proof.Proof.SpecFin

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.Hand

theorem v61_sp (x0 : (⟨S256, .i32⟩ : BufTy).Contents (Elt Ideal)) (x4 : (⟨S50000x256, .f32⟩ : BufTy).Contents (Elt Ideal)) (i : S256x256.Idx) :
    val_main_v61 (F := Ideal) x0 x4 i = Spec.sp (val_main_v60 (F := Ideal) x0 x4 i) := by
  rw [val_main_v61_apply, val_main_call3_v4_apply, Enc.cmp_une_self, select_zero, val_main_call3_v11_apply,
    val_main_call3_v1_apply, val_main_call3_v10_apply, val_main_call3_v9_apply, val_main_call3_v8_apply,
    val_main_call3_v7_apply, val_main_call3_v3_apply, val_main_call3_v0_apply, val_main_call3_v2_apply]
  simp only [val_main_call3_cst_apply, Ideal.ofBits_def, Ideal.ofBits_zero_f32, Ideal.subf_def, sub_zero]
  rfl

theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

def inpArgs (x0 : (⟨S256, .i32⟩ : BufTy).Contents (Elt Ideal)) (x1 : (⟨S256x10, .i32⟩ : BufTy).Contents (Elt Ideal))
    (x2 x3 x4 : (⟨S50000x256, .f32⟩ : BufTy).Contents (Elt Ideal)) (x5 : (⟨S512x512, .f32⟩ : BufTy).Contents (Elt Ideal))
    (x6 : (⟨S512, .f32⟩ : BufTy).Contents (Elt Ideal)) (x7 : (⟨S256x512, .f32⟩ : BufTy).Contents (Elt Ideal)) (x8 : (⟨S256, .f32⟩ : BufTy).Contents (Elt Ideal))
    (x9 : (⟨S256x512, .f32⟩ : BufTy).Contents (Elt Ideal)) (x10 : (⟨S256, .f32⟩ : BufTy).Contents (Elt Ideal))
    (x11 : (⟨S50000x256, .f32⟩ : BufTy).Contents (Elt Ideal)) (x12 : (⟨S50000, .f32⟩ : BufTy).Contents (Elt Ideal)) (x13 : (⟨S256, .f32⟩ : BufTy).Contents (Elt Ideal)) : Spec.Inp :=
  inpOf (val_main_v6 (F := Ideal) x0 x2) (val_main_v13 (F := Ideal) x1 x2) (val_main_v53 (F := Ideal) x0 x3)
    (val_main_v61 (F := Ideal) x0 x4) x5 x6 x7 x8 x9 x10 x11 x12 x13 x1

theorem inpArgs_reads (x0 : (⟨S256, .i32⟩ : BufTy).Contents (Elt Ideal)) (x1 : (⟨S256x10, .i32⟩ : BufTy).Contents (Elt Ideal))
    (x2 x3 x4 : (⟨S50000x256, .f32⟩ : BufTy).Contents (Elt Ideal)) (x5 : (⟨S512x512, .f32⟩ : BufTy).Contents (Elt Ideal))
    (x6 : (⟨S512, .f32⟩ : BufTy).Contents (Elt Ideal)) (x7 : (⟨S256x512, .f32⟩ : BufTy).Contents (Elt Ideal)) (x8 : (⟨S256, .f32⟩ : BufTy).Contents (Elt Ideal))
    (x9 : (⟨S256x512, .f32⟩ : BufTy).Contents (Elt Ideal)) (x10 : (⟨S256, .f32⟩ : BufTy).Contents (Elt Ideal))
    (x11 : (⟨S50000x256, .f32⟩ : BufTy).Contents (Elt Ideal)) (x12 : (⟨S50000, .f32⟩ : BufTy).Contents (Elt Ideal)) (x13 : (⟨S256, .f32⟩ : BufTy).Contents (Elt Ideal)) :
    Reads (inpArgs x0 x1 x2 x3 x4 x5 x6 x7 x8 x9 x10 x11 x12 x13) x0 x1 x2 x3 x4 x5 x6 x7 x8 x9 x10 x13 :=
  reads_inpOf x0 x1 x2 x3 x4 x5 x6 x7 x8 x9 x10 x11 x12 x13

theorem inpArgs_finite (x0 : (⟨S256, .i32⟩ : BufTy).Contents (Elt Ideal)) (x1 : (⟨S256x10, .i32⟩ : BufTy).Contents (Elt Ideal))
    (x2 x3 x4 : (⟨S50000x256, .f32⟩ : BufTy).Contents (Elt Ideal)) (x5 : (⟨S512x512, .f32⟩ : BufTy).Contents (Elt Ideal))
    (x6 : (⟨S512, .f32⟩ : BufTy).Contents (Elt Ideal)) (x7 : (⟨S256x512, .f32⟩ : BufTy).Contents (Elt Ideal)) (x8 : (⟨S256, .f32⟩ : BufTy).Contents (Elt Ideal))
    (x9 : (⟨S256x512, .f32⟩ : BufTy).Contents (Elt Ideal)) (x10 : (⟨S256, .f32⟩ : BufTy).Contents (Elt Ideal))
    (x11 : (⟨S50000x256, .f32⟩ : BufTy).Contents (Elt Ideal)) (x12 : (⟨S50000, .f32⟩ : BufTy).Contents (Elt Ideal)) (x13 : (⟨S256, .f32⟩ : BufTy).Contents (Elt Ideal))
    (hR : Cert.Hand.Pre.Reals x1 x2 x3 x4 x5 x6 x7 x8 x9 x10 x11 x12 x13) :
    Spec.Inp.Finite (inpArgs x0 x1 x2 x3 x4 x5 x6 x7 x8 x9 x10 x11 x12 x13) :=
  { cen := fun b d => by
      show ∃ r : ℝ, val_main_v6 (F := Ideal) x0 x2 (ix2 b d) = r
      exact gather_real _ _ _ hR.real2 _
    ctx := fun b k d => by
      show ∃ r : ℝ, val_main_v13 (F := Ideal) x1 x2 (ix3 b k d) = r
      exact gather_real _ _ _ hR.real2 _
    pm := fun b j => by
      show ∃ r : ℝ, val_main_v53 (F := Ideal) x0 x3 (ix2 b j) = r
      exact gather_real _ _ _ hR.real3 _
    pv := fun b j => by
      show ∃ r : ℝ, 0 < r ∧ val_main_v61 (F := Ideal) x0 x4 (ix2 b j) = r
      rw [v61_sp]
      exact Spec.sp_real_pos (gather_real _ _ _ hR.real4 _)
    encW := fun e d => hR.real5 _
    encb := fun e => hR.real6 _
    meanW := fun j e => hR.real7 _
    meanb := fun j => hR.real8 _
    varW := fun j e => hR.real9 _
    varb := fun j => hR.real10 _
    eps := fun j => hR.real13 _
    vW := fun v d => hR.real11 _
    vb := fun v => hR.real12 _ }

variable [Cert.Pre_finite_inputs.Facts]
variable (m' : (ℓ : Loc nD τ sig) → Buf (Elt Ideal) ℓ) (c : Dev nD)

def Ir : Spec.Inp :=
  inpArgs (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))
    (m' ((c.tc : Thread nD τ).loc main_arg5))
    (m' ((c.tc : Thread nD τ).loc main_arg6))
    (m' ((c.tc : Thread nD τ).loc main_arg7))
    (m' ((c.tc : Thread nD τ).loc main_arg8))
    (m' ((c.tc : Thread nD τ).loc main_arg9))
    (m' ((c.tc : Thread nD τ).loc main_arg10))
    (m' ((c.tc : Thread nD τ).loc main_arg11))
    (m' ((c.tc : Thread nD τ).loc main_arg12))
    (m' ((c.tc : Thread nD τ).loc main_arg13))

theorem ir_reads : Reads (Ir m' c) (m' ((c.tc : Thread nD τ).loc main_arg0)) (m' ((c.tc : Thread nD τ).loc main_arg1))
    (m' ((c.tc : Thread nD τ).loc main_arg2)) (m' ((c.tc : Thread nD τ).loc main_arg3)) (m' ((c.tc : Thread nD τ).loc main_arg4))
    (m' ((c.tc : Thread nD τ).loc main_arg5)) (m' ((c.tc : Thread nD τ).loc main_arg6)) (m' ((c.tc : Thread nD τ).loc main_arg7))
    (m' ((c.tc : Thread nD τ).loc main_arg8)) (m' ((c.tc : Thread nD τ).loc main_arg9)) (m' ((c.tc : Thread nD τ).loc main_arg10))
    (m' ((c.tc : Thread nD τ).loc main_arg13)) :=
  inpArgs_reads _ _ _ _ _ _ _ _ _ _ _ _ _ _

theorem ir_finite (h : Cert.Pre_ReferenceIdeal m') : Spec.Inp.Finite (Ir m' c) :=
  inpArgs_finite _ _ _ _ _ _ _ _ _ _ _ _ _ _ (Cert.Hand.Pre.reals_of_pre _ _ _ _ _ _ _ _ _ _ _ _ _ _ (h c))

theorem ref_value (h : Cert.Pre_ReferenceIdeal m') :
    val_main_v81 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) = fun _ => Spec.result (Ir m' c) := by
  have Rl := Cert.Hand.Pre.reals_of_pre _ _ _ _ _ _ _ _ _ _ _ _ _ _ (h c)
  funext i
  rw [eq_ix0 i]
  exact ref_result _ _ _ _ _ _ _ _ _ _ _ _ _ _ (Ir m' c) (ir_finite m' c h) rfl rfl rfl Rl.ids_ge Rl.ids_lt
    (fun b j => ref_z (ir_reads m' c) b j) (fun b => ref_kl (ir_reads m' c) b)

end Cert.ReferenceIdeal.Hand

end
-- ==== Proof.KI.Bridge.lean ====
/- The kernel program's result is the specification's loss of the inputs read off its launch memory. -/
import proofs.«402386_j49916109914289_3_alg».proof.Proof.KI.Plumb
import proofs.«402386_j49916109914289_3_alg».proof.Proof.KI.Gathers
import proofs.«402386_j49916109914289_3_alg».proof.Proof.KI.Tail
import proofs.«402386_j49916109914289_3_alg».proof.Proof.KI.Val0
import proofs.«402386_j49916109914289_3_alg».proof.Proof.KI.Val1
import proofs.«402386_j49916109914289_3_alg».proof.Proof.Math
import proofs.«402386_j49916109914289_3_alg».proof.Proof.SpecFin
import proofs.«402386_j49916109914289_3_alg».proof.Proof.Pre
import proofs.«402386_j49916109914289_3_alg».proof.Proof.Ref.Value

noncomputable section

namespace Cert.KernelIdeal.Hand

open Cert.KernelIdeal Cert.KernelIdeal.Gen Cert.Hand
open Idealize.ShloMosaic Idealize.ShloMosaic.TcCoe Idealize.ShloMosaic.ValueIdx Idealize.SL.Sem Idealize.ShloMosaic.StableHlo

variable [Cert.Pre_finite_inputs.Facts]
variable (m : (ℓ : Loc nD τ sig) → Buf (Elt Ideal) ℓ) (ρ : Dev nD → PrngReg) (c : Dev nD)

def Ik : Spec.Inp :=
  Cert.ReferenceIdeal.Hand.inpArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem Ik_cen : (Ik m c).cen = at2 (V2 m ρ c main_v6) := by
  show at2 (Cert.ReferenceIdeal.Read.val_main_v6 (F := Ideal) (m ((c : Thread nD τ).loc main_arg0)) (m ((c : Thread nD τ).loc main_arg2))) = at2 (Gen.V2 m c (Proc.devRef .tc main_v6))
  rw [v6_eq m c]

theorem Ik_ctx : (Ik m c).ctx = at3 (V2 m ρ c main_v13) := by
  show at3 (Cert.ReferenceIdeal.Read.val_main_v13 (F := Ideal) (m ((c : Thread nD τ).loc main_arg1)) (m ((c : Thread nD τ).loc main_arg2))) = at3 (Gen.V2 m c (Proc.devRef .tc main_v13))
  rw [v13_eq m c]

theorem Ik_pm : (Ik m c).pm = at2 (V2 m ρ c main_v20) := by
  show at2 (Cert.ReferenceIdeal.Read.val_main_v53 (F := Ideal) (m ((c : Thread nD τ).loc main_arg0)) (m ((c : Thread nD τ).loc main_arg3))) = at2 (Gen.V2 m c (Proc.devRef .tc main_v20))
  rw [v20_eq m c]

theorem Ik_pv : (Ik m c).pv = at2 (V2 m ρ c main_v28) := by
  show at2 (Cert.ReferenceIdeal.Read.val_main_v61 (F := Ideal) (m ((c : Thread nD τ).loc main_arg0)) (m ((c : Thread nD τ).loc main_arg4))) = at2 (Gen.V2 m c (Proc.devRef .tc main_v28))
  rw [v28_eq m c]

theorem Ik_encW : (Ik m c).encW = at2 (V2 m ρ c main_arg5) := by rw [V2_at_main_arg5]; rfl
theorem Ik_encb : (Ik m c).encb = at1 (V2 m ρ c main_arg6) := by rw [V2_at_main_arg6]; rfl
theorem Ik_meanW : (Ik m c).meanW = at2 (V2 m ρ c main_arg7) := by rw [V2_at_main_arg7]; rfl
theorem Ik_meanb : (Ik m c).meanb = at1 (V2 m ρ c main_arg8) := by rw [V2_at_main_arg8]; rfl
theorem Ik_varW : (Ik m c).varW = at2 (V2 m ρ c main_arg9) := by rw [V2_at_main_arg9]; rfl
theorem Ik_varb : (Ik m c).varb = at1 (V2 m ρ c main_arg10) := by rw [V2_at_main_arg10]; rfl
theorem Ik_eps : (Ik m c).eps = at1 (V2 m ρ c main_arg13) := by rw [V2_at_main_arg13]; rfl

theorem z_at (b j : Fin 256) : (dat0 (V2 m ρ) c).arrAt 11 cfg0.N (ix2 b j) = Spec.z (Ik m c) b j :=
  Val0.z_arr (V2 m ρ) c (Ik m c) (Ik_cen m ρ c) (Ik_ctx m ρ c) (Ik_encW m ρ c) (Ik_encb m ρ c) (Ik_meanW m ρ c) (Ik_meanb m ρ c)
    (Ik_varW m ρ c) (Ik_varb m ρ c) (Ik_eps m ρ c) (Ik_pm m ρ c) (Ik_pv m ρ c) b j

theorem kl_at (b : Fin 256) : (dat0 (V2 m ρ) c).arrAt 12 cfg0.N (ix2 b (0 : Fin 1)) = Spec.kl (Ik m c) b :=
  Val0.kl_arr (V2 m ρ) c (Ik m c) (Ik_cen m ρ c) (Ik_ctx m ρ c) (Ik_encW m ρ c) (Ik_encb m ρ c) (Ik_meanW m ρ c) (Ik_meanb m ρ c)
    (Ik_varW m ρ c) (Ik_varb m ρ c) (Ik_eps m ρ c) (Ik_pm m ρ c) (Ik_pv m ρ c) b

abbrev zA : S256x256.Idx → EReal := V4 m ρ c main_v29_0
abbrev wA : S50000x256.Idx → EReal := V4 m ρ c main_arg11
abbrev bA : S1x50000.Idx → EReal := V4 m ρ c main_v31
abbrev mA : S2x256x1.Idx → EReal := (dat1 (V4 m ρ) c).arrAt 3 cfg1.N
abbrev lA : S2x256x1.Idx → EReal := (dat1 (V4 m ρ) c).arrAt 4 cfg1.N

def lgK (b : Fin 256) (v : Fin 50000) : EReal :=
  (∑ d : Fin 256, zA m ρ c (ix2 b d) * wA m ρ c (ix2 v d)) + bA m ρ c (ix2 (0 : Fin 1) v)

def half (p : Fin 2) : Finset (Fin 50000) := Finset.univ.filter (fun v : Fin 50000 => v.val / 25600 = p.val)

theorem half_union : half 0 ∪ half 1 = Finset.univ := by
  ext v
  simp only [half, Finset.mem_union, Finset.mem_filter, Finset.mem_univ, true_and, iff_true]
  have hv := v.isLt
  show v.val / 25600 = 0 ∨ v.val / 25600 = 1
  omega

theorem half_disjoint : Disjoint (half 0) (half 1) := by
  rw [Finset.disjoint_left]
  intro v h0 h1
  simp only [half, Finset.mem_filter, Finset.mem_univ, true_and] at h0 h1
  have e : (0 : Fin 2).val = (1 : Fin 2).val := h0.symm.trans h1
  exact absurd e (by decide)

theorem lg_eq (b : Fin 256) (v : Fin 50000) : lgK m ρ c b v = Spec.logit (Ik m c) b v := by
  unfold lgK zA wA bA
  rw [V4_at_main_v29_0, V4_at_main_arg11, V4_at_main_v31]
  unfold Spec.logit
  simp only [z_at]
  rfl

theorem kernel_value_of (hpre : Cert.Pre_KernelIdeal m)
    (hm : ∀ (p : Fin 2) (b : Fin 256), mA m ρ c (ix3 p b (0 : Fin 1)) = (half p).sup (lgK m ρ c b))
    (hl : ∀ (p : Fin 2) (b : Fin 256), lA m ρ c (ix3 p b (0 : Fin 1))
      = ∑ v ∈ half p, Ideal.exp (lgK m ρ c b v - (half p).sup (lgK m ρ c b))) :
    W6 m ρ c (Proc.devRef .tc main_v75) = fun _ => Spec.result (Ik m c) := by
  have Rl := Cert.Hand.Pre.reals_of_Pre_KernelIdeal m hpre c
  have hfin : Spec.Inp.Finite (Ik m c) := Cert.ReferenceIdeal.Hand.inpArgs_finite _ _ _ _ _ _ _ _ _ _ _ _ _ _ Rl
  funext i
  rw [eq_ix0 i]
  change @Eq EReal (StableHlo.after (hostOps2 (F := Ideal)) (W5 m ρ c) (Proc.devRef .tc main_v75) ix0) (Spec.result (Ik m c))
  have hids : ∀ (b : Fin 256) (k : Fin 10), 0 ≤ (Tail.aIds (W5 m ρ c) (ix2 b k) : BitVec 32).toInt
      ∧ (Tail.aIds (W5 m ρ c) (ix2 b k) : BitVec 32).toInt < 50000 := fun b k => by
    unfold Tail.aIds
    rw [W5_at_main_arg1]
    exact ⟨Rl.ids_ge _, Rl.ids_lt _⟩
  rw [Tail.tail_value (W5 m ρ c) hids]
  unfold Spec.result
  refine Finset.sum_congr rfl fun b _ => ?_
  have hracc : (∑ k : Fin 10, ((∑ d : Fin 256, Tail.aZ (W5 m ρ c) (ix2 b d) * Tail.aW (W5 m ρ c) (ix2 (kOf (Tail.aIds (W5 m ρ c)) b k) d))
      + Tail.aB (W5 m ρ c) (ix1 (kOf (Tail.aIds (W5 m ρ c)) b k)))) = Spec.racc (Ik m c) b := by
    unfold Tail.aZ Tail.aW Tail.aB Tail.aIds
    rw [W5_at_main_v29_0, W5_at_main_arg11, W5_at_main_arg12, W5_at_main_arg1]
    simp only [z_at]
    rfl
  have hkl : Tail.aKL (W5 m ρ c) (ix1 b) = Spec.kl (Ik m c) b := (W5_at_main_v30 m ρ c b).trans (kl_at m ρ c b)
  have hfun : lgK m ρ c b = Spec.logit (Ik m c) b := funext fun v => lg_eq m ρ c b v
  have hM : ∀ p : Fin 2, Tail.aM (W5 m ρ c) (ix3 p b (0 : Fin 1)) = (half p).sup (Spec.logit (Ik m c) b) := fun p => by
    unfold Tail.aM
    rw [W5_at_main_v32_0]
    exact (hm p b).trans (by rw [hfun])
  have hL : ∀ p : Fin 2, Tail.aL (W5 m ρ c) (ix3 p b (0 : Fin 1))
      = ∑ v ∈ half p, Ideal.exp (Spec.logit (Ik m c) b v - (half p).sup (Spec.logit (Ik m c) b)) := fun p => by
    unfold Tail.aL
    rw [W5_at_main_v32_1]
    exact (hl p b).trans (by rw [hfun])
  have hI : ∀ p : Fin 2, Cert.Math.IsLSE (Spec.logit (Ik m c) b) (half p) (Tail.aM (W5 m ρ c) (ix3 p b (0 : Fin 1)))
      (Tail.aL (W5 m ρ c) (ix3 p b (0 : Fin 1))) := fun p => by
    rw [hM p, hL p]; exact Cert.Math.IsLSE.refl _ _
  have hc := Cert.Math.IsLSE.combine (hI 0) (hI 1) half_disjoint (fun v _ => by
    obtain ⟨r, hr⟩ := Spec.logit_real hfin b v
    rw [hr]; exact EReal.coe_ne_top r)
  rw [half_union] at hc
  have hlse := hc.lse_eq
  rw [hracc, hkl, hlse]
  rfl

theorem kernel_value (hpre : Cert.Pre_KernelIdeal m) :
    W6 m ρ c (Proc.devRef .tc main_v75) = fun _ => Spec.result (Ik m c) := by
  have Rl := Cert.Hand.Pre.reals_of_Pre_KernelIdeal m hpre c
  have hfin : Spec.Inp.Finite (Ik m c) := Cert.ReferenceIdeal.Hand.inpArgs_finite _ _ _ _ _ _ _ _ _ _ _ _ _ _ Rl
  have hZ : ∀ j : S256x256.Idx, ∃ r : ℝ, (V4 m ρ c main_v29_0 : S256x256.Idx → EReal) j = (r : EReal) := fun j => by
    obtain ⟨a, b, rfl⟩ : ∃ (a b : Fin 256), j = ix2 a b := ⟨j 0, j 1, eq_ix2 j⟩
    rw [V4_at_main_v29_0, z_at]
    exact Spec.z_real hfin a b
  have hW : ∀ j : S50000x256.Idx, ∃ r : ℝ, (V4 m ρ c main_arg11 : S50000x256.Idx → EReal) j = (r : EReal) := fun j => by
    rw [V4_at_main_arg11]
    exact Rl.real11 j
  have hB : ∀ j : S1x50000.Idx, ∃ r : ℝ, (V4 m ρ c main_v31 : S1x50000.Idx → EReal) j = (r : EReal) := fun j => by
    obtain ⟨u, v, rfl⟩ : ∃ (u : Fin 1) (v : Fin 50000), j = ix2 u v := ⟨j 0, j 1, eq_ix2 j⟩
    obtain rfl : u = 0 := Subsingleton.elim _ _
    rw [V4_at_main_v31]
    exact Rl.real12 _
  exact kernel_value_of m ρ c hpre (mpart (V4 m ρ) c hZ hW hB) (lpart (V4 m ρ) c hZ hW hB)

end Cert.KernelIdeal.Hand

end
-- ==== Proof.RefC12.lean ====
/- Chunks 1 and 2 of the reference's operations: what each leaves, as stages of what it starts from. -/
import proofs.«402386_j49916109914289_3_alg».proof.Proof.RefRead

noncomputable section

namespace Cert.ReferenceIdeal.Hand.Chunks

open Cert.ReferenceIdeal Cert.ReferenceIdeal.Gen Cert.ReferenceIdeal.Value Cert.ReferenceIdeal.Read Idealize.ShloMosaic Idealize.ShloMosaic.StableHlo

variable {F : FTy → Type} [FloatOps F]

theorem c1_v15 (W : Valuation τ sig (Elt F)) (x0 : (⟨S256, .i32⟩ : BufTy).Contents (Elt F)) (x2 : (⟨S50000x256, .f32⟩ : BufTy).Contents (Elt F))
    (h0 : W (Proc.devRef .tc main_arg0) = x0) (h2 : W (Proc.devRef .tc main_arg2) = x2) :
    after (ops1 (F := F)) W (Proc.devRef .tc main_v15) = val_main_v15 (F := F) x0 x2 := by
  after_results_simp
  rw [h0, h2]
  rfl

theorem c1_v13 (W : Valuation τ sig (Elt F)) (x1 : (⟨S256x10, .i32⟩ : BufTy).Contents (Elt F)) (x2 : (⟨S50000x256, .f32⟩ : BufTy).Contents (Elt F))
    (h1 : W (Proc.devRef .tc main_arg1) = x1) (h2 : W (Proc.devRef .tc main_arg2) = x2) :
    after (ops1 (F := F)) W (Proc.devRef .tc main_v13) = val_main_v13 (F := F) x1 x2 := by
  after_results_simp
  rw [h1, h2]
  rfl

theorem c2_v22 (W : Valuation τ sig (Elt F)) (x0 : (⟨S256, .i32⟩ : BufTy).Contents (Elt F)) (x1 : (⟨S256x10, .i32⟩ : BufTy).Contents (Elt F)) (x2 : (⟨S50000x256, .f32⟩ : BufTy).Contents (Elt F)) (x5 : (⟨S512x512, .f32⟩ : BufTy).Contents (Elt F)) (x6 : (⟨S512, .f32⟩ : BufTy).Contents (Elt F))
    (h15 : W (Proc.devRef .tc main_v15) = val_main_v15 (F := F) x0 x2) (h13 : W (Proc.devRef .tc main_v13) = val_main_v13 (F := F) x1 x2)
    (h5 : W (Proc.devRef .tc main_arg5) = x5) (h6 : W (Proc.devRef .tc main_arg6) = x6) :
    after (ops2 (F := F)) W (Proc.devRef .tc main_v22) = val_main_v22 (F := F) x0 x1 x2 x5 x6 := by
  after_results_simp
  rw [h15, h13, h5, h6]
  rfl

theorem c1_pass_arg (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    StableHlo.after (ops1 (F := F)) W (Proc.devRef .tc r) = W (Proc.devRef .tc r) := by
  simp only [List.mem_cons, List.mem_singleton, List.not_mem_nil, or_false] at hr
  rcases hr with rfl | rfl | rfl | rfl | rfl | rfl | rfl | rfl | rfl | rfl | rfl | rfl | rfl | rfl <;> (after_results_simp <;> rfl)

theorem c2_pass_arg (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    StableHlo.after (ops2 (F := F)) W (Proc.devRef .tc r) = W (Proc.devRef .tc r) := by
  simp only [List.mem_cons, List.mem_singleton, List.not_mem_nil, or_false] at hr
  rcases hr with rfl | rfl | rfl | rfl | rfl | rfl | rfl | rfl | rfl | rfl | rfl | rfl | rfl | rfl <;> (after_results_simp <;> rfl)

end Cert.ReferenceIdeal.Hand.Chunks

end
-- ==== Proof.RefC34.lean ====
/- Chunks 3 and 4 of the reference's operations: what each leaves, as stages of what it starts from. -/
import proofs.«402386_j49916109914289_3_alg».proof.Proof.RefRead

noncomputable section

namespace Cert.ReferenceIdeal.Hand.Chunks

open Cert.ReferenceIdeal Cert.ReferenceIdeal.Gen Cert.ReferenceIdeal.Value Cert.ReferenceIdeal.Read Idealize.ShloMosaic
  Idealize.ShloMosaic.StableHlo

variable {F : FTy → Type} [FloatOps F]

theorem c3_v27 (W : Valuation τ sig (Elt F)) (x0 : (⟨S256, .i32⟩ : BufTy).Contents (Elt F)) (x1 : (⟨S256x10, .i32⟩ : BufTy).Contents (Elt F))
    (x2 : (⟨S50000x256, .f32⟩ : BufTy).Contents (Elt F)) (x5 : (⟨S512x512, .f32⟩ : BufTy).Contents (Elt F)) (x6 : (⟨S512, .f32⟩ : BufTy).Contents (Elt F))
    (x7 : (⟨S256x512, .f32⟩ : BufTy).Contents (Elt F)) (x8 : (⟨S256, .f32⟩ : BufTy).Contents (Elt F))
    (h22 : W (Proc.devRef .tc main_v22) = val_main_v22 (F := F) x0 x1 x2 x5 x6)
    (h7 : W (Proc.devRef .tc main_arg7) = x7) (h8 : W (Proc.devRef .tc main_arg8) = x8) :
    StableHlo.after ops3 W (Proc.devRef .tc main_v27) = val_main_v27 (F := F) x0 x1 x2 x5 x6 x7 x8 := by
  after_results_simp
  rw [h22, h7, h8]
  rfl

theorem c3_v33 (W : Valuation τ sig (Elt F)) (x0 : (⟨S256, .i32⟩ : BufTy).Contents (Elt F)) (x1 : (⟨S256x10, .i32⟩ : BufTy).Contents (Elt F))
    (x2 : (⟨S50000x256, .f32⟩ : BufTy).Contents (Elt F)) (x5 : (⟨S512x512, .f32⟩ : BufTy).Contents (Elt F)) (x6 : (⟨S512, .f32⟩ : BufTy).Contents (Elt F))
    (x9 : (⟨S256x512, .f32⟩ : BufTy).Contents (Elt F)) (x10 : (⟨S256, .f32⟩ : BufTy).Contents (Elt F))
    (h22 : W (Proc.devRef .tc main_v22) = val_main_v22 (F := F) x0 x1 x2 x5 x6)
    (h9 : W (Proc.devRef .tc main_arg9) = x9) (h10 : W (Proc.devRef .tc main_arg10) = x10) :
    StableHlo.after ops3 W (Proc.devRef .tc main_v33) = val_main_v33 (F := F) x0 x1 x2 x5 x6 x9 x10 := by
  after_results_simp
  rw [h22, h9, h10]
  rfl

theorem c3_pass_arg (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    StableHlo.after ops3 W (Proc.devRef .tc r) = W (Proc.devRef .tc r) := by
  simp only [List.mem_cons, List.mem_singleton, List.not_mem_nil, or_false] at hr
  rcases hr with rfl | rfl | rfl | rfl | rfl | rfl | rfl | rfl | rfl | rfl | rfl | rfl | rfl | rfl <;> after_results_simp

theorem c4_v40 (W : Valuation τ sig (Elt F)) (x0 : (⟨S256, .i32⟩ : BufTy).Contents (Elt F)) (x1 : (⟨S256x10, .i32⟩ : BufTy).Contents (Elt F))
    (x2 : (⟨S50000x256, .f32⟩ : BufTy).Contents (Elt F)) (x5 : (⟨S512x512, .f32⟩ : BufTy).Contents (Elt F)) (x6 : (⟨S512, .f32⟩ : BufTy).Contents (Elt F))
    (x7 : (⟨S256x512, .f32⟩ : BufTy).Contents (Elt F)) (x8 : (⟨S256, .f32⟩ : BufTy).Contents (Elt F)) (x9 : (⟨S256x512, .f32⟩ : BufTy).Contents (Elt F))
    (x10 x13 : (⟨S256, .f32⟩ : BufTy).Contents (Elt F))
    (h33 : W (Proc.devRef .tc main_v33) = val_main_v33 (F := F) x0 x1 x2 x5 x6 x9 x10)
    (h27 : W (Proc.devRef .tc main_v27) = val_main_v27 (F := F) x0 x1 x2 x5 x6 x7 x8)
    (h13 : W (Proc.devRef .tc main_arg13) = x13) :
    StableHlo.after ops4 W (Proc.devRef .tc main_v40) = val_main_v40 (F := F) x0 x1 x2 x5 x6 x7 x8 x9 x10 x13 := by
  after_results_simp
  rw [h33, h27, h13]
  rfl

theorem c4_pass_arg (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    StableHlo.after ops4 W (Proc.devRef .tc r) = W (Proc.devRef .tc r) := by
  simp only [List.mem_cons, List.mem_singleton, List.not_mem_nil, or_false] at hr
  rcases hr with rfl | rfl | rfl | rfl | rfl | rfl | rfl | rfl | rfl | rfl | rfl | rfl | rfl | rfl <;> after_results_simp

theorem c4_pass_v27 (W : Valuation τ sig (Elt F)) :
    StableHlo.after ops4 W (Proc.devRef .tc main_v27) = W (Proc.devRef .tc main_v27) := by
  after_results_simp

theorem c4_pass_v33 (W : Valuation τ sig (Elt F)) :
    StableHlo.after ops4 W (Proc.devRef .tc main_v33) = W (Proc.devRef .tc main_v33) := by
  after_results_simp

end Cert.ReferenceIdeal.Hand.Chunks

end
-- ==== Proof.RefC5.lean ====
/- Chunk 5 of the reference's operations, the logits and their log-softmax, read in four pieces. -/
import proofs.«402386_j49916109914289_3_alg».proof.Proof.RefRead
import Idealize.ShloMosaic.Lib.Pipeline.Frame

noncomputable section

namespace Cert.ReferenceIdeal.Hand.Chunks

open Cert.ReferenceIdeal Cert.ReferenceIdeal.Gen Cert.ReferenceIdeal.Value Cert.ReferenceIdeal.Read Idealize.ShloMosaic Idealize.ShloMosaic.StableHlo

variable {F : FTy → Type} [FloatOps F]

abbrev ops5a : List (HloOp τ sig (Elt F)) :=
  [ unary main_arg11 main_v41 ((transpose S256x50000 [1, 0] · transposes_S50000x256_S256x50000_1_0) : (⟨S50000x256, .f32⟩ : BufTy).Contents (Elt F) → (⟨S256x50000, .f32⟩ : BufTy).Contents (Elt F)),
    binary main_v40 main_v41 main_v42 ((fun l r => Host.dotGeneral dot_S256x256_S256x50000_S256x50000_1_0_0_1_n_n none l r) : (⟨S256x256, .f32⟩ : BufTy).Contents (Elt F) → (⟨S256x50000, .f32⟩ : BufTy).Contents (Elt F) → (⟨S256x50000, .f32⟩ : BufTy).Contents (Elt F)),
    unary main_arg12 main_v43 (broadcastInDim S1x50000 ![1] bcast_S50000_S1x50000_1 : (⟨S50000, .f32⟩ : BufTy).Contents (Elt F) → (⟨S1x50000, .f32⟩ : BufTy).Contents (Elt F)),
    unary main_v43 main_v44 (broadcastInDim S256x50000 ![0, 1] bcast_S1x50000_S256x50000_0_1 : (⟨S1x50000, .f32⟩ : BufTy).Contents (Elt F) → (⟨S256x50000, .f32⟩ : BufTy).Contents (Elt F)),
    binary main_v42 main_v44 main_v45 (addf : (⟨S256x50000, .f32⟩ : BufTy).Contents (Elt F) → (⟨S256x50000, .f32⟩ : BufTy).Contents (Elt F) → (⟨S256x50000, .f32⟩ : BufTy).Contents (Elt F)) ]

abbrev ops5b : List (HloOp τ sig (Elt F)) :=
  [ TRef.nullary (TRef.of (T := ⟨S_, .f32⟩) main_call2_cst) (constant S_ .f32 0xFF800000#32),
    TRef.binary (TRef.of (T := ⟨S256x50000, .f32⟩) main_v45) (TRef.of (T := ⟨S_, .f32⟩) main_call2_cst) (TRef.of (T := ⟨S256, .f32⟩) main_call2_v0) (fun x v => Host.reduce FloatOps.maximumf x v reducesTo_S256x50000_S256_d1 h_S_) ]

abbrev ops5c : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S256, .f32⟩) main_call2_v1) (broadcastInDim S256 ![] bcast_S_S256),
    TRef.binary (TRef.of (T := ⟨S256, .f32⟩) main_call2_v1) (TRef.of (T := ⟨S256, .f32⟩) main_call2_v0) (TRef.of (T := ⟨S256, .f32⟩) main_call2_v2) maximumf,
    TRef.unary (TRef.of (T := ⟨S256, .f32⟩) main_call2_v2) (TRef.of (T := ⟨S256x1, .f32⟩) main_call2_v3) (broadcastInDim S256x1 ![0] bcast_S256_S256x1_0),
    TRef.unary (TRef.of (T := ⟨S256x1, .f32⟩) main_call2_v3) (TRef.of (T := ⟨S256x50000, .f32⟩) main_call2_v4) (broadcastInDim S256x50000 ![0, 1] bcast_S256x1_S256x50000_0_1),
    TRef.binary (TRef.of (T := ⟨S256x50000, .f32⟩) main_v45) (TRef.of (T := ⟨S256x50000, .f32⟩) main_call2_v4) (TRef.of (T := ⟨S256x50000, .f32⟩) main_call2_v5) subf ]

abbrev ops5d : List (HloOp τ sig (Elt F)) :=
  [ TRef.unary (TRef.of (T := ⟨S256x50000, .f32⟩) main_call2_v5) (TRef.of (T := ⟨S256x50000, .f32⟩) main_call2_v6) Host.exp,
    TRef.nullary (TRef.of (T := ⟨S_, .f32⟩) main_call2_cst_1) (constant S_ .f32 0x00000000#32),
    TRef.binary (TRef.of (T := ⟨S256x50000, .f32⟩) main_call2_v6) (TRef.of (T := ⟨S_, .f32⟩) main_call2_cst_1) (TRef.of (T := ⟨S256, .f32⟩) main_call2_v7) (fun x v => Host.reduceAdd x v reducesTo_S256x50000_S256_d1 h_S_),
    TRef.unary (TRef.of (T := ⟨S256, .f32⟩) main_call2_v7) (TRef.of (T := ⟨S256x1, .f32⟩) main_call2_v8) (broadcastInDim S256x1 ![0] bcast_S256_S256x1_0),
    TRef.unary (TRef.of (T := ⟨S256x1, .f32⟩) main_call2_v8) (TRef.of (T := ⟨S256x1, .f32⟩) main_call2_v9) Host.log,
    TRef.unary (TRef.of (T := ⟨S256x1, .f32⟩) main_call2_v9) (TRef.of (T := ⟨S256x50000, .f32⟩) main_call2_v10) (broadcastInDim S256x50000 ![0, 1] bcast_S256x1_S256x50000_0_1),
    TRef.binary (TRef.of (T := ⟨S256x50000, .f32⟩) main_call2_v5) (TRef.of (T := ⟨S256x50000, .f32⟩) main_call2_v10) (TRef.of (T := ⟨S256x50000, .f32⟩) main_v46) subf ]

theorem ops5_split : (ops5 : List (HloOp τ sig (Elt F))) = ops5a ++ (ops5b ++ (ops5c ++ ops5d)) := rfl

theorem ofBuf_toBuf {T : BufTy} (x : TRef sig T) (v : T.Contents (Elt F)) : x.ofBuf (x.toBuf v) = v := by
  obtain ⟨r, h, hd, hs⟩ := x
  subst h
  rfl

theorem ofBuf_v45 (v : (⟨S256x50000, .f32⟩ : BufTy).Contents (Elt F)) :
    (TRef.of (T := ⟨S256x50000, .f32⟩) main_v45).ofBuf v = v := rfl
theorem ofBuf_call2_v0 (v : (⟨S256, .f32⟩ : BufTy).Contents (Elt F)) :
    (TRef.of (T := ⟨S256, .f32⟩) main_call2_v0).ofBuf v = v := rfl
theorem toBuf_call2_v5 (v : (⟨S256x50000, .f32⟩ : BufTy).Contents (Elt F)) :
    (TRef.of (T := ⟨S256x50000, .f32⟩) main_call2_v5).toBuf v = v := rfl

theorem s5a (W : Valuation τ sig (Elt F)) (x0 : (⟨S256, .i32⟩ : BufTy).Contents (Elt F)) (x1 : (⟨S256x10, .i32⟩ : BufTy).Contents (Elt F)) (x2 : (⟨S50000x256, .f32⟩ : BufTy).Contents (Elt F)) (x5 : (⟨S512x512, .f32⟩ : BufTy).Contents (Elt F)) (x6 : (⟨S512, .f32⟩ : BufTy).Contents (Elt F)) (x7 : (⟨S256x512, .f32⟩ : BufTy).Contents (Elt F)) (x8 : (⟨S256, .f32⟩ : BufTy).Contents (Elt F)) (x9 : (⟨S256x512, .f32⟩ : BufTy).Contents (Elt F)) (x10 : (⟨S256, .f32⟩ : BufTy).Contents (Elt F)) (x11 : (⟨S50000x256, .f32⟩ : BufTy).Contents (Elt F)) (x12 : (⟨S50000, .f32⟩ : BufTy).Contents (Elt F)) (x13 : (⟨S256, .f32⟩ : BufTy).Contents (Elt F))
    (h40 : W (Proc.devRef .tc main_v40) = val_main_v40 (F := F) x0 x1 x2 x5 x6 x7 x8 x9 x10 x13) (h11 : W (Proc.devRef .tc main_arg11) = x11) (h12 : W (Proc.devRef .tc main_arg12) = x12) :
    after (ops5a (F := F)) W (Proc.devRef .tc main_v45) = val_main_v45 (F := F) x0 x1 x2 x5 x6 x7 x8 x9 x10 x11 x12 x13 := by
  after_results_simp
  rw [h40, h11, h12]
  rfl

theorem s5b (W : Valuation τ sig (Elt F)) (x0 : (⟨S256, .i32⟩ : BufTy).Contents (Elt F)) (x1 : (⟨S256x10, .i32⟩ : BufTy).Contents (Elt F)) (x2 : (⟨S50000x256, .f32⟩ : BufTy).Contents (Elt F)) (x5 : (⟨S512x512, .f32⟩ : BufTy).Contents (Elt F)) (x6 : (⟨S512, .f32⟩ : BufTy).Contents (Elt F)) (x7 : (⟨S256x512, .f32⟩ : BufTy).Contents (Elt F)) (x8 : (⟨S256, .f32⟩ : BufTy).Contents (Elt F)) (x9 : (⟨S256x512, .f32⟩ : BufTy).Contents (Elt F)) (x10 : (⟨S256, .f32⟩ : BufTy).Contents (Elt F)) (x11 : (⟨S50000x256, .f32⟩ : BufTy).Contents (Elt F)) (x12 : (⟨S50000, .f32⟩ : BufTy).Contents (Elt F)) (x13 : (⟨S256, .f32⟩ : BufTy).Contents (Elt F))
    (h45 : W (Proc.devRef .tc main_v45) = val_main_v45 (F := F) x0 x1 x2 x5 x6 x7 x8 x9 x10 x11 x12 x13) :
    after (ops5b (F := F)) W (Proc.devRef .tc main_call2_v0) = val_main_call2_v0 (F := F) x0 x1 x2 x5 x6 x7 x8 x9 x10 x11 x12 x13 := by
  after_results_simp
  rw [h45]
  simp only [TRef.ofBuf, TRef.toBuf, cast_eq]
  rfl

theorem s5b_v45 (W : Valuation τ sig (Elt F)) :
    after (ops5b (F := F)) W (Proc.devRef .tc main_v45) = W (Proc.devRef .tc main_v45) := by
  after_results_simp <;> rfl

theorem s5c (W : Valuation τ sig (Elt F)) (x0 : (⟨S256, .i32⟩ : BufTy).Contents (Elt F)) (x1 : (⟨S256x10, .i32⟩ : BufTy).Contents (Elt F)) (x2 : (⟨S50000x256, .f32⟩ : BufTy).Contents (Elt F)) (x5 : (⟨S512x512, .f32⟩ : BufTy).Contents (Elt F)) (x6 : (⟨S512, .f32⟩ : BufTy).Contents (Elt F)) (x7 : (⟨S256x512, .f32⟩ : BufTy).Contents (Elt F)) (x8 : (⟨S256, .f32⟩ : BufTy).Contents (Elt F)) (x9 : (⟨S256x512, .f32⟩ : BufTy).Contents (Elt F)) (x10 : (⟨S256, .f32⟩ : BufTy).Contents (Elt F)) (x11 : (⟨S50000x256, .f32⟩ : BufTy).Contents (Elt F)) (x12 : (⟨S50000, .f32⟩ : BufTy).Contents (Elt F)) (x13 : (⟨S256, .f32⟩ : BufTy).Contents (Elt F))
    (h45 : W (Proc.devRef .tc main_v45) = val_main_v45 (F := F) x0 x1 x2 x5 x6 x7 x8 x9 x10 x11 x12 x13) (h0 : W (Proc.devRef .tc main_call2_v0) = val_main_call2_v0 (F := F) x0 x1 x2 x5 x6 x7 x8 x9 x10 x11 x12 x13) :
    after (ops5c (F := F)) W (Proc.devRef .tc main_call2_v5) = val_main_call2_v5 (F := F) x0 x1 x2 x5 x6 x7 x8 x9 x10 x11 x12 x13 := by
  after_results_simp
  rw [h45, h0]
  simp only [ofBuf_toBuf]
  rw [ofBuf_v45, ofBuf_call2_v0, toBuf_call2_v5]
  rfl

theorem s5d (W : Valuation τ sig (Elt F)) (x0 : (⟨S256, .i32⟩ : BufTy).Contents (Elt F)) (x1 : (⟨S256x10, .i32⟩ : BufTy).Contents (Elt F)) (x2 : (⟨S50000x256, .f32⟩ : BufTy).Contents (Elt F)) (x5 : (⟨S512x512, .f32⟩ : BufTy).Contents (Elt F)) (x6 : (⟨S512, .f32⟩ : BufTy).Contents (Elt F)) (x7 : (⟨S256x512, .f32⟩ : BufTy).Contents (Elt F)) (x8 : (⟨S256, .f32⟩ : BufTy).Contents (Elt F)) (x9 : (⟨S256x512, .f32⟩ : BufTy).Contents (Elt F)) (x10 : (⟨S256, .f32⟩ : BufTy).Contents (Elt F)) (x11 : (⟨S50000x256, .f32⟩ : BufTy).Contents (Elt F)) (x12 : (⟨S50000, .f32⟩ : BufTy).Contents (Elt F)) (x13 : (⟨S256, .f32⟩ : BufTy).Contents (Elt F))
    (h5 : W (Proc.devRef .tc main_call2_v5) = val_main_call2_v5 (F := F) x0 x1 x2 x5 x6 x7 x8 x9 x10 x11 x12 x13) :
    after (ops5d (F := F)) W (Proc.devRef .tc main_v46) = val_main_v46 (F := F) x0 x1 x2 x5 x6 x7 x8 x9 x10 x11 x12 x13 := by
  after_results_simp
  rw [h5]
  simp only [TRef.ofBuf, TRef.toBuf, cast_eq]
  rfl

theorem c5_v46 (W : Valuation τ sig (Elt F)) (x0 : (⟨S256, .i32⟩ : BufTy).Contents (Elt F)) (x1 : (⟨S256x10, .i32⟩ : BufTy).Contents (Elt F)) (x2 : (⟨S50000x256, .f32⟩ : BufTy).Contents (Elt F)) (x5 : (⟨S512x512, .f32⟩ : BufTy).Contents (Elt F)) (x6 : (⟨S512, .f32⟩ : BufTy).Contents (Elt F)) (x7 : (⟨S256x512, .f32⟩ : BufTy).Contents (Elt F)) (x8 : (⟨S256, .f32⟩ : BufTy).Contents (Elt F)) (x9 : (⟨S256x512, .f32⟩ : BufTy).Contents (Elt F)) (x10 : (⟨S256, .f32⟩ : BufTy).Contents (Elt F)) (x11 : (⟨S50000x256, .f32⟩ : BufTy).Contents (Elt F)) (x12 : (⟨S50000, .f32⟩ : BufTy).Contents (Elt F)) (x13 : (⟨S256, .f32⟩ : BufTy).Contents (Elt F))
    (h40 : W (Proc.devRef .tc main_v40) = val_main_v40 (F := F) x0 x1 x2 x5 x6 x7 x8 x9 x10 x13) (h11 : W (Proc.devRef .tc main_arg11) = x11) (h12 : W (Proc.devRef .tc main_arg12) = x12) :
    after (ops5 (F := F)) W (Proc.devRef .tc main_v46) = val_main_v46 (F := F) x0 x1 x2 x5 x6 x7 x8 x9 x10 x11 x12 x13 := by
  rw [ops5_split, StableHlo.after_append, StableHlo.after_append, StableHlo.after_append]
  have e45 := s5a W x0 x1 x2 x5 x6 x7 x8 x9 x10 x11 x12 x13 h40 h11 h12
  have e0 := s5b _ x0 x1 x2 x5 x6 x7 x8 x9 x10 x11 x12 x13 e45
  have e45' : after (ops5b (F := F)) (after (ops5a (F := F)) W) (Proc.devRef .tc main_v45) = val_main_v45 (F := F) x0 x1 x2 x5 x6 x7 x8 x9 x10 x11 x12 x13 :=
    (s5b_v45 _).trans e45
  exact s5d _ x0 x1 x2 x5 x6 x7 x8 x9 x10 x11 x12 x13 (s5c _ x0 x1 x2 x5 x6 x7 x8 x9 x10 x11 x12 x13 e45' e0)

theorem c5_pass_arg (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    StableHlo.after (ops5 (F := F)) W (Proc.devRef .tc r) = W (Proc.devRef .tc r) := by
  simp only [List.mem_cons, List.mem_singleton, List.not_mem_nil, or_false] at hr
  rcases hr with rfl | rfl | rfl | rfl | rfl | rfl | rfl | rfl | rfl | rfl | rfl | rfl | rfl | rfl <;> (after_results_simp <;> rfl)

theorem c5_pass_v27 (W : Valuation τ sig (Elt F)) :
    StableHlo.after (ops5 (F := F)) W (Proc.devRef .tc main_v27) = W (Proc.devRef .tc main_v27) := by
  after_results_simp <;> rfl

theorem c5_pass_v33 (W : Valuation τ sig (Elt F)) :
    StableHlo.after (ops5 (F := F)) W (Proc.devRef .tc main_v33) = W (Proc.devRef .tc main_v33) := by
  after_results_simp <;> rfl

end Cert.ReferenceIdeal.Hand.Chunks

end
-- ==== Proof.RefC6.lean ====
/- Chunk 6 of the reference's operations: the two prior gathers, as stages of the launch arguments. -/
import proofs.«402386_j49916109914289_3_alg».proof.Proof.RefRead

noncomputable section

namespace Cert.ReferenceIdeal.Hand.Chunks

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

theorem c6_v53 (W : Valuation τ sig (Elt F)) (x0 : (⟨S256, .i32⟩ : BufTy).Contents (Elt F)) (x3 : (⟨S50000x256, .f32⟩ : BufTy).Contents (Elt F))
    (h0 : W (Proc.devRef .tc main_arg0) = x0) (h3 : W (Proc.devRef .tc main_arg3) = x3) :
    StableHlo.after ops6 W (Proc.devRef .tc main_v53) = val_main_v53 (F := F) x0 x3 := by
  after_results_simp
  rw [h0, h3]
  rfl

theorem c6_v61 (W : Valuation τ sig (Elt F)) (x0 : (⟨S256, .i32⟩ : BufTy).Contents (Elt F)) (x4 : (⟨S50000x256, .f32⟩ : BufTy).Contents (Elt F))
    (h0 : W (Proc.devRef .tc main_arg0) = x0) (h4 : W (Proc.devRef .tc main_arg4) = x4) :
    StableHlo.after ops6 W (Proc.devRef .tc main_v61) = val_main_v61 (F := F) x0 x4 := by
  after_results_simp
  rw [h0, h4]
  rfl

abbrev ops6_W : List (Ref sig .tc) :=
  [main_c_4, main_v47, main_v48, main_c_5, main_v49, main_v50, main_v51, main_v52, main_v53, main_c_6, main_v54, main_v55, main_c_7, main_v56, main_v57, main_v58, main_v59, main_v60, main_call3_cst, main_call3_v0, main_call3_v1, main_call3_v2, main_call3_v3, main_call3_v4, main_call3_v5, main_call3_v6, main_call3_v7, main_call3_v8, main_call3_v9, main_call3_v10, main_call3_v11, main_v61]

theorem ops6_writes : (ops6 : List (HloOp τ sig (Elt F))).Forall fun op => op.writes ⊆ (ops6_W.map (Proc.devRef (τ := τ) .tc)).toFinset := by
  simp only [List.Forall]
  repeat' apply And.intro
  all_goals
    simp only [StableHlo.nullary_writes, StableHlo.unary_writes, StableHlo.binary_writes, StableHlo.ternary_writes,
      Finset.singleton_subset_iff, List.mem_toFinset]
    exact List.mem_map_of_mem (by decide)

theorem c6_pass_arg (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    StableHlo.after ops6 W (Proc.devRef .tc r) = W (Proc.devRef .tc r) :=
  StableHlo.after_of_writes_sub ops6 W ops6_writes
    ((by decide : ∀ r ∈ ([main_arg0, main_arg1, main_arg2, main_arg3, main_arg4, main_arg5, main_arg6, main_arg7, main_arg8, main_arg9, main_arg10, main_arg11, main_arg12, main_arg13] : List (Ref sig .tc)), r ∉ ops6_W) r hr)

theorem c6_pass_v27 (W : Valuation τ sig (Elt F)) :
    StableHlo.after ops6 W (Proc.devRef .tc main_v27) = W (Proc.devRef .tc main_v27) :=
  StableHlo.after_of_writes_sub ops6 W ops6_writes (by decide)

theorem c6_pass_v33 (W : Valuation τ sig (Elt F)) :
    StableHlo.after ops6 W (Proc.devRef .tc main_v33) = W (Proc.devRef .tc main_v33) :=
  StableHlo.after_of_writes_sub ops6 W ops6_writes (by decide)

theorem c6_pass_v46 (W : Valuation τ sig (Elt F)) :
    StableHlo.after ops6 W (Proc.devRef .tc main_v46) = W (Proc.devRef .tc main_v46) :=
  StableHlo.after_of_writes_sub ops6 W ops6_writes (by decide)

end Cert.ReferenceIdeal.Hand.Chunks

end
-- ==== Proof.RefC78.lean ====
/- Chunks 7 and 8 of the reference's operations: the divergence and the final sum, as stages of what they start from. -/
import proofs.«402386_j49916109914289_3_alg».proof.Proof.RefRead

noncomputable section

namespace Cert.ReferenceIdeal.Hand.Chunks

open Cert.ReferenceIdeal Cert.ReferenceIdeal.Gen Cert.ReferenceIdeal.Value Cert.ReferenceIdeal.Read
open Idealize.ShloMosaic Idealize.ShloMosaic.StableHlo

variable {F : FTy → Type} [FloatOps F]

section
variable (W : Valuation τ sig (Elt F)) (x0 : (⟨S256, .i32⟩ : BufTy).Contents (Elt F)) (x1 : (⟨S256x10, .i32⟩ : BufTy).Contents (Elt F)) (x2 x3 x4 : (⟨S50000x256, .f32⟩ : BufTy).Contents (Elt F)) (x5 : (⟨S512x512, .f32⟩ : BufTy).Contents (Elt F)) (x6 : (⟨S512, .f32⟩ : BufTy).Contents (Elt F)) (x7 : (⟨S256x512, .f32⟩ : BufTy).Contents (Elt F)) (x8 : (⟨S256, .f32⟩ : BufTy).Contents (Elt F)) (x9 : (⟨S256x512, .f32⟩ : BufTy).Contents (Elt F)) (x10 : (⟨S256, .f32⟩ : BufTy).Contents (Elt F)) (x11 : (⟨S50000x256, .f32⟩ : BufTy).Contents (Elt F)) (x12 : (⟨S50000, .f32⟩ : BufTy).Contents (Elt F)) (x13 : (⟨S256, .f32⟩ : BufTy).Contents (Elt F))

theorem c7_v77
    (h33 : W (Proc.devRef .tc main_v33) = val_main_v33 (F := F) x0 x1 x2 x5 x6 x9 x10)
    (h61 : W (Proc.devRef .tc main_v61) = val_main_v61 (F := F) x0 x4)
    (h53 : W (Proc.devRef .tc main_v53) = val_main_v53 (F := F) x0 x3)
    (h27 : W (Proc.devRef .tc main_v27) = val_main_v27 (F := F) x0 x1 x2 x5 x6 x7 x8) :
    StableHlo.after ops7 W (Proc.devRef .tc main_v77) = val_main_v77 (F := F) x0 x1 x2 x3 x4 x5 x6 x7 x8 x9 x10 := by
  after_results_simp
  rw [h33, h61, h53, h27]
  rfl

theorem c8_v81
    (h1 : W (Proc.devRef .tc main_arg1) = x1)
    (h46 : W (Proc.devRef .tc main_v46) = val_main_v46 (F := F) x0 x1 x2 x5 x6 x7 x8 x9 x10 x11 x12 x13)
    (h77 : W (Proc.devRef .tc main_v77) = val_main_v77 (F := F) x0 x1 x2 x3 x4 x5 x6 x7 x8 x9 x10) :
    StableHlo.after ops8 W (Proc.devRef .tc main_v81) = val_main_v81 (F := F) x0 x1 x2 x3 x4 x5 x6 x7 x8 x9 x10 x11 x12 x13 := by
  after_results_simp
  rw [h1, h46, h77]
  rfl

end

theorem c7_pass_arg (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    StableHlo.after ops7 W (Proc.devRef .tc r) = W (Proc.devRef .tc r) := by
  simp only [List.mem_cons, List.mem_singleton, List.not_mem_nil, or_false] at hr
  rcases hr with rfl | rfl | rfl | rfl | rfl | rfl | rfl | rfl | rfl | rfl | rfl | rfl | rfl | rfl <;> after_results_simp

theorem c7_pass_v46 (W : Valuation τ sig (Elt F)) :
    StableHlo.after ops7 W (Proc.devRef .tc main_v46) = W (Proc.devRef .tc main_v46) := by
  after_results_simp

theorem c8_pass_arg (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    StableHlo.after ops8 W (Proc.devRef .tc r) = W (Proc.devRef .tc r) := by
  simp only [List.mem_cons, List.mem_singleton, List.not_mem_nil, or_false] at hr
  rcases hr with rfl | rfl | rfl | rfl | rfl | rfl | rfl | rfl | rfl | rfl | rfl | rfl | rfl | rfl <;> after_results_simp

end Cert.ReferenceIdeal.Hand.Chunks

end
-- ==== Proof.RefRun.lean ====
/- The reference's run: its operations in eight consecutive chunks, each chunk's results read as stages of the launch arguments and chained; the arguments pass through every chunk unchanged. -/
import proofs.«402386_j49916109914289_3_alg».proof.Proof.RefC12
import proofs.«402386_j49916109914289_3_alg».proof.Proof.RefC34
import proofs.«402386_j49916109914289_3_alg».proof.Proof.RefC5
import proofs.«402386_j49916109914289_3_alg».proof.Proof.RefC6
import proofs.«402386_j49916109914289_3_alg».proof.Proof.RefC78
import Idealize.ShloMosaic.Lib.Pipeline.Frame
import Idealize.ShloMosaic.Lib.StableHlo.Run

noncomputable section

namespace Cert.ReferenceIdeal.Value

open Cert.ReferenceIdeal Cert.ReferenceIdeal.Gen Cert.ReferenceIdeal.Read Cert.ReferenceIdeal.Hand.Chunks
open Idealize.ShloMosaic Idealize.ShloMosaic.TcCoe Idealize.SL.Sem Idealize.ShloMosaic.StableHlo

variable {F : FTy → Type} [FloatOps F]

section Chain

variable (m : (ℓ : Loc nD τ sig) → Buf (Elt F) ℓ) (c : Dev nD)

abbrev L0 : Valuation τ sig (Elt F) := launchContents m c
abbrev L1 : Valuation τ sig (Elt F) := after ops1 (L0 m c)
abbrev L2 : Valuation τ sig (Elt F) := after ops2 (L1 m c)
abbrev L3 : Valuation τ sig (Elt F) := after ops3 (L2 m c)
abbrev L4 : Valuation τ sig (Elt F) := after ops4 (L3 m c)
abbrev L5 : Valuation τ sig (Elt F) := after ops5 (L4 m c)
abbrev L6 : Valuation τ sig (Elt F) := after ops6 (L5 m c)
abbrev L7 : Valuation τ sig (Elt F) := after ops7 (L6 m c)
abbrev L8 : Valuation τ sig (Elt F) := after ops8 (L7 m c)

theorem after_ops : after ops (L0 m c) = L8 m c := by
  rw [ops_split]; simp only [StableHlo.after_append]

abbrev X (r : Ref sig .tc) : Buf (Elt F) ((c.tc : Thread nD τ).loc r) := L0 m c (Proc.devRef .tc r)

abbrev argsL : List (Ref sig .tc) := [main_arg0, main_arg1, main_arg2, main_arg3, main_arg4, main_arg5, main_arg6, main_arg7, main_arg8, main_arg9, main_arg10, main_arg11, main_arg12, main_arg13]

theorem a1 (r : Ref sig .tc) (hr : r ∈ argsL) : L1 m c (Proc.devRef .tc r) = L0 m c (Proc.devRef .tc r) := c1_pass_arg _ r hr
theorem a2 (r : Ref sig .tc) (hr : r ∈ argsL) : L2 m c (Proc.devRef .tc r) = L0 m c (Proc.devRef .tc r) := (c2_pass_arg _ r hr).trans (a1 m c r hr)
theorem a3 (r : Ref sig .tc) (hr : r ∈ argsL) : L3 m c (Proc.devRef .tc r) = L0 m c (Proc.devRef .tc r) := (c3_pass_arg _ r hr).trans (a2 m c r hr)
theorem a4 (r : Ref sig .tc) (hr : r ∈ argsL) : L4 m c (Proc.devRef .tc r) = L0 m c (Proc.devRef .tc r) := (c4_pass_arg _ r hr).trans (a3 m c r hr)
theorem a5 (r : Ref sig .tc) (hr : r ∈ argsL) : L5 m c (Proc.devRef .tc r) = L0 m c (Proc.devRef .tc r) := (c5_pass_arg _ r hr).trans (a4 m c r hr)
theorem a6 (r : Ref sig .tc) (hr : r ∈ argsL) : L6 m c (Proc.devRef .tc r) = L0 m c (Proc.devRef .tc r) := (c6_pass_arg _ r hr).trans (a5 m c r hr)
theorem a7 (r : Ref sig .tc) (hr : r ∈ argsL) : L7 m c (Proc.devRef .tc r) = L0 m c (Proc.devRef .tc r) := (c7_pass_arg _ r hr).trans (a6 m c r hr)
theorem a8 (r : Ref sig .tc) (hr : r ∈ argsL) : L8 m c (Proc.devRef .tc r) = L0 m c (Proc.devRef .tc r) := (c8_pass_arg _ r hr).trans (a7 m c r hr)

theorem l1_v15 : L1 m c (Proc.devRef .tc main_v15) = val_main_v15 (X m c main_arg0) (X m c main_arg2) := c1_v15 _ _ _ rfl rfl
theorem l1_v13 : L1 m c (Proc.devRef .tc main_v13) = val_main_v13 (X m c main_arg1) (X m c main_arg2) := c1_v13 _ _ _ rfl rfl
theorem l2_v22 : L2 m c (Proc.devRef .tc main_v22) = val_main_v22 (X m c main_arg0) (X m c main_arg1) (X m c main_arg2) (X m c main_arg5) (X m c main_arg6) :=
  c2_v22 _ _ _ _ _ _ (l1_v15 m c) (l1_v13 m c) (a1 m c main_arg5 (by decide)) (a1 m c main_arg6 (by decide))
theorem l3_v27 : L3 m c (Proc.devRef .tc main_v27) = val_main_v27 (X m c main_arg0) (X m c main_arg1) (X m c main_arg2) (X m c main_arg5) (X m c main_arg6) (X m c main_arg7) (X m c main_arg8) :=
  c3_v27 _ _ _ _ _ _ _ _ (l2_v22 m c) (a2 m c main_arg7 (by decide)) (a2 m c main_arg8 (by decide))
theorem l3_v33 : L3 m c (Proc.devRef .tc main_v33) = val_main_v33 (X m c main_arg0) (X m c main_arg1) (X m c main_arg2) (X m c main_arg5) (X m c main_arg6) (X m c main_arg9) (X m c main_arg10) :=
  c3_v33 _ _ _ _ _ _ _ _ (l2_v22 m c) (a2 m c main_arg9 (by decide)) (a2 m c main_arg10 (by decide))
theorem l4_v40 : L4 m c (Proc.devRef .tc main_v40) = val_main_v40 (X m c main_arg0) (X m c main_arg1) (X m c main_arg2) (X m c main_arg5) (X m c main_arg6) (X m c main_arg7) (X m c main_arg8) (X m c main_arg9) (X m c main_arg10) (X m c main_arg13) :=
  c4_v40 _ _ _ _ _ _ _ _ _ _ _ (l3_v33 m c) (l3_v27 m c) (a3 m c main_arg13 (by decide))
theorem l4_v27 : L4 m c (Proc.devRef .tc main_v27) = val_main_v27 (X m c main_arg0) (X m c main_arg1) (X m c main_arg2) (X m c main_arg5) (X m c main_arg6) (X m c main_arg7) (X m c main_arg8) := (c4_pass_v27 _).trans (l3_v27 m c)
theorem l4_v33 : L4 m c (Proc.devRef .tc main_v33) = val_main_v33 (X m c main_arg0) (X m c main_arg1) (X m c main_arg2) (X m c main_arg5) (X m c main_arg6) (X m c main_arg9) (X m c main_arg10) := (c4_pass_v33 _).trans (l3_v33 m c)
theorem l5_v46 : L5 m c (Proc.devRef .tc main_v46) = val_main_v46 (X m c main_arg0) (X m c main_arg1) (X m c main_arg2) (X m c main_arg5) (X m c main_arg6) (X m c main_arg7) (X m c main_arg8) (X m c main_arg9) (X m c main_arg10) (X m c main_arg11) (X m c main_arg12) (X m c main_arg13) :=
  c5_v46 _ _ _ _ _ _ _ _ _ _ _ _ _ (l4_v40 m c) (a4 m c main_arg11 (by decide)) (a4 m c main_arg12 (by decide))
theorem l5_v27 : L5 m c (Proc.devRef .tc main_v27) = val_main_v27 (X m c main_arg0) (X m c main_arg1) (X m c main_arg2) (X m c main_arg5) (X m c main_arg6) (X m c main_arg7) (X m c main_arg8) := (c5_pass_v27 _).trans (l4_v27 m c)
theorem l5_v33 : L5 m c (Proc.devRef .tc main_v33) = val_main_v33 (X m c main_arg0) (X m c main_arg1) (X m c main_arg2) (X m c main_arg5) (X m c main_arg6) (X m c main_arg9) (X m c main_arg10) := (c5_pass_v33 _).trans (l4_v33 m c)
theorem l6_v53 : L6 m c (Proc.devRef .tc main_v53) = val_main_v53 (X m c main_arg0) (X m c main_arg3) := c6_v53 _ _ _ (a5 m c main_arg0 (by decide)) (a5 m c main_arg3 (by decide))
theorem l6_v61 : L6 m c (Proc.devRef .tc main_v61) = val_main_v61 (X m c main_arg0) (X m c main_arg4) := c6_v61 _ _ _ (a5 m c main_arg0 (by decide)) (a5 m c main_arg4 (by decide))
theorem l6_v27 : L6 m c (Proc.devRef .tc main_v27) = val_main_v27 (X m c main_arg0) (X m c main_arg1) (X m c main_arg2) (X m c main_arg5) (X m c main_arg6) (X m c main_arg7) (X m c main_arg8) := (c6_pass_v27 _).trans (l5_v27 m c)
theorem l6_v33 : L6 m c (Proc.devRef .tc main_v33) = val_main_v33 (X m c main_arg0) (X m c main_arg1) (X m c main_arg2) (X m c main_arg5) (X m c main_arg6) (X m c main_arg9) (X m c main_arg10) := (c6_pass_v33 _).trans (l5_v33 m c)
theorem l6_v46 : L6 m c (Proc.devRef .tc main_v46) = val_main_v46 (X m c main_arg0) (X m c main_arg1) (X m c main_arg2) (X m c main_arg5) (X m c main_arg6) (X m c main_arg7) (X m c main_arg8) (X m c main_arg9) (X m c main_arg10) (X m c main_arg11) (X m c main_arg12) (X m c main_arg13) := (c6_pass_v46 _).trans (l5_v46 m c)
theorem l7_v77 : L7 m c (Proc.devRef .tc main_v77) = val_main_v77 (X m c main_arg0) (X m c main_arg1) (X m c main_arg2) (X m c main_arg3) (X m c main_arg4) (X m c main_arg5) (X m c main_arg6) (X m c main_arg7) (X m c main_arg8) (X m c main_arg9) (X m c main_arg10) :=
  c7_v77 _ _ _ _ _ _ _ _ _ _ _ _ (l6_v33 m c) (l6_v61 m c) (l6_v53 m c) (l6_v27 m c)
theorem l7_v46 : L7 m c (Proc.devRef .tc main_v46) = val_main_v46 (X m c main_arg0) (X m c main_arg1) (X m c main_arg2) (X m c main_arg5) (X m c main_arg6) (X m c main_arg7) (X m c main_arg8) (X m c main_arg9) (X m c main_arg10) (X m c main_arg11) (X m c main_arg12) (X m c main_arg13) := (c7_pass_v46 _).trans (l6_v46 m c)

abbrev lastStage : Buf (Elt F) ((c.tc : Thread nD τ).loc main_v81) := val_main_v81 (X m c main_arg0) (X m c main_arg1) (X m c main_arg2) (X m c main_arg3) (X m c main_arg4) (X m c main_arg5) (X m c main_arg6) (X m c main_arg7) (X m c main_arg8) (X m c main_arg9) (X m c main_arg10) (X m c main_arg11) (X m c main_arg12) (X m c main_arg13)

theorem l8_v81 : L8 m c (Proc.devRef .tc main_v81) = lastStage m c :=
  c8_v81 _ _ _ _ _ _ _ _ _ _ _ _ _ _ _ (a7 m c main_arg1 (by decide)) (l7_v46 m c) (l7_v77 m c)

theorem after_ops_v81 : after ops (launchContents m c) (Proc.devRef .tc main_v81) = lastStage m c := by
  rw [show launchContents m c = L0 m c from rfl, after_ops, l8_v81]

theorem after_ops_arg (r : Ref sig .tc) (hr : r ∈ argsL) :
    after ops (launchContents m c) (Proc.devRef .tc r) = m ((c.tc : Thread nD τ).loc r) := by
  rw [show launchContents m c = L0 m c from rfl, after_ops, a8 m c r hr]

end Chain

set_option maxHeartbeats 64800000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = lastStage m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v81).trans (after_ops_v81 m c),
      (h c main_arg0).trans (after_ops_arg m c main_arg0 (by decide)),
      (h c main_arg1).trans (after_ops_arg m c main_arg1 (by decide)),
      (h c main_arg2).trans (after_ops_arg m c main_arg2 (by decide)),
      (h c main_arg3).trans (after_ops_arg m c main_arg3 (by decide)),
      (h c main_arg4).trans (after_ops_arg m c main_arg4 (by decide)),
      (h c main_arg5).trans (after_ops_arg m c main_arg5 (by decide)),
      (h c main_arg6).trans (after_ops_arg m c main_arg6 (by decide)),
      (h c main_arg7).trans (after_ops_arg m c main_arg7 (by decide)),
      (h c main_arg8).trans (after_ops_arg m c main_arg8 (by decide)),
      (h c main_arg9).trans (after_ops_arg m c main_arg9 (by decide)),
      (h c main_arg10).trans (after_ops_arg m c main_arg10 (by decide)),
      (h c main_arg11).trans (after_ops_arg m c main_arg11 (by decide)),
      (h c main_arg12).trans (after_ops_arg m c main_arg12 (by decide)),
      (h c main_arg13).trans (after_ops_arg m c main_arg13 (by decide))⟩)
    (run_seq scopedRefs_eq scopedSems_eq defs main (fun _ => ops) main_eq (fun _ => ops_sub) m ρ)

end Cert.ReferenceIdeal.Value

end
-- ==== Proof.Ref.Claims.lean ====
/- The reference's frame, and its run ending at the specification's loss. -/
import proofs.«402386_j49916109914289_3_alg».proof.Defs
import proofs.«402386_j49916109914289_3_alg».proof.Proof.Gen.ReferenceIdeal
import proofs.«402386_j49916109914289_3_alg».proof.Proof.Gen.Pre_finite_inputs
import proofs.«402386_j49916109914289_3_alg».proof.Proof.RefRun
import proofs.«402386_j49916109914289_3_alg».proof.Proof.Ref.Value

noncomputable section

namespace Cert.ReferenceIdeal.Hand

open Cert.ReferenceIdeal Cert.ReferenceIdeal.Gen Idealize.ShloMosaic Idealize.ShloMosaic.TcCoe Idealize.SL.Sem
  Idealize.ShloMosaic.StableHlo
open Cert.Hand

variable [hR : Cert.ReferenceIdeal.Facts] [hP : Cert.Pre_finite_inputs.Facts]

theorem frame_ri : Cert.frame_ReferenceIdeal := fun m ρ _ =>
  (θ_run Cert.ReferenceIdeal.defs _ _).mono (fun _ h c => (h c).2) (Cert.ReferenceIdeal.Value.run (F := Ideal) m ρ)

theorem ref_run_value (m' : (ℓ : Loc Cert.ReferenceIdeal.nD Cert.ReferenceIdeal.τ Cert.ReferenceIdeal.sig) → Buf (Elt Ideal) ℓ)
    (ρ' : Dev Cert.ReferenceIdeal.nD → PrngReg) (hpre' : Cert.Pre_ReferenceIdeal m') :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v81) = (fun _ => Spec.result (Ir m' c))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) :=
  (θ_run Cert.ReferenceIdeal.defs _ _).mono (fun _ h c => ⟨(h c).1.trans (ref_value m' c hpre'), (h c).2⟩)
    (Cert.ReferenceIdeal.Value.run (F := Ideal) m' ρ')

end Cert.ReferenceIdeal.Hand

end
-- ==== Proof.lean ====
/- The five claims: both kernel frames from one proof over any float reading, the reference's frame from its run, and the value claim with both sides at the specification's loss of the same inputs. -/
import proofs.«402386_j49916109914289_3_alg».proof.Defs
import proofs.«402386_j49916109914289_3_alg».proof.Proof.Gen.Kernel
import proofs.«402386_j49916109914289_3_alg».proof.Proof.Gen.KernelIdeal
import proofs.«402386_j49916109914289_3_alg».proof.Proof.Gen.ReferenceIdeal
import proofs.«402386_j49916109914289_3_alg».proof.Proof.Gen.Pre_finite_inputs
import proofs.«402386_j49916109914289_3_alg».proof.Proof.KI.Run
import proofs.«402386_j49916109914289_3_alg».proof.Proof.KI.Val1
import proofs.«402386_j49916109914289_3_alg».proof.Proof.KI.Bridge
import proofs.«402386_j49916109914289_3_alg».proof.Proof.Ref.Claims

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- Reading each named constant as its own bit pattern. -/
instance : Named Bits := ⟨fun _ _ {φ} bits => Scalar.ofBits φ bits⟩

set_option maxHeartbeats 4000000 in
/-- Under that reading the idealized program's kernel bodies are the printed program's, label by label. -/
theorem defs₀_eq : Cert.Kernel.defs₀ (F := Bits) = Cert.KernelIdeal.defs₀ (F := Bits) := by
  unfold Cert.Kernel.defs₀ Cert.KernelIdeal.defs₀
  apply congrArg
  funext x y
  match x, y with
  | 0, (t, s) => rfl
  | 1, (t, s) => rfl
  | ⟨_ + 2, h⟩, _ => exact absurd h (Nat.not_lt.2 (Nat.le_add_left _ _))

set_option maxHeartbeats 4000000 in
theorem defs_eq : Cert.Kernel.defs (F := Bits) = Cert.KernelIdeal.defs (F := Bits) := by
  unfold Cert.Kernel.defs Cert.KernelIdeal.defs
  rw [defs₀_eq]
  try rfl

set_option maxHeartbeats 4000000 in
/-- The printed program is the idealized one with its one named constant read as its pattern, so the frame proved for
    the idealized program at every float reading is the printed program's. -/
theorem frame_k : Cert.frame_Kernel := fun m ρ _ => by
  rw [defs_eq]
  exact Cert.KernelIdeal.Hand.run_frame (F := Bits) m ρ

theorem frame_ki : Cert.frame_KernelIdeal := fun m ρ _ => Cert.KernelIdeal.Hand.run_frame m ρ

theorem preserves : Cert.preserves_Kernel_KernelIdeal :=
  IdealRules.named_const.statement Cert.KernelIdeal.κ "neg_big" .f32 0xFF333332#32 ⊥ rfl

open Cert.KernelIdeal.Hand in
theorem algebraic : Cert.algebraic_KernelIdeal_ReferenceIdeal := by
  intro m ρ m' ρ' hpre hagree
  have hpre' : Cert.Pre_ReferenceIdeal m' := fun c => by
    have h := hpre c
    obtain ⟨e0, e1, e2, e3, e4, e5, e6, e7, e8, e9, e10, e11, e12, e13⟩ := hagree c
    rw [e0, e1, e2, e3, e4, e5, e6, e7, e8, e9, e10, e11, e12, e13]
    exact h
  have hI : ∀ c, Cert.ReferenceIdeal.Hand.Ir m' c = Ik m c := fun c => by
    obtain ⟨e0, e1, e2, e3, e4, e5, e6, e7, e8, e9, e10, e11, e12, e13⟩ := hagree c
    unfold Cert.ReferenceIdeal.Hand.Ir Ik
    rw [e0, e1, e2, e3, e4, e5, e6, e7, e8, e9, e10, e11, e12, e13]
  refine ⟨fun c _ => Cert.Hand.Spec.result (Ik m c), ?_, ?_⟩
  · exact (θ_run Cert.KernelIdeal.defs _ _).mono (fun r h c =>
      ⟨(h c _ (mem_uc Cert.KernelIdeal.main_v75 (by decide))).trans (kernel_value m ρ c hpre),
       (h c _ (mem_uc Cert.KernelIdeal.main_arg0 (by decide))).trans (W6_main_arg0 m ρ c),
       (h c _ (mem_uc Cert.KernelIdeal.main_arg1 (by decide))).trans (W6_main_arg1 m ρ c),
       (h c _ (mem_uc Cert.KernelIdeal.main_arg2 (by decide))).trans (W6_main_arg2 m ρ c),
       (h c _ (mem_uc Cert.KernelIdeal.main_arg3 (by decide))).trans (W6_main_arg3 m ρ c),
       (h c _ (mem_uc Cert.KernelIdeal.main_arg4 (by decide))).trans (W6_main_arg4 m ρ c),
       (h c _ (mem_uc Cert.KernelIdeal.main_arg5 (by decide))).trans (W6_main_arg5 m ρ c),
       (h c _ (mem_uc Cert.KernelIdeal.main_arg6 (by decide))).trans (W6_main_arg6 m ρ c),
       (h c _ (mem_uc Cert.KernelIdeal.main_arg7 (by decide))).trans (W6_main_arg7 m ρ c),
       (h c _ (mem_uc Cert.KernelIdeal.main_arg8 (by decide))).trans (W6_main_arg8 m ρ c),
       (h c _ (mem_uc Cert.KernelIdeal.main_arg9 (by decide))).trans (W6_main_arg9 m ρ c),
       (h c _ (mem_uc Cert.KernelIdeal.main_arg10 (by decide))).trans (W6_main_arg10 m ρ c),
       (h c _ (mem_uc Cert.KernelIdeal.main_arg11 (by decide))).trans (W6_main_arg11 m ρ c),
       (h c _ (mem_uc Cert.KernelIdeal.main_arg12 (by decide))).trans (W6_main_arg12 m ρ c),
       (h c _ (mem_uc Cert.KernelIdeal.main_arg13 (by decide))).trans (W6_main_arg13 m ρ c)⟩)
      (run_all m ρ mask1_ideal)
  · exact (θ_run Cert.ReferenceIdeal.defs _ _).mono (fun r h c => ⟨(h c).1.trans (congrArg (fun I => fun _ => Cert.Hand.Spec.result I) (hI c)), (h c).2⟩)
      (Cert.ReferenceIdeal.Hand.ref_run_value m' ρ' hpre')

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame_ri, preserves, algebraic⟩

end Cert.Proof

end
